-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x12 : Shape := ⟨2, ![100000, 12]⟩
abbrev S1600000 : Shape := ⟨1, ![1600000]⟩
abbrev S100000 : Shape := ⟨1, ![100000]⟩
abbrev S12 : Shape := ⟨1, ![12]⟩
abbrev S4x128 : Shape := ⟨2, ![4, 128]⟩
abbrev S12x128 : Shape := ⟨2, ![12, 128]⟩
abbrev S128 : Shape := ⟨1, ![128]⟩
abbrev S128x128 : Shape := ⟨2, ![128, 128]⟩
abbrev S4x128x128 : Shape := ⟨3, ![4, 128, 128]⟩
abbrev S128x2 : Shape := ⟨2, ![128, 2]⟩
abbrev S2 : Shape := ⟨1, ![2]⟩
abbrev S_ : Shape := ⟨0, ![]⟩

class Facts : Prop where
  bcast_S_S100000x12 : S_.BroadcastsInDim S100000x12 (![] : Fin 0 → Fin S100000x12.rank)
  reducesTo_S100000x12_S_d0_1 : S100000x12.ReducesTo [0, 1] S_
  h_S_ : 0 < S_.numel
  bcast_S_S12 : S_.BroadcastsInDim S12 (![] : Fin 0 → Fin S12.rank)
  reducesTo_S12_S_d0 : S12.ReducesTo [0] S_
  bcast_S_S4x128 : S_.BroadcastsInDim S4x128 (![] : Fin 0 → Fin S4x128.rank)
  reducesTo_S4x128_S_d0_1 : S4x128.ReducesTo [0, 1] S_
  bcast_S_S12x128 : S_.BroadcastsInDim S12x128 (![] : Fin 0 → Fin S12x128.rank)
  reducesTo_S12x128_S_d0_1 : S12x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg14 : FVec F S128x2 .f32) (main_arg15 : FVec F S2 .f32) (main_v48 : IVec S_ 1) (main_v49 : FVec F S4x128 .f32) (main_v50 : FVec F S4x128 .f32) : IVec S_ 1 :=
  let main_v51 : IVec S4x128 1 := cmpf .olt main_v49 main_v50
  let main_c_19 : IVec S_ 1 := constantI S_ 1 1#1
  let main_v52 : IVec S_ 1 := (fun x v => Host.reduce IntOp.andi x v reducesTo_S4x128_S_d0_1 h_S_) main_v51 main_c_19
  let main_v53 : IVec S_ 1 := andi main_v48 main_v52
  let main_v54 : FVec F S128x2 .f32 := Host.absf main_arg14
  let main_cst_20 : FVec F S_ .f32 := constant S_ .f32 0x7F800000#32
  let main_v55 : FVec F S128x2 .f32 := broadcastInDim S128x2 ![] bcast_S_S128x2 main_cst_20
  let main_v56 : IVec S128x2 1 := cmpf .olt main_v54 main_v55
  let main_c_21 : IVec S_ 1 := constantI S_ 1 1#1
  let main_v57 : IVec S_ 1 := (fun x v => Host.reduce IntOp.andi x v reducesTo_S128x2_S_d0_1 h_S_) main_v56 main_c_21
  let main_v58 : IVec S_ 1 := andi main_v53 main_v57
  let main_v59 : FVec F S2 .f32 := Host.absf main_arg15
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg10 : FVec F S4x128x128 .f32) (main_arg11 : FVec F S4x128 .f32) (main_arg12 : FVec F S4x128x128 .f32) (main_arg13 : FVec F S4x128 .f32) (main_arg14 : FVec F S128x2 .f32) (main_arg15 : FVec F S2 .f32) (main_v33 : IVec S_ 1) : IVec S_ 1 :=
  let main_v34 : FVec F S4x128x128 .f32 := Host.absf main_arg10
  let main_cst_12 : FVec F S_ .f32 := constant S_ .f32 0x7F800000#32
  let main_v35 : FVec F S4x128x128 .f32 := broadcastInDim S4x128x128 ![] bcast_S_S4x128x128 main_cst_12
  let main_v36 : IVec S4x128x128 1 := cmpf .olt main_v34 main_v35
  let main_c_13 : IVec S_ 1 := constantI S_ 1 1#1
  let main_v37 : IVec S_ 1 := (fun x v => Host.reduce IntOp.andi x v reducesTo_S4x128x128_S_d0_1_2 h_S_) main_v36 main_c_13
  let main_v38 : IVec S_ 1 := andi main_v33 main_v37
  let main_v39 : FVec F S4x128 .f32 := Host.absf main_arg11
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S4x128x128 .f32 := Host.absf main_arg12
  let main_cst_16 : FVec F S_ .f32 := constant S_ .f32 0x7F800000#32
  let main_v45 : FVec F S4x128x128 .f32 := broadcastInDim S4x128x128 ![] bcast_S_S4x128x128 main_cst_16
  let main_v46 : IVec S4x128x128 1 := cmpf .olt main_v44 main_v45
  let main_c_17 : IVec S_ 1 := constantI S_ 1 1#1
  let main_v47 : IVec S_ 1 := (fun x v => Host.reduce IntOp.andi x v reducesTo_S4x128x128_S_d0_1_2 h_S_) main_v46 main_c_17
  let main_v48 : IVec S_ 1 := andi main_v43 main_v47
  let main_v49 : FVec F S4x128 .f32 := Host.absf main_arg13
  let main_cst_18 : FVec F S_ .f32 := constant S_ .f32 0x7F800000#32
  let main_v50 : FVec F S4x128 .f32 := broadcastInDim S4x128 ![] bcast_S_S4x128 main_cst_18
  fn_part3 (F := F) main_arg14 main_arg15 main_v48 main_v49 main_v50

def fn_part1 {F : FTy → Type} [FloatOps F] (main_arg7 : FVec F S128 .f32) (main_arg8 : FVec F S128x128 .f32) (main_arg9 : FVec F S128 .f32) (main_arg10 : FVec F S4x128x128 .f32) (main_arg11 : FVec F S4x128 .f32) (main_arg12 : FVec F S4x128x128 .f32) (main_arg13 : FVec F S4x128 .f32) (main_arg14 : FVec F S128x2 .f32) (main_arg15 : FVec F S2 .f32) (main_v13 : IVec S_ 1) (main_v16 : IVec S12x128 1) : IVec S_ 1 :=
  let main_c_5 : IVec S_ 1 := constantI S_ 1 1#1
  let main_v17 : IVec S_ 1 := (fun x v => Host.reduce IntOp.andi x v reducesTo_S12x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S100000x12 .f32) (main_arg1 : IVec S1600000 32) (main_arg2 : IVec S1600000 32) (main_arg3 : IVec S100000 32) (main_arg4 : FVec F S12 .f32) (main_arg5 : FVec F S4x128 .f32) (main_arg6 : FVec F S12x128 .f32) (main_arg7 : FVec F S128 .f32) (main_arg8 : FVec F S128x128 .f32) (main_arg9 : FVec F S128 .f32) (main_arg10 : FVec F S4x128x128 .f32) (main_arg11 : FVec F S4x128 .f32) (main_arg12 : FVec F S4x128x128 .f32) (main_arg13 : FVec F S4x128 .f32) (main_arg14 : FVec F S128x2 .f32) (main_arg15 : FVec F S2 .f32) : IVec S_ 1 :=
  let main_v0 : FVec F S100000x12 .f32 := Host.absf main_arg0
  let main_cst : FVec F S_ .f32 := constant S_ .f32 0x7F800000#32
  let main_v1 : FVec F S100000x12 .f32 := broadcastInDim S100000x12 ![] bcast_S_S100000x12 main_cst
  let main_v2 : IVec S100000x12 1 := cmpf .olt main_v0 main_v1
  let main_c : IVec S_ 1 := constantI S_ 1 1#1
  let main_v3 : IVec S_ 1 := (fun x v => Host.reduce IntOp.andi x v reducesTo_S100000x12_S_d0_1 h_S_) main_v2 main_c
  let main_v4 : FVec F S12 .f32 := Host.absf main_arg4
  let main_cst_0 : FVec F S_ .f32 := constant S_ .f32 0x7F800000#32
  let main_v5 : FVec F S12 .f32 := broadcastInDim S12 ![] bcast_S_S12 main_cst_0
  let main_v6 : IVec S12 1 := cmpf .olt main_v4 main_v5
  let main_c_1 : IVec S_ 1 := constantI S_ 1 1#1
  let main_v7 : IVec S_ 1 := (fun x v => Host.reduce IntOp.andi x v reducesTo_S12_S_d0 h_S_) main_v6 main_c_1
  let main_v8 : IVec S_ 1 := andi main_v3 main_v7
  let main_v9 : FVec F S4x128 .f32 := Host.absf main_arg5
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S12x128 .f32 := Host.absf main_arg6
  let main_cst_4 : FVec F S_ .f32 := constant S_ .f32 0x7F800000#32
  let main_v15 : FVec F S12x128 .f32 := broadcastInDim S12x128 ![] bcast_S_S12x128 main_cst_4
  let main_v16 : IVec S12x128 1 := cmpf .olt main_v14 main_v15
  fn_part1 (F := F) main_arg7 main_arg8 main_arg9 main_arg10 main_arg11 main_arg12 main_arg13 main_arg14 main_arg15 main_v13 main_v16
-- ==== Kernel.lean ====
abbrev S100000x12 : Shape := ⟨2, ![100000, 12]⟩
abbrev S1600000 : Shape := ⟨1, ![1600000]⟩
abbrev S100000 : Shape := ⟨1, ![100000]⟩
abbrev S12 : Shape := ⟨1, ![12]⟩
abbrev S4x128 : Shape := ⟨2, ![4, 128]⟩
abbrev S12x128 : Shape := ⟨2, ![12, 128]⟩
abbrev S128 : Shape := ⟨1, ![128]⟩
abbrev S128x128 : Shape := ⟨2, ![128, 128]⟩
abbrev S4x128x128 : Shape := ⟨3, ![4, 128, 128]⟩
abbrev S128x2 : Shape := ⟨2, ![128, 2]⟩
abbrev S2 : Shape := ⟨1, ![2]⟩
abbrev S100000x1 : Shape := ⟨2, ![100000, 1]⟩
abbrev S_ : Shape := ⟨0, ![]⟩
abbrev S1600000x1 : Shape := ⟨2, ![1600000, 1]⟩
abbrev S1600000x12 : Shape := ⟨2, ![1600000, 12]⟩
abbrev S1x12 : Shape := ⟨2, ![1, 12]⟩
abbrev S1x128 : Shape := ⟨2, ![1, 128]⟩
abbrev S100000x128 : Shape := ⟨2, ![100000, 128]⟩
abbrev S5000x12 : Shape := ⟨2, ![5000, 12]⟩
abbrev S5000x1 : Shape := ⟨2, ![5000, 1]⟩
abbrev S5000x128 : Shape := ⟨2, ![5000, 128]⟩
abbrev S1600000x128 : Shape := ⟨2, ![1600000, 128]⟩
abbrev S1x128x128 : Shape := ⟨3, ![1, 128, 128]⟩
abbrev S1x2 : Shape := ⟨2, ![1, 2]⟩
abbrev S128x1 : Shape := ⟨2, ![128, 1]⟩

abbrev nBuf : Space → Nat
  | .hbm => 151
  | .vmem => 74
  | .smem => 0
  | _ => 0

abbrev hbmTy0_0 (i : Nat) : BufTy := match i % 128 with
  | 0 => ⟨S100000x12, .f32⟩
  | 1 => ⟨S1600000, .i32⟩
  | 2 => ⟨S1600000, .i32⟩
  | 3 => ⟨S100000, .i32⟩
  | 4 => ⟨S12, .f32⟩
  | 5 => ⟨S4x128, .f32⟩
  | 6 => ⟨S12x128, .f32⟩
  | 7 => ⟨S128, .f32⟩
  | 8 => ⟨S128x128, .f32⟩
  | 9 => ⟨S128, .f32⟩
  | 10 => ⟨S4x128x128, .f32⟩
  | 11 => ⟨S4x128, .f32⟩
  | 12 => ⟨S4x128x128, .f32⟩
  | 13 => ⟨S4x128, .f32⟩
  | 14 => ⟨S128x2, .f32⟩
  | 15 => ⟨S2, .f32⟩
  | 16 => ⟨S100000x1, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S100000x1, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x12, .f32⟩
  | 33 => ⟨S_, .f32⟩
  | 34 => ⟨S100000x12, .f32⟩
  | 35 => ⟨S1600000x1, .i32⟩
  | 36 => ⟨S100000x12, .f32⟩
  | 37 => ⟨S1x12, .f32⟩
  | 38 => ⟨S1x128, .f32⟩
  | 39 => ⟨S1x128, .f32⟩
  | 40 => ⟨S100000x128, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x128, .f32⟩
  | 50 => ⟨S_, .f32⟩
  | 51 => ⟨S100000x128, .f32⟩
  | 52 => ⟨S1600000x1, .i32⟩
  | 53 => ⟨S100000x128, .f32⟩
  | 54 => ⟨S1x128, .f32⟩
  | 55 => ⟨S128, .f32⟩
  | 56 => ⟨S1x128x128, .f32⟩
  | 57 => ⟨S128x128, .f32⟩
  | 58 => ⟨S1x128, .f32⟩
  | 59 => ⟨S128, .f32⟩
  | 60 => ⟨S1x128x128, .f32⟩
  | 61 => ⟨S128x128, .f32⟩
  | 62 => ⟨S1x128, .f32⟩
  | 63 => ⟨S128, .f32⟩
  | 64 => ⟨S1x128, .f32⟩
  | 65 => ⟨S1x128, .f32⟩
  | 66 => ⟨S1x128, .f32⟩
  | 67 => ⟨S100000x128, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x128, .f32⟩
  | 77 => ⟨S_, .f32⟩
  | 78 => ⟨S100000x128, .f32⟩
  | 79 => ⟨S1600000x1, .i32⟩
  | 80 => ⟨S100000x128, .f32⟩
  | 81 => ⟨S1x128, .f32⟩
  | 82 => ⟨S128, .f32⟩
  | 83 => ⟨S1x128x128, .f32⟩
  | 84 => ⟨S128x128, .f32⟩
  | 85 => ⟨S1x128, .f32⟩
  | 86 => ⟨S128, .f32⟩
  | 87 => ⟨S1x128x128, .f32⟩
  | 88 => ⟨S128x128, .f32⟩
  | 89 => ⟨S1x128, .f32⟩
  | 90 => ⟨S128, .f32⟩
  | 91 => ⟨S1x128, .f32⟩
  | 92 => ⟨S1x128, .f32⟩
  | 93 => ⟨S1x128, .f32⟩
  | 94 => ⟨S100000x128, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x128, .f32⟩
  | 104 => ⟨S_, .f32⟩
  | 105 => ⟨S100000x128, .f32⟩
  | 106 => ⟨S1600000x1, .i32⟩
  | 107 => ⟨S100000x128, .f32⟩
  | 108 => ⟨S1x128, .f32⟩
  | 109 => ⟨S128, .f32⟩
  | 110 => ⟨S1x128x128, .f32⟩
  | 111 => ⟨S128x128, .f32⟩
  | 112 => ⟨S1x128, .f32⟩
  | 113 => ⟨S128, .f32⟩
  | 114 => ⟨S1x128x128, .f32⟩
  | 115 => ⟨S128x128, .f32⟩
  | 116 => ⟨S1x128, .f32⟩
  | 117 => ⟨S128, .f32⟩
  | 118 => ⟨S1x128, .f32⟩
  | 119 => ⟨S1x128, .f32⟩
  | 120 => ⟨S1x128, .f32⟩
  | 121 => ⟨S100000x128, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x12, .f32⟩

abbrev hbmTy0_1 (i : Nat) : BufTy := match i % 128 with
  | 0 => ⟨S1600000, .i32⟩
  | 1 => ⟨S1600000x1, .i32⟩
  | 2 => ⟨S1600000x128, .f32⟩
  | 3 => ⟨S_, .f32⟩
  | 4 => ⟨S100000x128, .f32⟩
  | 5 => ⟨S1600000x1, .i32⟩
  | 6 => ⟨S100000x128, .f32⟩
  | 7 => ⟨S1x128, .f32⟩
  | 8 => ⟨S128, .f32⟩
  | 9 => ⟨S1x128x128, .f32⟩
  | 10 => ⟨S128x128, .f32⟩
  | 11 => ⟨S1x128, .f32⟩
  | 12 => ⟨S128, .f32⟩
  | 13 => ⟨S1x128x128, .f32⟩
  | 14 => ⟨S128x128, .f32⟩
  | 15 => ⟨S1x128, .f32⟩
  | 16 => ⟨S128, .f32⟩
  | 17 => ⟨S1x128, .f32⟩
  | 18 => ⟨S1x128, .f32⟩
  | 19 => ⟨S1x128, .f32⟩
  | 20 => ⟨S100000x128, .f32⟩
  | 21 => ⟨S1x2, .f32⟩
  | 22 => ⟨S128x2, .f32⟩
  | _ => ⟨S100000x12, .f32⟩

abbrev hbmTy (i : Nat) : BufTy := match i / 128 with
  | 0 => hbmTy0_0 i
  | 1 => hbmTy0_1 i
  | _ => ⟨S100000x12, .f32⟩

abbrev bufTy : (tb : Table) → Fin (tcTables nBuf tb) → BufTy
  | .hbm, ⟨i, _⟩ => hbmTy i
  | .local _ .vmem, ⟨0, _⟩ => ⟨S5000x12, .f32⟩
  | .local _ .vmem, ⟨1, _⟩ => ⟨S5000x12, .f32⟩
  | .local _ .vmem, ⟨2, _⟩ => ⟨S5000x12, .f32⟩
  | .local _ .vmem, ⟨3, _⟩ => ⟨S5000x12, .f32⟩
  | .local _ .vmem, ⟨4, _⟩ => ⟨S5000x1, .f32⟩
  | .local _ .vmem, ⟨5, _⟩ => ⟨S5000x1, .f32⟩
  | .local _ .vmem, ⟨6, _⟩ => ⟨S1x12, .f32⟩
  | .local _ .vmem, ⟨7, _⟩ => ⟨S12x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x1, .f32⟩
  | .local _ .vmem, ⟨31, _⟩ => ⟨S5000x1, .f32⟩
  | .local _ .vmem, ⟨32, _⟩ => ⟨S1x128, .f32⟩
  | .local _ .vmem, ⟨33, _⟩ => ⟨S128x128, .f32⟩
  | .local _ .vmem, ⟨34, _⟩ => ⟨S1x128, .f32⟩
  | .local _ .vmem, ⟨35, _⟩ => ⟨S128x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x1, .f32⟩
  | .local _ .vmem, ⟨44, _⟩ => ⟨S5000x1, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S128x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x1, .f32⟩
  | .local _ .vmem, ⟨57, _⟩ => ⟨S5000x1, .f32⟩
  | .local _ .vmem, ⟨58, _⟩ => ⟨S1x128, .f32⟩
  | .local _ .vmem, ⟨59, _⟩ => ⟨S128x128, .f32⟩
  | .local _ .vmem, ⟨60, _⟩ => ⟨S1x128, .f32⟩
  | .local _ .vmem, ⟨61, _⟩ => ⟨S128x128, .f32⟩
  | .local _ .vmem, ⟨62, _⟩ => ⟨S1x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x1, .i32⟩
  | .local _ .vmem, ⟨68, _⟩ => ⟨S5000x1, .i32⟩
  | .local _ .vmem, ⟨69, _⟩ => ⟨S128x2, .f32⟩
  | .local _ .vmem, ⟨70, _⟩ => ⟨S1x2, .f32⟩
  | .local _ .vmem, ⟨71, _⟩ => ⟨S128x2, .f32⟩
  | .local _ .vmem, ⟨72, _⟩ => ⟨S128x128, .f32⟩
  | .local _ .vmem, ⟨73, _⟩ => ⟨S128x1, .f32⟩
  | _, _ => ⟨S100000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_v6 : Ref sig .tc := ⟨.hbm, 25, rfl⟩
abbrev main_v7 : Ref sig .tc := ⟨.hbm, 26, rfl⟩
abbrev main_c_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_6 : Ref sig .tc := ⟨.hbm, 68, rfl⟩
abbrev main_v44 : Ref sig .tc := ⟨.hbm, 69, rfl⟩
abbrev main_v45 : Ref sig .tc := ⟨.hbm, 70, rfl⟩
abbrev main_c_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_9 : Ref sig .tc := ⟨.hbm, 95, rfl⟩
abbrev main_v68 : Ref sig .tc := ⟨.hbm, 96, rfl⟩
abbrev main_v69 : Ref sig .tc := ⟨.hbm, 97, rfl⟩
abbrev main_c_10 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_11 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_c_12 : Ref sig .tc := ⟨.hbm, 122, rfl⟩
abbrev main_v92 : Ref sig .tc := ⟨.hbm, 123, rfl⟩
abbrev main_v93 : Ref sig .tc := ⟨.hbm, 124, rfl⟩
abbrev main_c_13 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_14 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg8_0 : Ref sig .tc := ⟨.vmem, 37, rfl⟩
abbrev cc2_stg8_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg5_0 : Ref sig .tc := ⟨.vmem, 47, rfl⟩
abbrev cc3_stg6_0 : Ref sig .tc := ⟨.vmem, 48, rfl⟩
abbrev cc3_stg7_0 : Ref sig .tc := ⟨.vmem, 49, rfl⟩
abbrev cc3_stg8_0 : Ref sig .tc := ⟨.vmem, 50, rfl⟩
abbrev cc3_stg8_1 : Ref sig .tc := ⟨.vmem, 51, rfl⟩
abbrev cc4_stg0_0 : Ref sig .tc := ⟨.vmem, 52, rfl⟩
abbrev cc4_stg0_1 : Ref sig .tc := ⟨.vmem, 53, rfl⟩
abbrev cc4_stg1_0 : Ref sig .tc := ⟨.vmem, 54, rfl⟩
abbrev cc4_stg1_1 : Ref sig .tc := ⟨.vmem, 55, rfl⟩
abbrev cc4_stg2_0 : Ref sig .tc := ⟨.vmem, 56, rfl⟩
abbrev cc4_stg2_1 : Ref sig .tc := ⟨.vmem, 57, rfl⟩
abbrev cc4_stg3_0 : Ref sig .tc := ⟨.vmem, 58, rfl⟩
abbrev cc4_stg4_0 : Ref sig .tc := ⟨.vmem, 59, rfl⟩
abbrev cc4_stg5_0 : Ref sig .tc := ⟨.vmem, 60, rfl⟩
abbrev cc4_stg6_0 : Ref sig .tc := ⟨.vmem, 61, rfl⟩
abbrev cc4_stg7_0 : Ref sig .tc := ⟨.vmem, 62, rfl⟩
abbrev cc4_stg8_0 : Ref sig .tc := ⟨.vmem, 63, rfl⟩
abbrev cc4_stg8_1 : Ref sig .tc := ⟨.vmem, 64, rfl⟩
abbrev cc5_stg0_0 : Ref sig .tc := ⟨.vmem, 65, rfl⟩
abbrev cc5_stg0_1 : Ref sig .tc := ⟨.vmem, 66, rfl⟩
abbrev cc5_stg1_0 : Ref sig .tc := ⟨.vmem, 67, rfl⟩
abbrev cc5_stg1_1 : Ref sig .tc := ⟨.vmem, 68, rfl⟩
abbrev cc5_stg2_0 : Ref sig .tc := ⟨.vmem, 69, rfl⟩
abbrev cc5_stg3_0 : Ref sig .tc := ⟨.vmem, 70, rfl⟩
abbrev cc5_stg4_0 : Ref sig .tc := ⟨.vmem, 71, rfl⟩
abbrev cc5_scratch0 : Ref sig .tc := ⟨.vmem, 72, rfl⟩
abbrev cc5_scratch1 : Ref sig .tc := ⟨.vmem, 73, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem8_0 : DmaSem sig := 37
abbrev cc2_sem8_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem4_0 : DmaSem sig := 46
abbrev cc3_sem5_0 : DmaSem sig := 47
abbrev cc3_sem6_0 : DmaSem sig := 48
abbrev cc3_sem7_0 : DmaSem sig := 49
abbrev cc3_sem8_0 : DmaSem sig := 50
abbrev cc3_sem8_1 : DmaSem sig := 51
abbrev cc4_sem0_0 : DmaSem sig := 52
abbrev cc4_sem0_1 : DmaSem sig := 53
abbrev cc4_sem1_0 : DmaSem sig := 54
abbrev cc4_sem1_1 : DmaSem sig := 55
abbrev cc4_sem2_0 : DmaSem sig := 56
abbrev cc4_sem2_1 : DmaSem sig := 57
abbrev cc4_sem3_0 : DmaSem sig := 58
abbrev cc4_sem4_0 : DmaSem sig := 59
abbrev cc4_sem5_0 : DmaSem sig := 60
abbrev cc4_sem6_0 : DmaSem sig := 61
abbrev cc4_sem7_0 : DmaSem sig := 62
abbrev cc4_sem8_0 : DmaSem sig := 63
abbrev cc4_sem8_1 : DmaSem sig := 64
abbrev cc5_sem0_0 : DmaSem sig := 65
abbrev cc5_sem0_1 : DmaSem sig := 66
abbrev cc5_sem1_0 : DmaSem sig := 67
abbrev cc5_sem1_1 : DmaSem sig := 68
abbrev cc5_sem2_0 : DmaSem sig := 69
abbrev cc5_sem3_0 : DmaSem sig := 70
abbrev cc5_sem4_0 : DmaSem sig := 71

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S5000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![20], ![false]⟩

def k5_cond2 (i : grid5.Coords) : BitVec 1 :=
  let arg0 : BitVec 32 := BitVec.ofNat 32 (i 0).val
  let c19_i32 : BitVec 32 := 19#32
  let v27 : BitVec 1 := Scalar.cmpi .eq arg0 c19_i32
  let v28 : BitVec 32 := Scalar.extui v27
  let c0_i32_14 : BitVec 32 := 0#32
  let v29 : BitVec 1 := Scalar.cmpi .ne v28 c0_i32_14
  v29

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x2 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x2 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x2 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

class Facts₀ : Prop where
  shapeCasts_S100000_S100000x1 : S100000.ShapeCasts S100000x1
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x12 : S_.BroadcastsInDim S100000x12 (![] : Fin 0 → Fin S100000x12.rank)
  shapeCasts_S12_S1x12 : S12.ShapeCasts S1x12
  shapeCasts_S128_S1x128 : S128.ShapeCasts S1x128
  inb_S5000x12_S5000x12_0_0 : ∀ a, (![0, 0] : Fin 2 → Nat) a + S5000x12.size a ≤ S5000x12.size a
  h_S5000x12 : 0 < S5000x12.numel
  shapeCasts_S5000x12_S5000x12 : S5000x12.ShapeCasts S5000x12
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S5000x1_S5000x12 : S5000x1.Broadcasts S5000x12
  broadcasts_S1x12_S5000x12 : S1x12.Broadcasts S5000x12
  bitsLt_bf16_f32 : FTy.bits .bf16 < FTy.bits .f32
  inb_S12x128_S12x128_0_0 : ∀ a, (![0, 0] : Fin 2 → Nat) a + S12x128.size a ≤ S12x128.size a
  h_S12x128 : 0 < S12x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  slices_S4x128_S1x128_0_0 : S4x128.Slices ![0, 0] S1x128
  shapeCasts_S1x128_S128 : S1x128.ShapeCasts S128
  slices_S4x128x128_S1x128x128_0_0_0 : S4x128x128.Slices ![0, 0, 0] S1x128x128
  shapeCasts_S1x128x128_S128x128 : S1x128x128.ShapeCasts S128x128
  shapeCasts_S5000x128_S5000x128 : S5000x128.ShapeCasts S5000x128
  broadcasts_S5000x1_S5000x128 : S5000x1.Broadcasts S5000x128
  shapeCasts_S128x128_S128x128 : S128x128.ShapeCasts S128x128
  slices_S4x128_S1x128_1_0 : S4x128.Slices ![1, 0] S1x128
  slices_S4x128x128_S1x128x128_1_0_0 : S4x128x128.Slices ![1, 0, 0] S1x128x128
  slices_S4x128_S1x128_2_0 : S4x128.Slices ![2, 0] S1x128
  slices_S4x128x128_S1x128x128_2_0_0 : S4x128x128.Slices ![2, 0, 0] S1x128x128
  slices_S4x128_S1x128_3_0 : S4x128.Slices ![3, 0] S1x128
  slices_S4x128x128_S1x128x128_3_0_0 : S4x128x128.Slices ![3, 0, 0] S1x128x128
  shapeCasts_S2_S1x2 : S2.ShapeCasts S1x2
  inb_S128x1_S128x1_0_0 : ∀ a, (![0, 0] : Fin 2 → Nat) a + S128x1.size a ≤ S128x1.size a
  h_S128x1 : 0 < S128x1.numel
  shapeCasts_S128x1_S128x1 : S128x1.ShapeCasts S128x1
  iota_S5000x128_d1_w32 : S5000x128.Iotas .tc 32 [1]
  natLt_1_32 : 1 < 32
  broadcasts_S128x1_S128x128 : S128x1.Broadcasts S128x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S128x2 : S1x2.Broadcasts S128x2
  scatter_S100000_S1600000x1_S1600000_n_0_0_1_wf : ScatterDims.WF S100000 S1600000x1 S1600000 [] [0] [0] 1
  gather_S100000x12_S1600000x1_S1600000x12_1_0_n_n_0_1_112_wf : GatherDims.WF S100000x12 S1600000x1 S1600000x12 [1] [0] [] [0] [] 1 ![1, 12]
  scatter_S100000x12_S1600000x1_S1600000x12_1_0_0_1_wf : ScatterDims.WF S100000x12 S1600000x1 S1600000x12 [1] [0] [0] 1
  dot_S5000x12_S12x128_S5000x128_1_0_0_1_n_n_wf : DotDims.WF S5000x12 S12x128 S5000x128 [1] [0] [0] [1] [] []
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S5000x128_S128x128_0_0_1_1_n_n_wf : DotDims.WF S5000x128 S5000x128 S128x128 [0] [0] [1] [1] [] []
  dot_S5000x128_S5000x1_S128x1_0_0_1_1_n_n_wf : DotDims.WF S5000x128 S5000x1 S128x1 [0] [0] [1] [1] [] []
  dot_S128x128_S128x2_S128x2_1_0_0_1_n_n_wf : DotDims.WF S128x128 S128x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x12.size a ≤ S100000x12.size a
  hwx0_0 : ∀ i : grid0.Coords, EltTy.bits .f32 = 32 ∨ (Rect.block (s := S100000x12) S5000x12.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x12.size a ≤ S100000x12.size a
  hwx0_1 : ∀ i : grid0.Coords, EltTy.bits .f32 = 32 ∨ (Rect.block (s := S100000x12) S5000x12.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x12.size a ≤ S1x12.size a
  hwx0_3 : ∀ i : grid0.Coords, EltTy.bits .f32 = 32 ∨ (Rect.block (s := S1x12) S1x12.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12x128.size a ≤ S12x128.size a
  hwx0_4 : ∀ i : grid0.Coords, EltTy.bits .f32 = 32 ∨ (Rect.block (s := S12x128) S12x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S100000x128.size a
  hwx0_8 : ∀ i : grid0.Coords, EltTy.bits .f32 = 32 ∨ (Rect.block (s := S100000x128) S5000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S100000x128.size a
  hwx1_8 : ∀ i : grid1.Coords, EltTy.bits .f32 = 32 ∨ (Rect.block (s := S100000x128) S5000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S100000x128.size a
  hwx2_8 : ∀ i : grid2.Coords, EltTy.bits .f32 = 32 ∨ (Rect.block (s := S100000x128) S5000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S100000x128.size a
  hwx3_8 : ∀ i : grid3.Coords, EltTy.bits .f32 = 32 ∨ (Rect.block (s := S100000x128) S5000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .f32 = 32 ∨ (Rect.block (s := S128x128) S128x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S5000x128.size a ≤ S100000x128.size a
  hwx4_8 : ∀ i : grid4.Coords, EltTy.bits .f32 = 32 ∨ (Rect.block (s := S100000x128) S5000x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .i32 = 32 ∨ (Rect.block (s := S100000x1) S5000x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x2.size a ≤ S128x2.size a
  hwx5_2 : ∀ i : grid5.Coords, EltTy.bits .f32 = 32 ∨ (Rect.block (s := S128x2) S128x2.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x2.size a ≤ S1x2.size a
  hwx5_3 : ∀ i : grid5.Coords, EltTy.bits .f32 = 32 ∨ (Rect.block (s := S1x2) S1x2.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x2.size a ≤ S128x2.size a
  hwx5_4 : ∀ i : grid5.Coords, EltTy.bits .f32 = 32 ∨ (Rect.block (s := S128x2) S128x2.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x12_S1600000x1_S1600000x12_1_0_n_n_0_1_112 : GatherDims S100000x12 S1600000x1 S1600000x12 where
  offsetDims := [1]
  collapsedSliceDims := [0]
  operandBatchingDims := []
  startIndicesBatchingDims := []
  startIndexMap := [0]
  indexVectorDim := 1
  sliceSizes := ![1, 12]
  wf := gather_S100000x12_S1600000x1_S1600000x12_1_0_n_n_0_1_112_wf
def scatter_S100000x12_S1600000x1_S1600000x12_1_0_0_1 : ScatterDims S100000x12 S1600000x1 S1600000x12 where
  updateWindowDims := [1]
  insertedWindowDims := [0]
  scatterDimsToOperandDims := [0]
  indexVectorDim := 1
  wf := scatter_S100000x12_S1600000x1_S1600000x12_1_0_0_1_wf
def dot_S5000x12_S12x128_S5000x128_1_0_0_1_n_n : DotDims S5000x12 S12x128 S5000x128 where
  lhsContracting := [1]
  rhsContracting := [0]
  lhsNonContracting := [0]
  rhsNonContracting := [1]
  lhsBatch := []
  rhsBatch := []
  wf := dot_S5000x12_S12x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def dot_S5000x128_S5000x1_S128x1_0_0_1_1_n_n : DotDims S5000x128 S5000x1 S128x1 where
  lhsContracting := [0]
  rhsContracting := [0]
  lhsNonContracting := [1]
  rhsNonContracting := [1]
  lhsBatch := []
  rhsBatch := []
  wf := dot_S5000x128_S5000x1_S128x1_0_0_1_1_n_n_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

abbrev win0_0 : Pipeline.Window sig grid0 :=
  Pipeline.Window.ofSpec (Memref.whole main_v15) S5000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x12.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x12.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S12x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v43) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v53) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v66) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v67) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v77) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v88) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v81) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v89) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v85) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v90) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v91) S5000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v101) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v91) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v5) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v112) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v105) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v113) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v109) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v114) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v115) S5000x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v115) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v0) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg14) S128x2.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v116) S1x2.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v117) S128x2.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun _ => false | 4 => fun i => !(k5_cond2 i == 1#1) | ⟨_ + 5, h⟩ => absurd h (Nat.not_lt.2 (Nat.le_add_left _ _))

class Facts : Prop extends Facts₀ where

variable [Facts]
-- ==== ReferenceIdeal.lean ====
abbrev S100000x12 : Shape := ⟨2, ![100000, 12]⟩
abbrev S1600000 : Shape := ⟨1, ![1600000]⟩
abbrev S100000 : Shape := ⟨1, ![100000]⟩
abbrev S12 : Shape := ⟨1, ![12]⟩
abbrev S4x128 : Shape := ⟨2, ![4, 128]⟩
abbrev S12x128 : Shape := ⟨2, ![12, 128]⟩
abbrev S128 : Shape := ⟨1, ![128]⟩
abbrev S128x128 : Shape := ⟨2, ![128, 128]⟩
abbrev S4x128x128 : Shape := ⟨3, ![4, 128, 128]⟩
abbrev S128x2 : Shape := ⟨2, ![128, 2]⟩
abbrev S2 : Shape := ⟨1, ![2]⟩
abbrev S_ : Shape := ⟨0, ![]⟩
abbrev S1600000x1 : Shape := ⟨2, ![1600000, 1]⟩
abbrev S1600000x12 : Shape := ⟨2, ![1600000, 12]⟩
abbrev S1x12 : Shape := ⟨2, ![1, 12]⟩
abbrev S100000x128 : Shape := ⟨2, ![100000, 128]⟩
abbrev S1x128 : Shape := ⟨2, ![1, 128]⟩
abbrev S1x128x128 : Shape := ⟨3, ![1, 128, 128]⟩
abbrev S1600000x128 : Shape := ⟨2, ![1600000, 128]⟩
abbrev S100000x1 : Shape := ⟨2, ![100000, 1]⟩
abbrev S128x1 : Shape := ⟨2, ![128, 1]⟩
abbrev S1x2 : Shape := ⟨2, ![1, 2]⟩

abbrev nBuf : Space → Nat
  | .hbm => 228
  | .vmem => 0
  | .smem => 0
  | _ => 0

abbrev hbmTy0_0 (i : Nat) : BufTy := match i % 128 with
  | 0 => ⟨S100000x12, .f32⟩
  | 1 => ⟨S1600000, .i32⟩
  | 2 => ⟨S1600000, .i32⟩
  | 3 => ⟨S100000, .i32⟩
  | 4 => ⟨S12, .f32⟩
  | 5 => ⟨S4x128, .f32⟩
  | 6 => ⟨S12x128, .f32⟩
  | 7 => ⟨S128, .f32⟩
  | 8 => ⟨S128x128, .f32⟩
  | 9 => ⟨S128, .f32⟩
  | 10 => ⟨S4x128x128, .f32⟩
  | 11 => ⟨S4x128, .f32⟩
  | 12 => ⟨S4x128x128, .f32⟩
  | 13 => ⟨S4x128, .f32⟩
  | 14 => ⟨S128x2, .f32⟩
  | 15 => ⟨S2, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x12, .f32⟩
  | 25 => ⟨S1x12, .f32⟩
  | 26 => ⟨S1600000x12, .f32⟩
  | 27 => ⟨S1600000x12, .f32⟩
  | 28 => ⟨S_, .f32⟩
  | 29 => ⟨S100000x12, .f32⟩
  | 30 => ⟨S1600000x1, .i32⟩
  | 31 => ⟨S100000x12, .f32⟩
  | 32 => ⟨S100000x12, .f32⟩
  | 33 => ⟨S100000x128, .f32⟩
  | 34 => ⟨S1x128, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S_, .f32⟩
  | 45 => ⟨S100000x128, .f32⟩
  | 46 => ⟨S100000x128, .f32⟩
  | 47 => ⟨S1x128, .f32⟩
  | 48 => ⟨S128, .f32⟩
  | 49 => ⟨S1x128x128, .f32⟩
  | 50 => ⟨S128x128, .f32⟩
  | 51 => ⟨S1x128, .f32⟩
  | 52 => ⟨S128, .f32⟩
  | 53 => ⟨S1x128x128, .f32⟩
  | 54 => ⟨S128x128, .f32⟩
  | 55 => ⟨S1x128, .f32⟩
  | 56 => ⟨S128, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S1x128, .f32⟩
  | 67 => ⟨S1600000x128, .f32⟩
  | 68 => ⟨S1600000x128, .f32⟩
  | 69 => ⟨S_, .f32⟩
  | 70 => ⟨S100000x128, .f32⟩
  | 71 => ⟨S1600000x1, .i32⟩
  | 72 => ⟨S100000x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S1x128, .f32⟩
  | 89 => ⟨S128, .f32⟩
  | 90 => ⟨S1x128x128, .f32⟩
  | 91 => ⟨S128x128, .f32⟩
  | 92 => ⟨S1x128, .f32⟩
  | 93 => ⟨S128, .f32⟩
  | 94 => ⟨S1x128x128, .f32⟩
  | 95 => ⟨S128x128, .f32⟩
  | 96 => ⟨S1x128, .f32⟩
  | 97 => ⟨S128, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x128, .f32⟩
  | 107 => ⟨S1x128, .f32⟩
  | 108 => ⟨S1600000x128, .f32⟩
  | 109 => ⟨S1600000x128, .f32⟩
  | 110 => ⟨S_, .f32⟩
  | 111 => ⟨S100000x128, .f32⟩
  | 112 => ⟨S1600000x1, .i32⟩
  | 113 => ⟨S100000x128, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x12, .f32⟩

abbrev hbmTy0_1 (i : Nat) : BufTy := match i % 128 with
  | 0 => ⟨S100000x128, .f32⟩
  | 1 => ⟨S1x128, .f32⟩
  | 2 => ⟨S128, .f32⟩
  | 3 => ⟨S1x128x128, .f32⟩
  | 4 => ⟨S128x128, .f32⟩
  | 5 => ⟨S1x128, .f32⟩
  | 6 => ⟨S128, .f32⟩
  | 7 => ⟨S1x128x128, .f32⟩
  | 8 => ⟨S128x128, .f32⟩
  | 9 => ⟨S1x128, .f32⟩
  | 10 => ⟨S128, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x128, .f32⟩
  | 20 => ⟨S1x128, .f32⟩
  | 21 => ⟨S1600000x128, .f32⟩
  | 22 => ⟨S1600000x128, .f32⟩
  | 23 => ⟨S_, .f32⟩
  | 24 => ⟨S100000x128, .f32⟩
  | 25 => ⟨S1600000x1, .i32⟩
  | 26 => ⟨S100000x128, .f32⟩
  | 27 => ⟨S100000x128, .f32⟩
  | 28 => ⟨S100000x128, .f32⟩
  | 29 => ⟨S1x128, .f32⟩
  | 30 => ⟨S100000x128, .f32⟩
  | 31 => ⟨S100000x128, .f32⟩
  | 32 => ⟨S_, .f32⟩
  | 33 => ⟨S100000x128, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S1x128, .f32⟩
  | 43 => ⟨S128, .f32⟩
  | 44 => ⟨S1x128x128, .f32⟩
  | 45 => ⟨S128x128, .f32⟩
  | 46 => ⟨S1x128, .f32⟩
  | 47 => ⟨S128, .f32⟩
  | 48 => ⟨S1x128x128, .f32⟩
  | 49 => ⟨S128x128, .f32⟩
  | 50 => ⟨S1x128, .f32⟩
  | 51 => ⟨S128, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S1x128, .f32⟩
  | 62 => ⟨S1600000x128, .f32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S128x128, .f32⟩
  | 82 => ⟨S100000x1, .i32⟩
  | 83 => ⟨S128x128, .f32⟩
  | 84 => ⟨S_, .f32⟩
  | 85 => ⟨S100000, .f32⟩
  | 86 => ⟨S_, .f32⟩
  | 87 => ⟨S128, .f32⟩
  | 88 => ⟨S100000x1, .i32⟩
  | 89 => ⟨S128, .f32⟩
  | 90 => ⟨S_, .f32⟩
  | 91 => ⟨S128, .f32⟩
  | 92 => ⟨S128, .f32⟩
  | 93 => ⟨S128x1, .f32⟩
  | 94 => ⟨S128x128, .f32⟩
  | 95 => ⟨S128x128, .f32⟩
  | 96 => ⟨S128x2, .f32⟩
  | 97 => ⟨S1x2, .f32⟩
  | 98 => ⟨S128x2, .f32⟩
  | 99 => ⟨S128x2, .f32⟩
  | _ => ⟨S100000x12, .f32⟩

abbrev hbmTy (i : Nat) : BufTy := match i / 128 with
  | 0 => hbmTy0_0 i
  | 1 => hbmTy0_1 i
  | _ => ⟨S100000x12, .f32⟩

abbrev bufTy : (tb : Table) → Fin (tcTables nBuf tb) → BufTy
  | .hbm, ⟨i, _⟩ => hbmTy i
  | _, _ => ⟨S100000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call0_cst : Ref sig .tc := ⟨.hbm, 37, rfl⟩
abbrev main_call0_v0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call1_cst : Ref sig .tc := ⟨.hbm, 44, rfl⟩
abbrev main_call1_v0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_1 : Ref sig .tc := ⟨.hbm, 57, rfl⟩
abbrev main_v34 : Ref sig .tc := ⟨.hbm, 58, rfl⟩
abbrev main_v35 : Ref sig .tc := ⟨.hbm, 59, rfl⟩
abbrev main_c_2 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_3 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call2_cst : Ref sig .tc := ⟨.hbm, 78, rfl⟩
abbrev main_call2_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_call3_cst : Ref sig .tc := ⟨.hbm, 85, rfl⟩
abbrev main_call3_v0 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_4 : Ref sig .tc := ⟨.hbm, 98, rfl⟩
abbrev main_v68 : Ref sig .tc := ⟨.hbm, 99, rfl⟩
abbrev main_v69 : Ref sig .tc := ⟨.hbm, 100, rfl⟩
abbrev main_c_5 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_6 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_call4_cst : Ref sig .tc := ⟨.hbm, 119, rfl⟩
abbrev main_call4_v0 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_call5_cst : Ref sig .tc := ⟨.hbm, 126, rfl⟩
abbrev main_call5_v0 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_c_7 : Ref sig .tc := ⟨.hbm, 139, rfl⟩
abbrev main_v102 : Ref sig .tc := ⟨.hbm, 140, rfl⟩
abbrev main_v103 : Ref sig .tc := ⟨.hbm, 141, rfl⟩
abbrev main_c_8 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_9 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_call6_cst : Ref sig .tc := ⟨.hbm, 160, rfl⟩
abbrev main_call6_v0 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_call7_cst : Ref sig .tc := ⟨.hbm, 167, rfl⟩
abbrev main_call7_v0 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_c_10 : Ref sig .tc := ⟨.hbm, 180, rfl⟩
abbrev main_v136 : Ref sig .tc := ⟨.hbm, 181, rfl⟩
abbrev main_v137 : Ref sig .tc := ⟨.hbm, 182, rfl⟩
abbrev main_c_11 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_cst_12 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_call8_cst : Ref sig .tc := ⟨.hbm, 201, rfl⟩
abbrev main_call8_v0 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_cst_13 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_cst_14 : Ref sig .tc := ⟨.hbm, 212, rfl⟩
abbrev main_v162 : Ref sig .tc := ⟨.hbm, 213, rfl⟩
abbrev main_cst_15 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_cst_16 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S12_S1x12_1 : S12.BroadcastsInDim S1x12 (![1] : Fin 1 → Fin S1x12.rank)
  bcast_S1x12_S1600000x12_0_1 : S1x12.BroadcastsInDim S1600000x12 (![0, 1] : Fin 2 → Fin S1600000x12.rank)
  bcast_S_S100000x12 : S_.BroadcastsInDim S100000x12 (![] : Fin 0 → Fin S100000x12.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S4x128_S1x128_0_0 : S4x128.Slices ![0, 0] S1x128
  shapeCasts_S1x128_S128 : S1x128.ShapeCasts S128
  slices_S4x128x128_S1x128x128_0_0_0 : S4x128x128.Slices ![0, 0, 0] S1x128x128
  shapeCasts_S1x128x128_S128x128 : S1x128x128.ShapeCasts S128x128
  bcast_S1x128_S1600000x128_0_1 : S1x128.BroadcastsInDim S1600000x128 (![0, 1] : Fin 2 → Fin S1600000x128.rank)
  slices_S4x128_S1x128_1_0 : S4x128.Slices ![1, 0] S1x128
  slices_S4x128x128_S1x128x128_1_0_0 : S4x128x128.Slices ![1, 0, 0] S1x128x128
  slices_S4x128_S1x128_2_0 : S4x128.Slices ![2, 0] S1x128
  slices_S4x128x128_S1x128x128_2_0_0 : S4x128x128.Slices ![2, 0, 0] S1x128x128
  slices_S4x128_S1x128_3_0 : S4x128.Slices ![3, 0] S1x128
  slices_S4x128x128_S1x128x128_3_0_0 : S4x128x128.Slices ![3, 0, 0] S1x128x128
  bcast_S_S128x128 : S_.BroadcastsInDim S128x128 (![] : Fin 0 → Fin S128x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  gather_S100000x12_S1600000x1_S1600000x12_1_0_n_n_0_1_112_wf : GatherDims.WF S100000x12 S1600000x1 S1600000x12 [1] [0] [] [0] [] 1 ![1, 12]
  scatter_S100000x12_S1600000x1_S1600000x12_1_0_0_1_wf : ScatterDims.WF S100000x12 S1600000x1 S1600000x12 [1] [0] [0] 1
  dot_S100000x12_S12x128_S100000x128_1_0_0_1_n_n_wf : DotDims.WF S100000x12 S12x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x128_S128x2_S128x2_1_0_0_1_n_n_wf : DotDims.WF S128x128 S128x2 S128x2 [1] [0] [0] [1] [] []

variable [Facts₀]

def gather_S100000x12_S1600000x1_S1600000x12_1_0_n_n_0_1_112 : GatherDims S100000x12 S1600000x1 S1600000x12 where
  offsetDims := [1]
  collapsedSliceDims := [0]
  operandBatchingDims := []
  startIndicesBatchingDims := []
  startIndexMap := [0]
  indexVectorDim := 1
  sliceSizes := ![1, 12]
  wf := gather_S100000x12_S1600000x1_S1600000x12_1_0_n_n_0_1_112_wf
def scatter_S100000x12_S1600000x1_S1600000x12_1_0_0_1 : ScatterDims S100000x12 S1600000x1 S1600000x12 where
  updateWindowDims := [1]
  insertedWindowDims := [0]
  scatterDimsToOperandDims := [0]
  indexVectorDim := 1
  wf := scatter_S100000x12_S1600000x1_S1600000x12_1_0_0_1_wf
def dot_S100000x12_S12x128_S100000x128_1_0_0_1_n_n : DotDims S100000x12 S12x128 S100000x128 where
  lhsContracting := [1]
  rhsContracting := [0]
  lhsNonContracting := [0]
  rhsNonContracting := [1]
  lhsBatch := []
  rhsBatch := []
  wf := dot_S100000x12_S12x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

class Facts : Prop extends Facts₀ where

variable [Facts]
-- ==== Proof.KI.Dense0.lean ====
import proofs.«415659_j4501125726343_1_alg».proof.Proof.Gen.KernelIdeal.Launch
import proofs.«415659_j4501125726343_1_alg».proof.Proof.Gen.KernelIdeal.Skeleton
import proofs.«415659_j4501125726343_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x12 := Rect.unit (s := S5000x12) ![0, 0] S5000x12.size inb_S5000x12_S5000x12_0_0
abbrev r0_1 : Rect S5000x12 := Rect.unit (s := S5000x12) ![0, 0] S5000x12.size inb_S5000x12_S5000x12_0_0
abbrev r0_2 : Rect S5000x1 := Rect.unit (s := S5000x1) ![0, 0] S5000x1.size inb_S5000x1_S5000x1_0_0
abbrev r0_3 : Rect S1x12 := Rect.unit (s := S1x12) ![0, 0] S1x12.size inb_S1x12_S1x12_0_0
abbrev r0_4 : Rect S12x128 := Rect.unit (s := S12x128) ![0, 0] S12x128.size inb_S12x128_S12x128_0_0
abbrev r0_5 : Rect S1x128 := Rect.unit (s := S1x128) ![0, 0] S1x128.size inb_S1x128_S1x128_0_0
abbrev r0_6 : Rect S128x128 := Rect.unit (s := S128x128) ![0, 0] S128x128.size inb_S128x128_S128x128_0_0
abbrev r0_7 : Rect S1x128 := Rect.unit (s := S1x128) ![0, 0] S1x128.size inb_S1x128_S1x128_0_0
abbrev r0_8 : Rect S5000x128 := Rect.unit (s := S5000x128) ![0, 0] S5000x128.size inb_S5000x128_S5000x128_0_0

def out0_8 (x0 : Vec F S5000x12 .f32) (x1 : Vec F S5000x12 .f32) (x2 : Vec F S5000x1 .f32) (x3 : Vec F S1x12 .f32)
    (x4 : Vec F S12x128 .f32) (x5 : Vec F S1x128 .f32) (x6 : Vec F S128x128 .f32) (x7 : Vec F S1x128 .f32) : Vec F S5000x128 .f32 :=
  View.canon [⟨r0_8, k0_pay1 (View.ld x0 r0_0) (View.ld x1 r0_1) (View.ld x2 r0_2) (View.ld x3 r0_3) (View.ld x4 r0_4) (View.ld x5 r0_5) (View.ld x6 r0_6) (View.ld x7 r0_7)⟩]

theorem cover0_8 (p0 : Vec F S5000x128 .f32) (y : S5000x128.Idx) :
    ∃ pc ∈ ([⟨r0_8, p0⟩] : List (View.Piece (Elt F) S5000x128 .f32)), y ∈ pc.1.set :=
  View.cover_of_tiled [⟨r0_8, p0⟩] S5000x128.size (by rfl) y

set_option maxHeartbeats 1000000 in

theorem sound_kernel0 (c : Dev nD) (E : Set ℕ) (i : grid0.Coords)
    (arg0 : Memref sig .tc .vmem S5000x12 .f32) (harg0 : arg0.IsWhole) (arg1 : Memref sig .tc .vmem S5000x12 .f32) (harg1 : arg1.IsWhole)
    (arg2 : Memref sig .tc .vmem S5000x1 .f32) (harg2 : arg2.IsWhole) (arg3 : Memref sig .tc .vmem S1x12 .f32) (harg3 : arg3.IsWhole)
    (arg4 : Memref sig .tc .vmem S12x128 .f32) (harg4 : arg4.IsWhole) (arg5 : Memref sig .tc .vmem S1x128 .f32) (harg5 : arg5.IsWhole)
    (arg6 : Memref sig .tc .vmem S128x128 .f32) (harg6 : arg6.IsWhole) (arg7 : Memref sig .tc .vmem S1x128 .f32) (harg7 : arg7.IsWhole)
    (arg8 : Memref sig .tc .vmem S5000x128 .f32) (harg8 : arg8.IsWhole)
    (x0 : Vec F S5000x12 .f32) (x1 : Vec F S5000x12 .f32) (x2 : Vec F S5000x1 .f32) (x3 : Vec F S1x12 .f32)
    (x4 : Vec F S12x128 .f32) (x5 : Vec F S1x128 .f32) (x6 : Vec F S128x128 .f32) (x7 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (out0_8 x0 x1 x2 x3 x4 x5 x6 x7)) -∗ K ⟨⟩))
      ⊢ wp frame (wpE (defs₀ (F := F)) Variants.none c none) E
          (cc0__gin_dense_kernel i arg0 harg0 arg1 harg1 arg2 harg2 arg3 harg3 arg4 harg4 arg5 harg5 arg6 harg6 arg7 harg7 arg8 harg8) K := by
  simp only [cc0__gin_dense_kernel_eq_skeleton]; unfold cc0__gin_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t =
    out0_8 (iblk0 V c 0 t) (iblk0 V c 1 t) (iblk0 V c 2 t) (iblk0 V c 3 t) (iblk0 V c 4 t) (iblk0 V c 5 t) (iblk0 V c 6 t) (iblk0 V c 7 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl
theorem before0_6 (c : Dev nD) (t : Fin cfg0.N) (d) : (dat0 V c).before 6 t d = iblk0 V c 6 t :=
  ((dat0 V c).before_in_eq_fetched 6 rfl (fun _ => rfl) (fun _ _ _ => rfl) (fun _ => rfl) t d).trans rfl
theorem before0_7 (c : Dev nD) (t : Fin cfg0.N) (d) : (dat0 V c).before 7 t d = iblk0 V c 7 t :=
  ((dat0 V c).before_in_eq_fetched 7 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.Dense1.lean ====
import proofs.«415659_j4501125726343_1_alg».proof.Proof.Gen.KernelIdeal.Launch
import proofs.«415659_j4501125726343_1_alg».proof.Proof.Gen.KernelIdeal.Skeleton
import proofs.«415659_j4501125726343_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0
abbrev r1_1 : Rect S5000x128 := Rect.unit (s := S5000x128) ![0, 0] S5000x128.size inb_S5000x128_S5000x128_0_0
abbrev r1_2 : Rect S5000x1 := Rect.unit (s := S5000x1) ![0, 0] S5000x1.size inb_S5000x1_S5000x1_0_0
abbrev r1_3 : Rect S1x128 := Rect.unit (s := S1x128) ![0, 0] S1x128.size inb_S1x128_S1x128_0_0
abbrev r1_4 : Rect S128x128 := Rect.unit (s := S128x128) ![0, 0] S128x128.size inb_S128x128_S128x128_0_0
abbrev r1_5 : Rect S1x128 := Rect.unit (s := S1x128) ![0, 0] S1x128.size inb_S1x128_S1x128_0_0
abbrev r1_6 : Rect S128x128 := Rect.unit (s := S128x128) ![0, 0] S128x128.size inb_S128x128_S128x128_0_0
abbrev r1_7 : Rect S1x128 := Rect.unit (s := S1x128) ![0, 0] S1x128.size inb_S1x128_S1x128_0_0
abbrev r1_8 : Rect S5000x128 := Rect.unit (s := S5000x128) ![0, 0] S5000x128.size inb_S5000x128_S5000x128_0_0

def out1_8 (x0 : Vec F S5000x128 .f32) (x1 : Vec F S5000x128 .f32) (x2 : Vec F S5000x1 .f32) (x3 : Vec F S1x128 .f32)
    (x4 : Vec F S128x128 .f32) (x5 : Vec F S1x128 .f32) (x6 : Vec F S128x128 .f32) (x7 : Vec F S1x128 .f32) : Vec F S5000x128 .f32 :=
  View.canon [⟨r1_8, k1_pay1 (View.ld x0 r1_0) (View.ld x1 r1_1) (View.ld x2 r1_2) (View.ld x3 r1_3) (View.ld x4 r1_4) (View.ld x5 r1_5) (View.ld x6 r1_6) (View.ld x7 r1_7)⟩]

theorem cover1_8 (p0 : Vec F S5000x128 .f32) (y : S5000x128.Idx) :
    ∃ pc ∈ ([⟨r1_8, p0⟩] : List (View.Piece (Elt F) S5000x128 .f32)), y ∈ pc.1.set :=
  View.cover_of_tiled [⟨r1_8, p0⟩] S5000x128.size (by rfl) y

set_option maxHeartbeats 1000000 in

theorem sound_kernel1 (c : Dev nD) (E : Set ℕ) (i : grid1.Coords)
    (arg0 : Memref sig .tc .vmem S5000x128 .f32) (harg0 : arg0.IsWhole) (arg1 : Memref sig .tc .vmem S5000x128 .f32) (harg1 : arg1.IsWhole)
    (arg2 : Memref sig .tc .vmem S5000x1 .f32) (harg2 : arg2.IsWhole) (arg3 : Memref sig .tc .vmem S1x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x128 .f32) (harg6 : arg6.IsWhole) (arg7 : Memref sig .tc .vmem S1x128 .f32) (harg7 : arg7.IsWhole)
    (arg8 : Memref sig .tc .vmem S5000x128 .f32) (harg8 : arg8.IsWhole)
    (x0 : Vec F S5000x128 .f32) (x1 : Vec F S5000x128 .f32) (x2 : Vec F S5000x1 .f32) (x3 : Vec F S1x128 .f32)
    (x4 : Vec F S128x128 .f32) (x5 : Vec F S1x128 .f32) (x6 : Vec F S128x128 .f32) (x7 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (out1_8 x0 x1 x2 x3 x4 x5 x6 x7)) -∗ K ⟨⟩))
      ⊢ wp frame (wpE (defs₀ (F := F)) Variants.none c none) E
          (cc1__gin_dense_kernel i arg0 harg0 arg1 harg1 arg2 harg2 arg3 harg3 arg4 harg4 arg5 harg5 arg6 harg6 arg7 harg7 arg8 harg8) K := by
  simp only [cc1__gin_dense_kernel_eq_skeleton]; unfold cc1__gin_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t =
    out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl
theorem before1_7 (c : Dev nD) (t : Fin cfg1.N) (d) : (dat1 V c).before 7 t d = iblk1 V c 7 t :=
  ((dat1 V c).before_in_eq_fetched 7 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KI.Dense2.lean ====
import proofs.«415659_j4501125726343_1_alg».proof.Proof.KI.Dense1
import proofs.«415659_j4501125726343_1_alg».proof.Proof.Gen.KernelIdeal.Launch
import proofs.«415659_j4501125726343_1_alg».proof.Proof.Gen.KernelIdeal.Skeleton
import proofs.«415659_j4501125726343_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Regions 1 to 4 run one kernel body on the same block shapes: region 1's triple, up to unfolding. -/
theorem sound_kernel2 (c : Dev nD) (E : Set ℕ) (i : grid2.Coords)
    (arg0 : Memref sig .tc .vmem S5000x128 .f32) (harg0 : arg0.IsWhole) (arg1 : Memref sig .tc .vmem S5000x128 .f32) (harg1 : arg1.IsWhole)
    (arg2 : Memref sig .tc .vmem S5000x1 .f32) (harg2 : arg2.IsWhole) (arg3 : Memref sig .tc .vmem S1x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x128 .f32) (harg6 : arg6.IsWhole) (arg7 : Memref sig .tc .vmem S1x128 .f32) (harg7 : arg7.IsWhole)
    (arg8 : Memref sig .tc .vmem S5000x128 .f32) (harg8 : arg8.IsWhole)
    (x0 : Vec F S5000x128 .f32) (x1 : Vec F S5000x128 .f32) (x2 : Vec F S5000x1 .f32) (x3 : Vec F S1x128 .f32)
    (x4 : Vec F S128x128 .f32) (x5 : Vec F S1x128 .f32) (x6 : Vec F S128x128 .f32) (x7 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (out1_8 x0 x1 x2 x3 x4 x5 x6 x7)) -∗ K ⟨⟩))
      ⊢ wp frame (wpE (defs₀ (F := F)) Variants.none c none) E
          (cc2__gin_dense_kernel i arg0 harg0 arg1 harg1 arg2 harg2 arg3 harg3 arg4 harg4 arg5 harg5 arg6 harg6 arg7 harg7 arg8 harg8) K :=
  sound_kernel1 c E i arg0 harg0 arg1 harg1 arg2 harg2 arg3 harg3 arg4 harg4 arg5 harg5 arg6 harg6 arg7 harg7 arg8 harg8 x0 x1 x2 x3 x4 x5 x6 x7 K

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out1_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t =
    out1_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl
theorem before2_6 (c : Dev nD) (t : Fin cfg2.N) (d) : (dat2 V c).before 6 t d = iblk2 V c 6 t :=
  ((dat2 V c).before_in_eq_fetched 6 rfl (fun _ => rfl) (fun _ _ _ => rfl) (fun _ => rfl) t d).trans rfl
theorem before2_7 (c : Dev nD) (t : Fin cfg2.N) (d) : (dat2 V c).before 7 t d = iblk2 V c 7 t :=
  ((dat2 V c).before_in_eq_fetched 7 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.Dense3.lean ====
import proofs.«415659_j4501125726343_1_alg».proof.Proof.KI.Dense1
import proofs.«415659_j4501125726343_1_alg».proof.Proof.Gen.KernelIdeal.Launch
import proofs.«415659_j4501125726343_1_alg».proof.Proof.Gen.KernelIdeal.Skeleton
import proofs.«415659_j4501125726343_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Region 1's triple, up to unfolding. -/
theorem sound_kernel3 (c : Dev nD) (E : Set ℕ) (i : grid3.Coords)
    (arg0 : Memref sig .tc .vmem S5000x128 .f32) (harg0 : arg0.IsWhole) (arg1 : Memref sig .tc .vmem S5000x128 .f32) (harg1 : arg1.IsWhole)
    (arg2 : Memref sig .tc .vmem S5000x1 .f32) (harg2 : arg2.IsWhole) (arg3 : Memref sig .tc .vmem S1x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x128 .f32) (harg6 : arg6.IsWhole) (arg7 : Memref sig .tc .vmem S1x128 .f32) (harg7 : arg7.IsWhole)
    (arg8 : Memref sig .tc .vmem S5000x128 .f32) (harg8 : arg8.IsWhole)
    (x0 : Vec F S5000x128 .f32) (x1 : Vec F S5000x128 .f32) (x2 : Vec F S5000x1 .f32) (x3 : Vec F S1x128 .f32)
    (x4 : Vec F S128x128 .f32) (x5 : Vec F S1x128 .f32) (x6 : Vec F S128x128 .f32) (x7 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (out1_8 x0 x1 x2 x3 x4 x5 x6 x7)) -∗ K ⟨⟩))
      ⊢ wp frame (wpE (defs₀ (F := F)) Variants.none c none) E
          (cc3__gin_dense_kernel i arg0 harg0 arg1 harg1 arg2 harg2 arg3 harg3 arg4 harg4 arg5 harg5 arg6 harg6 arg7 harg7 arg8 harg8) K :=
  sound_kernel1 c E i arg0 harg0 arg1 harg1 arg2 harg2 arg3 harg3 arg4 harg4 arg5 harg5 arg6 harg6 arg7 harg7 arg8 harg8 x0 x1 x2 x3 x4 x5 x6 x7 K

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out1_8 (iblk3 V c 0 t) (iblk3 V c 1 t) (iblk3 V c 2 t) (iblk3 V c 3 t) (iblk3 V c 4 t) (iblk3 V c 5 t) (iblk3 V c 6 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t =
    out1_8 (iblk3 V c 0 t) (iblk3 V c 1 t) (iblk3 V c 2 t) (iblk3 V c 3 t) (iblk3 V c 4 t) (iblk3 V c 5 t) (iblk3 V c 6 t) (iblk3 V c 7 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl
theorem before3_5 (c : Dev nD) (t : Fin cfg3.N) (d) : (dat3 V c).before 5 t d = iblk3 V c 5 t :=
  ((dat3 V c).before_in_eq_fetched 5 rfl (fun _ => rfl) (fun _ _ _ => rfl) (fun _ => rfl) t d).trans rfl
theorem before3_6 (c : Dev nD) (t : Fin cfg3.N) (d) : (dat3 V c).before 6 t d = iblk3 V c 6 t :=
  ((dat3 V c).before_in_eq_fetched 6 rfl (fun _ => rfl) (fun _ _ _ => rfl) (fun _ => rfl) t d).trans rfl
theorem before3_7 (c : Dev nD) (t : Fin cfg3.N) (d) : (dat3 V c).before 7 t d = iblk3 V c 7 t :=
  ((dat3 V c).before_in_eq_fetched 7 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel3 c Set.univ _ _ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.Dense4.lean ====
import proofs.«415659_j4501125726343_1_alg».proof.Proof.Gen.KernelIdeal.Launch
import proofs.«415659_j4501125726343_1_alg».proof.Proof.Gen.KernelIdeal.Skeleton
import proofs.«415659_j4501125726343_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S5000x128 := Rect.unit (s := S5000x128) ![0, 0] S5000x128.size inb_S5000x128_S5000x128_0_0
abbrev r4_1 : Rect S5000x128 := Rect.unit (s := S5000x128) ![0, 0] S5000x128.size inb_S5000x128_S5000x128_0_0
abbrev r4_2 : Rect S5000x1 := Rect.unit (s := S5000x1) ![0, 0] S5000x1.size inb_S5000x1_S5000x1_0_0
abbrev r4_3 : Rect S1x128 := Rect.unit (s := S1x128) ![0, 0] S1x128.size inb_S1x128_S1x128_0_0
abbrev r4_4 : Rect S128x128 := Rect.unit (s := S128x128) ![0, 0] S128x128.size inb_S128x128_S128x128_0_0
abbrev r4_5 : Rect S1x128 := Rect.unit (s := S1x128) ![0, 0] S1x128.size inb_S1x128_S1x128_0_0
abbrev r4_6 : Rect S128x128 := Rect.unit (s := S128x128) ![0, 0] S128x128.size inb_S128x128_S128x128_0_0
abbrev r4_7 : Rect S1x128 := Rect.unit (s := S1x128) ![0, 0] S1x128.size inb_S1x128_S1x128_0_0
abbrev r4_8 : Rect S5000x128 := Rect.unit (s := S5000x128) ![0, 0] S5000x128.size inb_S5000x128_S5000x128_0_0

def out4_8 (x0 : Vec F S5000x128 .f32) (x1 : Vec F S5000x128 .f32) (x2 : Vec F S5000x1 .f32) (x3 : Vec F S1x128 .f32)
    (x4 : Vec F S128x128 .f32) (x5 : Vec F S1x128 .f32) (x6 : Vec F S128x128 .f32) (x7 : Vec F S1x128 .f32) : Vec F S5000x128 .f32 :=
  View.canon [⟨r4_8, k4_pay1 (View.ld x0 r4_0) (View.ld x1 r4_1) (View.ld x2 r4_2) (View.ld x3 r4_3) (View.ld x4 r4_4) (View.ld x5 r4_5) (View.ld x6 r4_6) (View.ld x7 r4_7)⟩]

theorem cover4_8 (p0 : Vec F S5000x128 .f32) (y : S5000x128.Idx) :
    ∃ pc ∈ ([⟨r4_8, p0⟩] : List (View.Piece (Elt F) S5000x128 .f32)), y ∈ pc.1.set :=
  View.cover_of_tiled [⟨r4_8, p0⟩] S5000x128.size (by rfl) y

set_option maxHeartbeats 1000000 in

theorem sound_kernel4 (c : Dev nD) (E : Set ℕ) (i : grid4.Coords)
    (arg0 : Memref sig .tc .vmem S5000x128 .f32) (harg0 : arg0.IsWhole) (arg1 : Memref sig .tc .vmem S5000x128 .f32) (harg1 : arg1.IsWhole)
    (arg2 : Memref sig .tc .vmem S5000x1 .f32) (harg2 : arg2.IsWhole) (arg3 : Memref sig .tc .vmem S1x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x128 .f32) (harg6 : arg6.IsWhole) (arg7 : Memref sig .tc .vmem S1x128 .f32) (harg7 : arg7.IsWhole)
    (arg8 : Memref sig .tc .vmem S5000x128 .f32) (harg8 : arg8.IsWhole)
    (x0 : Vec F S5000x128 .f32) (x1 : Vec F S5000x128 .f32) (x2 : Vec F S5000x1 .f32) (x3 : Vec F S1x128 .f32)
    (x4 : Vec F S128x128 .f32) (x5 : Vec F S1x128 .f32) (x6 : Vec F S128x128 .f32) (x7 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (out4_8 x0 x1 x2 x3 x4 x5 x6 x7)) -∗ K ⟨⟩))
      ⊢ wp frame (wpE (defs₀ (F := F)) Variants.none c none) E
          (cc4__gin_dense_kernel i arg0 harg0 arg1 harg1 arg2 harg2 arg3 harg3 arg4 harg4 arg5 harg5 arg6 harg6 arg7 harg7 arg8 harg8) K := by
  simp only [cc4__gin_dense_kernel_eq_skeleton]; unfold cc4__gin_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover4_8 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => out4_8 (iblk4 V c 0 t) (iblk4 V c 1 t) (iblk4 V c 2 t) (iblk4 V c 3 t) (iblk4 V c 4 t) (iblk4 V c 5 t) (iblk4 V c 6 t) (iblk4 V c 7 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t =
    out4_8 (iblk4 V c 0 t) (iblk4 V c 1 t) (iblk4 V c 2 t) (iblk4 V c 3 t) (iblk4 V c 4 t) (iblk4 V c 5 t) (iblk4 V c 6 t) (iblk4 V c 7 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 V c).before 3 t d = iblk4 V c 3 t :=
  ((dat4 V c).before_in_eq_fetched 3 rfl (fun _ => rfl) (fun _ _ _ => rfl) (fun _ => rfl) t d).trans rfl
theorem before4_4 (c : Dev nD) (t : Fin cfg4.N) (d) : (dat4 V c).before 4 t d = iblk4 V c 4 t :=
  ((dat4 V c).before_in_eq_fetched 4 rfl (fun _ => rfl) (fun _ _ _ => rfl) (fun _ => rfl) t d).trans rfl
theorem before4_5 (c : Dev nD) (t : Fin cfg4.N) (d) : (dat4 V c).before 5 t d = iblk4 V c 5 t :=
  ((dat4 V c).before_in_eq_fetched 5 rfl (fun _ => rfl) (fun _ _ _ => rfl) (fun _ => rfl) t d).trans rfl
theorem before4_6 (c : Dev nD) (t : Fin cfg4.N) (d) : (dat4 V c).before 6 t d = iblk4 V c 6 t :=
  ((dat4 V c).before_in_eq_fetched 6 rfl (fun _ => rfl) (fun _ _ _ => rfl) (fun _ => rfl) t d).trans rfl
theorem before4_7 (c : Dev nD) (t : Fin cfg4.N) (d) : (dat4 V c).before 7 t d = iblk4 V c 7 t :=
  ((dat4 V c).before_in_eq_fetched 7 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel4 c Set.univ _ _ _ _ _ _ _ _ _ _ _ _ _ _ _ _ _ _ _
    (iblk4 V c 0 t) (iblk4 V c 1 t) (iblk4 V c 2 t) (iblk4 V c 3 t) (iblk4 V c 4 t) (iblk4 V c 5 t) (iblk4 V c 6 t) (iblk4 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.KI.Pool.lean ====
import proofs.«415659_j4501125726343_1_alg».proof.Proof.Gen.KernelIdeal.Launch
import proofs.«415659_j4501125726343_1_alg».proof.Proof.Gen.KernelIdeal.Skeleton
import proofs.«415659_j4501125726343_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl

theorem readAt_whole {sh : Shape} {e : EltTy} {sp : Space} (v : View sig .tc sp sh e) (f : v.ty.Contents (Elt F))
    {off : Fin sh.rank → Nat} (h : off = fun _ => 0) (inb : ∀ a, off a + sh.size a ≤ sh.size a) :
    v.readAt (Elt F) (Rect.unit off sh.size inb).toLoadRect f = v.read (Elt F) f := by
  rw [View.readAt_eq_ld]; exact View.ld_unit_zero h inb _

theorem read_writes_whole {sh : Shape} {e : EltTy} {sp : Space} (v : View sig .tc sp sh e) (f : v.ty.Contents (Elt F))
    {off : Fin sh.rank → Nat} (h : off = fun _ => 0) (inb : ∀ a, off a + sh.size a ≤ sh.size a)
    (w : sh.Idx → Elt F e) (L : List (View.Piece (Elt F) sh e)) :
    v.read (Elt F) (v.writes (Elt F) f ((⟨Rect.unit off sh.size inb, w⟩ : View.Piece (Elt F) sh e) :: L)) = w := by
  rw [View.read_writes_eq_canon v f _ (fun y => ⟨_, List.mem_cons_self .., View.mem_set_unit_zero h inb y⟩),
    View.canon_cons_unit_zero h inb]

theorem readCov_whole {sh : Shape} {e : EltTy} {sp : Space} (v : View sig .tc sp sh e)
    {off : Fin sh.rank → Nat} (h : off = fun _ => 0) (inb : ∀ a, off a + sh.size a ≤ sh.size a)
    (w : sh.Idx → Elt F e) (L : List (View.Piece (Elt F) sh e)) :
    v.readCov ((⟨Rect.unit off sh.size inb, w⟩ : View.Piece (Elt F) sh e) :: L) (Rect.unit off sh.size inb).toLoadRect = w := by
  rw [View.readCov_eq_canon_ld v _ _ (fun y => ⟨_, List.mem_cons_self .., View.mem_set_unit_zero h inb y⟩),
    View.canon_cons_unit_zero h inb, View.ld_unit_zero h inb]

abbrev cond5_1 (i : grid5.Coords) : Prop := (Scalar.cmpi .ne (Scalar.extui (Scalar.cmpi .eq (BitVec.ofNat 32 (i 0).val) 0#32)) 0#32) = 1#1

theorem hcond5_1 : ∀ t : Fin cfg5.N, cond5_1 (grid5.coords t) ↔ t.val = 0 :=
  (by decide +kernel : ∀ t : Fin grid5.N, cond5_1 (grid5.coords t) ↔ t.val = 0)

abbrev cond5_2 (i : grid5.Coords) : Prop := k5_cond2 i = 1#1

theorem hcond5_2 : ∀ t : Fin cfg5.N, cond5_2 (grid5.coords t) ↔ t.val = 19 :=
  (by decide +kernel : ∀ t : Fin grid5.N, cond5_2 (grid5.coords t) ↔ t.val = 19)

set_option maxHeartbeats 1000000 in
theorem kernel5_mid (c : Dev nD) (E : Set ℕ) (i : grid5.Coords)
    (arg1 : Memref sig .tc .vmem S5000x128 .f32) (harg1 : arg1.IsWhole) (arg2 : Memref sig .tc .vmem S5000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S128x2 .f32) (harg5 : arg5.IsWhole) (arg6 : Memref sig .tc .vmem S128x128 .f32) (harg6 : arg6.IsWhole)
    (arg7 : Memref sig .tc .vmem S128x1 .f32) (harg7 : arg7.IsWhole)
    (hc1 : ¬cond5_1 i) (hc2 : ¬cond5_2 i)
    (x0 : Vec F S5000x128 .f32) (x1 : Vec F S5000x1 .i32) (x2 : Vec F S128x2 .f32) (x3 : Vec F S1x2 .f32) (x4 : Vec F S128x2 .f32)
    (s0 : Vec F S128x128 .f32) (s1 : Vec F S128x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ owns (c : Thread nD τ) arg6 fullShare s0 ∗ owns (c : Thread nD τ) arg7 fullShare s1
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (x4)
            ∗ owns (c : Thread nD τ) arg6 fullShare (k5_pay4 x0 x1 s0) ∗ owns (c : Thread nD τ) arg7 fullShare (k5_pay5 x1 s1)) -∗ K ⟨⟩))
      ⊢ wp frame (wpE (defs₀ (F := F)) Variants.none c none) E (cc5__pool_kernel i arg1 harg1 arg2 harg2 arg3 harg3 arg4 harg4 arg5 harg5 arg6 harg6 arg7 harg7) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, Hk⟩
  subst hf0 hf1 hf2 hf3 hf4 hg0 hg1
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [S0]
  · iexists _; isplitr
    swap; · iexact S0
    ipureintro
    rw [read_writes_whole _ _ hz2, readAt_whole _ _ hz2, readAt_whole _ _ hz2, readAt_whole _ _ hz2]
  · iexists _; isplitr
    swap; · iexact S1
    ipureintro
    rw [read_writes_whole _ _ hz2, readAt_whole _ _ hz2, readAt_whole _ _ hz2]

set_option maxHeartbeats 1000000 in
theorem kernel5_first (c : Dev nD) (E : Set ℕ) (i : grid5.Coords)
    (arg1 : Memref sig .tc .vmem S5000x128 .f32) (harg1 : arg1.IsWhole) (arg2 : Memref sig .tc .vmem S5000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S128x2 .f32) (harg5 : arg5.IsWhole) (arg6 : Memref sig .tc .vmem S128x128 .f32) (harg6 : arg6.IsWhole)
    (arg7 : Memref sig .tc .vmem S128x1 .f32) (harg7 : arg7.IsWhole)
    (hc1 : cond5_1 i) (hc2 : ¬cond5_2 i)
    (x0 : Vec F S5000x128 .f32) (x1 : Vec F S5000x1 .i32) (x2 : Vec F S128x2 .f32) (x3 : Vec F S1x2 .f32) (x4 : Vec F S128x2 .f32)
    (s0 : Vec F S128x128 .f32) (s1 : Vec F S128x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ owns (c : Thread nD τ) arg6 fullShare s0 ∗ owns (c : Thread nD τ) arg7 fullShare s1
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (x4)
            ∗ owns (c : Thread nD τ) arg6 fullShare (k5_pay4 x0 x1 k5_pay1) ∗ owns (c : Thread nD τ) arg7 fullShare (k5_pay5 x1 k5_pay2)) -∗ K ⟨⟩))
      ⊢ wp frame (wpE (defs₀ (F := F)) Variants.none c none) E (cc5__pool_kernel i arg1 harg1 arg2 harg2 arg3 harg3 arg4 harg4 arg5 harg5 arg6 harg6 arg7 harg7) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, Hk⟩
  subst hf0 hf1 hf2 hf3 hf4 hg0 hg1
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [S0]
  · iexists _; isplitr
    swap; · iexact S0
    ipureintro
    rw [read_writes_whole _ _ hz2, readAt_whole _ _ hz2, readAt_whole _ _ hz2]
    unfold kernel5_first.sl.v17 kernel5_first.sl.S0_1
    rw [readCov_whole _ hz2]
  · iexists _; isplitr
    swap; · iexact S1
    ipureintro
    rw [read_writes_whole _ _ hz2, readAt_whole _ _ hz2]
    unfold kernel5_first.sl.v22 kernel5_first.sl.S1_1
    rw [readCov_whole _ hz2]

set_option maxHeartbeats 1000000 in
theorem kernel5_last (c : Dev nD) (E : Set ℕ) (i : grid5.Coords)
    (arg1 : Memref sig .tc .vmem S5000x128 .f32) (harg1 : arg1.IsWhole) (arg2 : Memref sig .tc .vmem S5000x1 .i32) (harg2 : arg2.IsWhole)
    (arg3 : Memref sig .tc .vmem S128x2 .f32) (harg3 : arg3.IsWhole) (arg4 : Memref sig .tc .vmem S1x2 .f32) (harg4 : arg4.IsWhole)
    (arg5 : Memref sig .tc .vmem S128x2 .f32) (harg5 : arg5.IsWhole) (arg6 : Memref sig .tc .vmem S128x128 .f32) (harg6 : arg6.IsWhole)
    (arg7 : Memref sig .tc .vmem S128x1 .f32) (harg7 : arg7.IsWhole)
    (hc1 : ¬cond5_1 i) (hc2 : cond5_2 i)
    (x0 : Vec F S5000x128 .f32) (x1 : Vec F S5000x1 .i32) (x2 : Vec F S128x2 .f32) (x3 : Vec F S1x2 .f32) (x4 : Vec F S128x2 .f32)
    (s0 : Vec F S128x128 .f32) (s1 : Vec F S128x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ owns (c : Thread nD τ) arg6 fullShare s0 ∗ owns (c : Thread nD τ) arg7 fullShare s1
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k5_pay6 (k5_pay4 x0 x1 s0) (k5_pay5 x1 s1) x2 x3)
            ∗ owns (c : Thread nD τ) arg6 fullShare (k5_pay4 x0 x1 s0) ∗ owns (c : Thread nD τ) arg7 fullShare (k5_pay5 x1 s1)) -∗ K ⟨⟩))
      ⊢ wp frame (wpE (defs₀ (F := F)) Variants.none c none) E (cc5__pool_kernel i arg1 harg1 arg2 harg2 arg3 harg3 arg4 harg4 arg5 harg5 arg6 harg6 arg7 harg7) K := by
  simp only [cc5__pool_kernel_eq_skeleton]; unfold cc5__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, Hk⟩
  subst hf0 hf1 hf2 hf3 hf4 hg0 hg1
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr
    swap; · iexact H4
    ipureintro
    rw [read_writes_whole _ _ hz2, readAt_whole _ _ hz2, readAt_whole _ _ hz2]
    unfold kernel5_last.sl.v30 kernel5_last.sl.v31 kernel5_last.sl.S0_1 kernel5_last.sl.S1_1
    rw [readCov_whole _ hz2, readCov_whole _ hz2]
    repeat rw [readAt_whole _ _ hz2]
  isplitl [S0]
  · iexists _; isplitr
    swap; · iexact S0
    ipureintro
    unfold kernel5_last.sl.S0_1
    rw [read_writes_whole _ _ hz2]
    repeat rw [readAt_whole _ _ hz2]
  · iexists _; isplitr
    swap; · iexact S1
    ipureintro
    unfold kernel5_last.sl.S1_1
    rw [read_writes_whole _ _ hz2]
    repeat rw [readAt_whole _ _ hz2]

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def scAt5 (c : Dev nD) : (n : ℕ) → n < cfg5.N → Vec F S128x128 .f32 × Vec F S128x1 .f32
  | 0, hn => (k5_pay4 (iblk5 V c 0 ⟨0, hn⟩) (iblk5 V c 1 ⟨0, hn⟩) k5_pay1, k5_pay5 (iblk5 V c 1 ⟨0, hn⟩) k5_pay2)
  | n + 1, hn => (k5_pay4 (iblk5 V c 0 ⟨n + 1, hn⟩) (iblk5 V c 1 ⟨n + 1, hn⟩) (scAt5 c n (Nat.lt_of_succ_lt hn)).1,
      k5_pay5 (iblk5 V c 1 ⟨n + 1, hn⟩) (scAt5 c n (Nat.lt_of_succ_lt hn)).2)

def out5_4 (c : Dev nD) (t : Fin cfg5.N) : Vec F S128x2 .f32 :=
  k5_pay6 (scAt5 V c t.val t.isLt).1 (scAt5 V c t.val t.isLt).2 (iblk5 V c 2 t) (iblk5 V c 3 t)

def Phi5 (c : Dev nD) : (n : ℕ) → n ≤ cfg5.N → sProp 𝕄
  | 0, _ => Pipeline.ΦA spec5 c
  | n + 1, hn => iprop(owns (c : Thread nD τ) (Memref.whole cc5_scratch0) fullShare (scAt5 V c n hn).1
      ∗ owns (c : Thread nD τ) (Memref.whole cc5_scratch1) fullShare (scAt5 V c n hn).2
      ∗ Pipeline.scopedRestBut (Ix := Unit) (Name := ℕ) (U := UR sig nD τ) (Lvl := ℕ) (Val := Elt F) spec5 c [cc5_scratch0, cc5_scratch1]
      ∗ ∃ r, prngReg c r)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 V c t
  Φ t := Phi5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 V c t := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl

theorem Phi5_zero (c : Dev nD) (n : ℕ) (h : n ≤ cfg5.N) (hz : n = 0) : Phi5 V c n h = Pipeline.ΦA spec5 c := by
  subst hz; rfl

theorem Phi5_succ (c : Dev nD) (n : ℕ) (hn : n < cfg5.N) :
    Phi5 V c (n + 1) hn = iprop(owns (c : Thread nD τ) (Memref.whole cc5_scratch0) fullShare (scAt5 V c n hn).1
      ∗ owns (c : Thread nD τ) (Memref.whole cc5_scratch1) fullShare (scAt5 V c n hn).2
      ∗ Pipeline.scopedRestBut (Ix := Unit) (Name := ℕ) (U := UR sig nD τ) (Lvl := ℕ) (Val := Elt F) spec5 c [cc5_scratch0, cc5_scratch1]
      ∗ ∃ r, prngReg c r) := rfl

theorem Phi5_pos (c : Dev nD) (n : ℕ) (h : n ≤ cfg5.N) (hz : n ≠ 0) :
    Phi5 V c n h = iprop(owns (c : Thread nD τ) (Memref.whole cc5_scratch0) fullShare (scAt5 V c (n - 1) (by omega)).1
      ∗ owns (c : Thread nD τ) (Memref.whole cc5_scratch1) fullShare (scAt5 V c (n - 1) (by omega)).2
      ∗ Pipeline.scopedRestBut (Ix := Unit) (Name := ℕ) (U := UR sig nD τ) (Lvl := ℕ) (Val := Elt F) spec5 c [cc5_scratch0, cc5_scratch1]
      ∗ ∃ r, prngReg c r) := by
  cases n with
  | zero => exact absurd rfl hz
  | succ n => rfl

theorem Phi5_castSucc (c : Dev nD) (t : Fin cfg5.N) :
    (dat5 V c).Φ t.castSucc = Phi5 V c t.val (Nat.le_of_lt t.isLt) := by
  dsimp only [dat5]; simp only [Fin.coe_castSucc]

theorem PhiA5_eq (c : Dev nD) :
    (Pipeline.ΦA spec5 c : sProp 𝕄)
      = iprop(iprop(iprop((∃ d, owns (c : Thread nD τ) (Memref.whole cc5_scratch0) fullShare d) ∗ (∃ d, owns (c : Thread nD τ) (Memref.whole cc5_scratch1) fullShare d))
          ∗ Pipeline.scopedRestBut (Ix := Unit) (Name := ℕ) (U := UR sig nD τ) (Lvl := ℕ) (Val := Elt F) spec5 c [cc5_scratch0, cc5_scratch1])
        ∗ (∃ r, prngReg c r)) := by
  unfold Pipeline.ΦA; rw [scopedRest5_split]; simp only [owns_whole]; try rfl

theorem scAt5_zero (c : Dev nD) (t : Fin cfg5.N) (h0 : t.val = 0) :
    scAt5 V c t.val t.isLt = (k5_pay4 (iblk5 V c 0 t) (iblk5 V c 1 t) k5_pay1, k5_pay5 (iblk5 V c 1 t) k5_pay2) := by
  obtain ⟨n, hn⟩ := t
  cases n with
  | zero => rfl
  | succ n => exact absurd h0 (Nat.succ_ne_zero n)

theorem scAt5_pos (c : Dev nD) (t : Fin cfg5.N) (h0 : t.val ≠ 0) :
    scAt5 V c t.val t.isLt = (k5_pay4 (iblk5 V c 0 t) (iblk5 V c 1 t) (scAt5 V c (t.val - 1) (Nat.lt_of_le_of_lt (Nat.sub_le _ _) t.isLt)).1,
      k5_pay5 (iblk5 V c 1 t) (scAt5 V c (t.val - 1) (Nat.lt_of_le_of_lt (Nat.sub_le _ _) t.isLt)).2) := by
  obtain ⟨n, hn⟩ := t
  cases n with
  | zero => exact absurd rfl h0
  | succ n => rfl

theorem hin5 (c : Dev nD) : Pipeline.ΦA spec5 c ⊢ (dat5 V c).Φ 0 := by
  rw [show (dat5 V c).Φ 0 = Phi5 V c 0 (Nat.zero_le _) from rfl, Phi5_zero V c 0 _ rfl]
  try exact Idealize.SL.BI.Entails.refl _

theorem hout5 (c : Dev nD) : (dat5 V c).Φ (Fin.last cfg5.N) ⊢ Pipeline.ΦA spec5 c := by
  rw [show (dat5 V c).Φ (Fin.last cfg5.N) = Phi5 V c (Fin.last cfg5.N).val (Nat.le_of_lt_succ (Fin.last cfg5.N).isLt) from rfl,
    Phi5_pos V c _ _ (by rw [Fin.val_last]; have : cfg5.N = 20 := N_5; omega), PhiA5_eq]
  iintro ⟨HS0, HS1, HR, Hg⟩
  isplitl [HS0 HS1 HR]
  · isplitl [HS0 HS1]
    · isplitl [HS0]
      · iexists _; iexact HS0
      · iexists _; iexact HS1
    · iexact HR
  · iexact Hg

theorem live5_0 : ∀ t : Fin cfg5.N, cfg5.idle 0 (grid5.coords t) = false := fun _ => rfl
theorem live5_1 : ∀ t : Fin cfg5.N, cfg5.idle 1 (grid5.coords t) = false := fun _ => rfl
theorem live5_2 : ∀ t : Fin cfg5.N, cfg5.idle 2 (grid5.coords t) = false := fun _ => rfl
theorem live5_3 : ∀ t : Fin cfg5.N, cfg5.idle 3 (grid5.coords t) = false := fun _ => rfl

theorem idle5_4 : ∀ t : Fin cfg5.N, ¬t.val = 19 → cfg5.idle 4 (grid5.coords t) = true := by decide +kernel

theorem live5_4 : ∀ t : Fin cfg5.N, t.val = 19 → cfg5.idle 4 (grid5.coords t) = false := by decide +kernel

theorem noFlush5_4 (t : Fin cfg5.N) (h : ¬t.val = 19) : (cfg5.win 4).flush t = false := by
  have hN : t.val < 20 := lt_of_lt_of_eq t.isLt (show cfg5.N = 20 from N_5)
  cases hf : (cfg5.win 4).flush t with
  | false => rfl
  | true => exact absurd ((flush5_4 t).mp hf) (by omega)

theorem leaves5_0 (c : Dev nD) (t : Fin cfg5.N) :
    (dat5 V c).leavesExact 0 t = owns (c : Thread nD τ) (st5_0 t) fullShare (iblk5 V c 0 t) := by
  unfold Dat.leavesExact; rw [live5_0 t, after5_0]
theorem leaves5_1 (c : Dev nD) (t : Fin cfg5.N) :
    (dat5 V c).leavesExact 1 t = owns (c : Thread nD τ) (st5_1 t) fullShare (iblk5 V c 1 t) := by
  unfold Dat.leavesExact; rw [live5_1 t, after5_1]
theorem leaves5_2 (c : Dev nD) (t : Fin cfg5.N) :
    (dat5 V c).leavesExact 2 t = owns (c : Thread nD τ) (st5_2 t) fullShare (iblk5 V c 2 t) := by
  unfold Dat.leavesExact; rw [live5_2 t, after5_2]
theorem leaves5_3 (c : Dev nD) (t : Fin cfg5.N) :
    (dat5 V c).leavesExact 3 t = owns (c : Thread nD τ) (st5_3 t) fullShare (iblk5 V c 3 t) := by
  unfold Dat.leavesExact; rw [live5_3 t, after5_3]

theorem leaves5_4_last (c : Dev nD) (t : Fin cfg5.N) (h : t.val = 19) :
    (dat5 V c).leavesExact 4 t = owns (c : Thread nD τ) (st5_4 t) fullShare (out5_4 V c t) := by
  unfold Dat.leavesExact; rw [live5_4 t h, after5_4]

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 4000000 in

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl]
  rw [show (dat5 V c).Φ t.succ = Phi5 V c (t.val + 1) t.isLt from rfl, Phi5_succ]
  rw [leaves5_0, leaves5_1, leaves5_2, leaves5_3]
  have hN : t.val < 20 := lt_of_lt_of_eq t.isLt (show cfg5.N = 20 from N_5)
  by_cases h0 : t.val = 0
  · have h19 : ¬t.val = 19 := by omega
    rw [Dat.leavesExact_idle (dat5 V c) 4 t (idle5_4 t h19) (noFlush5_4 t h19)]
    rw [Phi5_castSucc V c t, Phi5_zero V c _ _ h0, PhiA5_eq, scAt5_zero V c t h0]
    iintro ⟨⟨⟨⟨⟨%s0, HS0⟩, ⟨%s1, HS1⟩⟩, HR⟩, Hg⟩, Ho, ⟨%d0, H0⟩, ⟨%d1, H1⟩, ⟨%d2, H2⟩, ⟨%d3, H3⟩, ⟨%d4, H4⟩⟩
    iapply (kernel5_first c Set.univ (grid5.coords t) _ _ _ _ _ _ _ _ _ _ _ _ _ _ ((hcond5_1 t).mpr h0) (fun h => h19 ((hcond5_2 t).mp h))
      (iblk5 V c 0 t) (iblk5 V c 1 t) (iblk5 V c 2 t) (iblk5 V c 3 t) _ s0 s1 _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexact H1
    isplitl [H2]; · iexact H2
    isplitl [H3]; · iexact H3
    iexists _; iexact H4
  · by_cases h19 : t.val = 19
    · rw [leaves5_4_last V c t h19]
      unfold out5_4
      rw [Phi5_castSucc V c t, Phi5_pos V c _ _ h0, scAt5_pos V c t h0]
      iintro ⟨⟨HS0, HS1, HR, Hg⟩, Ho, ⟨%d0, H0⟩, ⟨%d1, H1⟩, ⟨%d2, H2⟩, ⟨%d3, H3⟩, ⟨%d4, H4⟩⟩
      iapply (kernel5_last c Set.univ (grid5.coords t) _ _ _ _ _ _ _ _ _ _ _ _ _ _ (fun h => h0 ((hcond5_1 t).mp h)) ((hcond5_2 t).mpr h19)
        (iblk5 V c 0 t) (iblk5 V c 1 t) (iblk5 V c 2 t) (iblk5 V c 3 t) _ _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat5 V c) 4 t (idle5_4 t h19) (noFlush5_4 t h19)]
      rw [Phi5_castSucc V c t, Phi5_pos V c _ _ h0, scAt5_pos V c t h0]
      iintro ⟨⟨HS0, HS1, HR, Hg⟩, Ho, ⟨%d0, H0⟩, ⟨%d1, H1⟩, ⟨%d2, H2⟩, ⟨%d3, H3⟩, ⟨%d4, H4⟩⟩
      iapply (kernel5_mid c Set.univ (grid5.coords t) _ _ _ _ _ _ _ _ _ _ _ _ _ _ (fun h => h0 ((hcond5_1 t).mp h)) (fun h => h19 ((hcond5_2 t).mp h))
        (iblk5 V c 0 t) (iblk5 V c 1 t) (iblk5 V c 2 t) (iblk5 V c 3 t) _ _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Run.lean ====
import proofs.«415659_j4501125726343_1_alg».proof.Proof.KI.Dense0
import proofs.«415659_j4501125726343_1_alg».proof.Proof.KI.Dense1
import proofs.«415659_j4501125726343_1_alg».proof.Proof.KI.Dense2
import proofs.«415659_j4501125726343_1_alg».proof.Proof.KI.Dense3
import proofs.«415659_j4501125726343_1_alg».proof.Proof.KI.Dense4
import proofs.«415659_j4501125726343_1_alg».proof.Proof.KI.Pool
import proofs.«415659_j4501125726343_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b

def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b

def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

theorem W2_keep (c : Dev nD) (r : Ref sig .tc) (h : r ≠ main_v19) :
    W2 m ρ c (Proc.devRef .tc r) = W1 m ρ c (Proc.devRef .tc r) := by
  have hio : ∀ w : Fin cfg0.W, Pipeline.arrRef spec0 w ≠ main_v19 → (cfg0.win w).isOut = false := by decide
  by_cases hw : ∃ w, Pipeline.arrRef spec0 w = r
  · obtain ⟨w, rfl⟩ := hw
    exact (W2_arr m ρ c w).trans (((dat0 (V1 m ρ) c).arrAt_in w (hio w h) _).trans (A_eq0 (V1 m ρ) c w))
  · exact W2_of_ne m ρ c r fun w e => hw ⟨w, e⟩

theorem W4_keep (c : Dev nD) (r : Ref sig .tc) (h : r ≠ main_v43) :
    W4 m ρ c (Proc.devRef .tc r) = W3 m ρ c (Proc.devRef .tc r) := by
  have hio : ∀ w : Fin cfg1.W, Pipeline.arrRef spec1 w ≠ main_v43 → (cfg1.win w).isOut = false := by decide
  by_cases hw : ∃ w, Pipeline.arrRef spec1 w = r
  · obtain ⟨w, rfl⟩ := hw
    exact (W4_arr m ρ c w).trans (((dat1 (V3 m ρ) c).arrAt_in w (hio w h) _).trans (A_eq1 (V3 m ρ) c w))
  · exact W4_of_ne m ρ c r fun w e => hw ⟨w, e⟩

theorem W6_keep (c : Dev nD) (r : Ref sig .tc) (h : r ≠ main_v67) :
    W6 m ρ c (Proc.devRef .tc r) = W5 m ρ c (Proc.devRef .tc r) := by
  have hio : ∀ w : Fin cfg2.W, Pipeline.arrRef spec2 w ≠ main_v67 → (cfg2.win w).isOut = false := by decide
  by_cases hw : ∃ w, Pipeline.arrRef spec2 w = r
  · obtain ⟨w, rfl⟩ := hw
    exact (W6_arr m ρ c w).trans (((dat2 (V5 m ρ) c).arrAt_in w (hio w h) _).trans (A_eq2 (V5 m ρ) c w))
  · exact W6_of_ne m ρ c r fun w e => hw ⟨w, e⟩

theorem W8_keep (c : Dev nD) (r : Ref sig .tc) (h : r ≠ main_v91) :
    W8 m ρ c (Proc.devRef .tc r) = W7 m ρ c (Proc.devRef .tc r) := by
  have hio : ∀ w : Fin cfg3.W, Pipeline.arrRef spec3 w ≠ main_v91 → (cfg3.win w).isOut = false := by decide
  by_cases hw : ∃ w, Pipeline.arrRef spec3 w = r
  · obtain ⟨w, rfl⟩ := hw
    exact (W8_arr m ρ c w).trans (((dat3 (V7 m ρ) c).arrAt_in w (hio w h) _).trans (A_eq3 (V7 m ρ) c w))
  · exact W8_of_ne m ρ c r fun w e => hw ⟨w, e⟩

theorem W10_keep (c : Dev nD) (r : Ref sig .tc) (h : r ≠ main_v115) :
    W10 m ρ c (Proc.devRef .tc r) = W9 m ρ c (Proc.devRef .tc r) := by
  have hio : ∀ w : Fin cfg4.W, Pipeline.arrRef spec4 w ≠ main_v115 → (cfg4.win w).isOut = false := by decide
  by_cases hw : ∃ w, Pipeline.arrRef spec4 w = r
  · obtain ⟨w, rfl⟩ := hw
    exact (W10_arr m ρ c w).trans (((dat4 (V9 m ρ) c).arrAt_in w (hio w h) _).trans (A_eq4 (V9 m ρ) c w))
  · exact W10_of_ne m ρ c r fun w e => hw ⟨w, e⟩

theorem W12_keep (c : Dev nD) (r : Ref sig .tc) (h : r ≠ main_v117) :
    W12 m ρ c (Proc.devRef .tc r) = W11 m ρ c (Proc.devRef .tc r) := by
  have hio : ∀ w : Fin cfg5.W, Pipeline.arrRef spec5 w ≠ main_v117 → (cfg5.win w).isOut = false := by decide
  by_cases hw : ∃ w, Pipeline.arrRef spec5 w = r
  · obtain ⟨w, rfl⟩ := hw
    exact (W12_arr m ρ c w).trans (((dat5 (V11 m ρ) c).arrAt_in w (hio w h) _).trans (A_eq5 (V11 m ρ) c w))
  · exact W12_of_ne m ρ c r fun w e => hw ⟨w, e⟩

theorem W12_unwritten (c : Dev nD) (r : Ref sig .tc)
    (h : r ∉ hostOps0_W ++ hostOps1_W ++ hostOps2_W ++ hostOps3_W ++ hostOps4_W ++ hostOps5_W
          ++ [main_v19, main_v43, main_v67, main_v91, main_v115, main_v117]) :
    W12 m ρ c (Proc.devRef .tc r) = m ((c : Thread nD τ).loc r) := by
  simp only [List.mem_append, not_or] at h
  obtain ⟨⟨⟨⟨⟨⟨h0, h1⟩, h2⟩, h3⟩, h4⟩, h5⟩, hL⟩ := h
  have e19 : r ≠ main_v19 := by rintro rfl; exact hL (by decide)
  have e43 : r ≠ main_v43 := by rintro rfl; exact hL (by decide)
  have e67 : r ≠ main_v67 := by rintro rfl; exact hL (by decide)
  have e91 : r ≠ main_v91 := by rintro rfl; exact hL (by decide)
  have e115 : r ≠ main_v115 := by rintro rfl; exact hL (by decide)
  have e117 : r ≠ main_v117 := by rintro rfl; exact hL (by decide)
  calc W12 m ρ c (Proc.devRef .tc r)
    _ = W11 m ρ c (Proc.devRef .tc r) := W12_keep m ρ c r e117
    _ = W10 m ρ c (Proc.devRef .tc r) := StableHlo.after_of_writes_sub hostOps5 _ hostOps5_writes h5
    _ = W9 m ρ c (Proc.devRef .tc r) := W10_keep m ρ c r e115
    _ = W8 m ρ c (Proc.devRef .tc r) := StableHlo.after_of_writes_sub hostOps4 _ hostOps4_writes h4
    _ = W7 m ρ c (Proc.devRef .tc r) := W8_keep m ρ c r e91
    _ = W6 m ρ c (Proc.devRef .tc r) := StableHlo.after_of_writes_sub hostOps3 _ hostOps3_writes h3
    _ = W5 m ρ c (Proc.devRef .tc r) := W6_keep m ρ c r e67
    _ = W4 m ρ c (Proc.devRef .tc r) := StableHlo.after_of_writes_sub hostOps2 _ hostOps2_writes h2
    _ = W3 m ρ c (Proc.devRef .tc r) := W4_keep m ρ c r e43
    _ = W2 m ρ c (Proc.devRef .tc r) := StableHlo.after_of_writes_sub hostOps1 _ hostOps1_writes h1
    _ = W1 m ρ c (Proc.devRef .tc r) := W2_keep m ρ c r e19
    _ = W0 m ρ c (Proc.devRef .tc r) := StableHlo.after_of_writes_sub hostOps0 _ hostOps0_writes h0
    _ = m ((c : Thread nD τ).loc r) := rfl

def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W12 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat5 (V11 m ρ) c).Φ 0
    have h5 := hin5 (V11 m ρ) c
    unfold Pipeline.ΦA at h5
    iintro ⟨Hp, -, Hr⟩
    iapply h5
    isplitl [Hr]; · iexact Hr
    iexact Hp
  hout c := by
    rw [Pipeline.ownSems0_none]
    have h2 : (Pipeline.ΦA spec5 c : sProp 𝕄) ⊢ iprop((∃ r, prngReg c r) ∗ BI.emp ∗ Pipeline.scopedRest spec5 c) := by
      unfold Pipeline.ΦA
      iintro ⟨Hr, Hp⟩
      isplitl [Hp]; · iexact Hp
      isplitr; · iempintro
      iexact Hr
    exact (hout5 (V11 m ρ) c).trans h2
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem ((c : Thread nD τ).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun _ h => h)

/-- Every execution ends with the result array at what the last region leaves and every argument as launched: no item of @main writes an argument. -/
theorem run_val : θ_run defs (onTc (τ := τ) (main (F := F))) ⟨m, fun _ => 0, ρ⟩ (fun r => ∀ c : Dev nD,
      r.2.mem ((c.tc : Thread nD τ).loc main_v117) = W12 m ρ c (Proc.devRef .tc main_v117)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  OrdCont.mono (θ_run defs (onTc (τ := τ) (main (F := F))) ⟨m, fun _ => 0, ρ⟩) (fun r h c =>
    ⟨h c _ (mem_uc main_v117 (by decide)),
      (h c _ (mem_uc main_arg0 (by decide))).trans (W12_unwritten m ρ c main_arg0 (by decide)),
      (h c _ (mem_uc main_arg1 (by decide))).trans (W12_unwritten m ρ c main_arg1 (by decide)),
      (h c _ (mem_uc main_arg2 (by decide))).trans (W12_unwritten m ρ c main_arg2 (by decide)),
      (h c _ (mem_uc main_arg3 (by decide))).trans (W12_unwritten m ρ c main_arg3 (by decide)),
      (h c _ (mem_uc main_arg4 (by decide))).trans (W12_unwritten m ρ c main_arg4 (by decide)),
      (h c _ (mem_uc main_arg5 (by decide))).trans (W12_unwritten m ρ c main_arg5 (by decide)),
      (h c _ (mem_uc main_arg6 (by decide))).trans (W12_unwritten m ρ c main_arg6 (by decide)),
      (h c _ (mem_uc main_arg7 (by decide))).trans (W12_unwritten m ρ c main_arg7 (by decide)),
      (h c _ (mem_uc main_arg8 (by decide))).trans (W12_unwritten m ρ c main_arg8 (by decide)),
      (h c _ (mem_uc main_arg9 (by decide))).trans (W12_unwritten m ρ c main_arg9 (by decide)),
      (h c _ (mem_uc main_arg10 (by decide))).trans (W12_unwritten m ρ c main_arg10 (by decide)),
      (h c _ (mem_uc main_arg11 (by decide))).trans (W12_unwritten m ρ c main_arg11 (by decide)),
      (h c _ (mem_uc main_arg12 (by decide))).trans (W12_unwritten m ρ c main_arg12 (by decide)),
      (h c _ (mem_uc main_arg13 (by decide))).trans (W12_unwritten m ρ c main_arg13 (by decide)),
      (h c _ (mem_uc main_arg14 (by decide))).trans (W12_unwritten m ρ c main_arg14 (by decide)),
      (h c _ (mem_uc main_arg15 (by decide))).trans (W12_unwritten m ρ c main_arg15 (by decide))⟩)
    (run_all m ρ)

end Cert.KernelIdeal.Hand

end
-- ==== Proof.Spec.lean ====
import Idealize.ShloMosaic.PureOps.Ideal

noncomputable section

namespace Cert.Spec

open scoped BigOperators
open Idealize.ShloMosaic

/-- A negative node word counts from the end: the node count is added. -/
def nrm (w : BitVec 32) : BitVec 32 := if w.slt 0#32 then w + 100000#32 else w

/-- The node a word names, clamped into range. -/
def row (w : BitVec 32) : Fin 100000 := ⟨min (nrm w).toInt.toNat 99999, by omega⟩

/-- The word names node `n` exactly; an update whose word names no node lands nowhere. -/
def lands (w : BitVec 32) (n : ℕ) : Prop := w.toInt = (n : ℤ)

instance (w : BitVec 32) (n : ℕ) : Decidable (lands w n) := by unfold lands; infer_instance

variable {D : ℕ}

/-- The summed rows of a node's in-neighbours. -/
def aggK (h : Fin 100000 → Fin D → EReal) (src dst : Fin 1600000 → BitVec 32) (i : Fin 100000) (d : Fin D) : EReal :=
  ∑ e : Fin 1600000, if lands (dst e) i.val then h (row (src e)) d else 0

/-- The number of edges into a node. -/
def indeg (dst : Fin 1600000 → BitVec 32) (i : Fin 100000) : EReal :=
  ∑ e : Fin 1600000, if lands (dst e) i.val then (1 : EReal) else 0

/-- The same sum with the prompt added on every edge. -/
def aggR (h : Fin 100000 → Fin D → EReal) (p : Fin D → EReal) (src dst : Fin 1600000 → BitVec 32) (i : Fin 100000) (d : Fin D) :
    EReal :=
  ∑ e : Fin 1600000, if lands (dst e) i.val then h (row (src e)) d + p d else 0

/-- Two affine maps with a rectifier between them, then `act`. -/
def mlp (act : EReal → EReal) (z : Fin 100000 → Fin D → EReal) (W1 : Fin D → Fin 128 → EReal) (b1 : Fin 128 → EReal)
    (W2 : Fin 128 → Fin 128 → EReal) (b2 : Fin 128 → EReal) (i : Fin 100000) (j : Fin 128) : EReal :=
  act ((∑ k : Fin 128, max ((∑ d : Fin D, z i d * W1 d k) + b1 k) 0 * W2 k j) + b2 j)

def relu (x : EReal) : EReal := max x 0

/-- A layer with the prompt entering once, times the in-degree. -/
def layerK (act : EReal → EReal) (h : Fin 100000 → Fin D → EReal) (p : Fin D → EReal) (W1 : Fin D → Fin 128 → EReal)
    (b1 : Fin 128 → EReal) (W2 : Fin 128 → Fin 128 → EReal) (b2 : Fin 128 → EReal) (src dst : Fin 1600000 → BitVec 32) :
    Fin 100000 → Fin 128 → EReal :=
  mlp act (fun i d => aggK h src dst i d + indeg dst i * p d + h i d) W1 b1 W2 b2

/-- A layer with the prompt entering on every edge. -/
def layerR (act : EReal → EReal) (h : Fin 100000 → Fin D → EReal) (p : Fin D → EReal) (W1 : Fin D → Fin 128 → EReal)
    (b1 : Fin 128 → EReal) (W2 : Fin 128 → Fin 128 → EReal) (b2 : Fin 128 → EReal) (src dst : Fin 1600000 → BitVec 32) :
    Fin 100000 → Fin 128 → EReal :=
  mlp act (fun i d => aggR h p src dst i d + h i d) W1 b1 W2 b2

def sums (h : Fin 100000 → Fin 128 → EReal) (batch : Fin 100000 → BitVec 32) (g : Fin 128) (k : Fin 128) : EReal :=
  ∑ i : Fin 100000, if lands (batch i) g.val then h i k else 0

def cnt (batch : Fin 100000 → BitVec 32) (g : Fin 128) : EReal :=
  ∑ i : Fin 100000, if lands (batch i) g.val then (1 : EReal) else 0

/-- Per graph, the mean of its nodes' rows through a last affine map; an empty graph divides by one. -/
def pool (h : Fin 100000 → Fin 128 → EReal) (batch : Fin 100000 → BitVec 32) (Wc : Fin 128 → Fin 2 → EReal) (bc : Fin 2 → EReal)
    (g : Fin 128) (c : Fin 2) : EReal :=
  (∑ k : Fin 128, Ideal.div (sums h batch g k) (max (cnt batch g) 1) * Wc k c) + bc c

structure LayerW (D : ℕ) where
  p : Fin D → EReal
  W1 : Fin D → Fin 128 → EReal
  b1 : Fin 128 → EReal
  W2 : Fin 128 → Fin 128 → EReal
  b2 : Fin 128 → EReal

/-- Five layers, the last without the rectifier, then the pooling: the split spelling. -/
def netK (x : Fin 100000 → Fin 12 → EReal) (src dst : Fin 1600000 → BitVec 32) (batch : Fin 100000 → BitVec 32)
    (L0 : LayerW 12) (L1 L2 L3 L4 : LayerW 128) (Wc : Fin 128 → Fin 2 → EReal) (bc : Fin 2 → EReal) : Fin 128 → Fin 2 → EReal :=
  let h1 := layerK relu x L0.p L0.W1 L0.b1 L0.W2 L0.b2 src dst
  let h2 := layerK relu h1 L1.p L1.W1 L1.b1 L1.W2 L1.b2 src dst
  let h3 := layerK relu h2 L2.p L2.W1 L2.b1 L2.W2 L2.b2 src dst
  let h4 := layerK relu h3 L3.p L3.W1 L3.b1 L3.W2 L3.b2 src dst
  let h5 := layerK id h4 L4.p L4.W1 L4.b1 L4.W2 L4.b2 src dst
  pool h5 batch Wc bc

/-- The same network in the edge-prompted spelling. -/
def netR (x : Fin 100000 → Fin 12 → EReal) (src dst : Fin 1600000 → BitVec 32) (batch : Fin 100000 → BitVec 32)
    (L0 : LayerW 12) (L1 L2 L3 L4 : LayerW 128) (Wc : Fin 128 → Fin 2 → EReal) (bc : Fin 2 → EReal) : Fin 128 → Fin 2 → EReal :=
  let h1 := layerR relu x L0.p L0.W1 L0.b1 L0.W2 L0.b2 src dst
  let h2 := layerR relu h1 L1.p L1.W1 L1.b1 L1.W2 L1.b2 src dst
  let h3 := layerR relu h2 L2.p L2.W1 L2.b1 L2.W2 L2.b2 src dst
  let h4 := layerR relu h3 L3.p L3.W1 L3.b1 L3.W2 L3.b2 src dst
  let h5 := layerR id h4 L4.p L4.W1 L4.b1 L4.W2 L4.b2 src dst
  pool h5 batch Wc bc

end Cert.Spec

end
-- ==== Proof.SpecLaw.lean ====
import proofs.«415659_j4501125726343_1_alg».proof.Proof.Spec
import Mathlib.Data.EReal.Basic
import Mathlib.Logic.Equiv.Fin.Basic
import Mathlib.Algebra.BigOperators.Fin
import Mathlib.Data.Fintype.BigOperators
import Mathlib.Tactic.Ring
import Mathlib.Tactic.Abel

noncomputable section

namespace Cert.Spec

open scoped BigOperators

theorem sum_ite_add_real {ι : Type} (s : Finset ι) (P : ι → Prop) [DecidablePred P] (a : ι → EReal) (r : ℝ) :
    ∃ k : ℕ, (∑ e ∈ s, (if P e then (1 : EReal) else 0)) = (((k : ℕ) : ℝ) : EReal) ∧
      (∑ e ∈ s, (if P e then a e + (r : EReal) else 0))
        = (∑ e ∈ s, (if P e then a e else 0)) + (((k : ℕ) : ℝ) : EReal) * (r : EReal) := by
  classical
  induction s using Finset.induction_on with
  | empty =>
    refine ⟨0, ?_, ?_⟩
    · simp
    · simp
  | insert x s hx ih =>
    obtain ⟨k, hk, hs⟩ := ih
    rw [Finset.sum_insert hx, Finset.sum_insert hx, Finset.sum_insert hx]
    by_cases hP : P x
    · refine ⟨k + 1, ?_, ?_⟩
      · rw [if_pos hP, hk, ← EReal.coe_one, ← EReal.coe_add]
        congr 1
        push_cast
        ring
      · rw [if_pos hP, if_pos hP, hs]
        have hk1 : ((((k + 1 : ℕ)) : ℝ) : EReal) * (r : EReal)
            = (((k : ℕ) : ℝ) : EReal) * (r : EReal) + (r : EReal) := by
          rw [← EReal.coe_mul, ← EReal.coe_mul, ← EReal.coe_add]
          congr 1
          push_cast
          ring
        rw [hk1, add_add_add_comm, add_comm (r : EReal)]
    · refine ⟨k, ?_, ?_⟩
      · rw [if_neg hP, zero_add, hk]
      · rw [if_neg hP, if_neg hP, zero_add, zero_add, hs]

/-- A real prompt entry comes out of the sum over the edges as the in-degree times it; an infinite one need not. -/
theorem aggR_eq {D : ℕ} (h : Fin 100000 → Fin D → EReal) (p : Fin D → EReal) (src dst : Fin 1600000 → BitVec 32)
    (i : Fin 100000) (d : Fin D) (hp : ∃ r : ℝ, p d = (r : EReal)) :
    aggR h p src dst i d = aggK h src dst i d + indeg dst i * p d := by
  obtain ⟨r, hr⟩ := hp
  obtain ⟨k, hk, hs⟩ := sum_ite_add_real (Finset.univ : Finset (Fin 1600000)) (fun e => lands (dst e) i.val)
    (fun e => h (row (src e)) d) r
  unfold aggR aggK indeg
  rw [hr]
  exact hs.trans (by rw [hk])

theorem layerR_eq_layerK {D : ℕ} (act : EReal → EReal) (h : Fin 100000 → Fin D → EReal) (p : Fin D → EReal)
    (W1 : Fin D → Fin 128 → EReal) (b1 : Fin 128 → EReal) (W2 : Fin 128 → Fin 128 → EReal) (b2 : Fin 128 → EReal)
    (src dst : Fin 1600000 → BitVec 32) (hp : ∀ d, ∃ r : ℝ, p d = (r : EReal)) :
    layerR act h p W1 b1 W2 b2 src dst = layerK act h p W1 b1 W2 b2 src dst := by
  have hz : (fun (i : Fin 100000) (d : Fin D) => aggR h p src dst i d + h i d)
      = (fun i d => aggK h src dst i d + indeg dst i * p d + h i d) := by
    funext i d
    rw [aggR_eq h p src dst i d (hp d)]
  unfold layerR layerK
  rw [hz]

/-- With every prompt entry real the two spellings are one function. -/
theorem netR_eq_netK (x : Fin 100000 → Fin 12 → EReal) (src dst : Fin 1600000 → BitVec 32)
    (batch : Fin 100000 → BitVec 32) (L0 : LayerW 12) (L1 L2 L3 L4 : LayerW 128) (Wc : Fin 128 → Fin 2 → EReal)
    (bc : Fin 2 → EReal)
    (h0 : ∀ d, ∃ r : ℝ, L0.p d = (r : EReal)) (h1 : ∀ d, ∃ r : ℝ, L1.p d = (r : EReal))
    (h2 : ∀ d, ∃ r : ℝ, L2.p d = (r : EReal)) (h3 : ∀ d, ∃ r : ℝ, L3.p d = (r : EReal))
    (h4 : ∀ d, ∃ r : ℝ, L4.p d = (r : EReal)) :
    netR x src dst batch L0 L1 L2 L3 L4 Wc bc = netK x src dst batch L0 L1 L2 L3 L4 Wc bc := by
  unfold netR netK
  simp only [layerR_eq_layerK _ _ _ _ _ _ _ _ _ h0, layerR_eq_layerK _ _ _ _ _ _ _ _ _ h1,
    layerR_eq_layerK _ _ _ _ _ _ _ _ _ h2, layerR_eq_layerK _ _ _ _ _ _ _ _ _ h3,
    layerR_eq_layerK _ _ _ _ _ _ _ _ _ h4]

theorem sum_blocks {M : Type} [AddCommMonoid M] (f : Fin 100000 → M) :
    ∑ i : Fin 100000, f i = ∑ t : Fin 20, ∑ r : Fin 5000, f ⟨5000 * t.val + r.val, by omega⟩ := by
  have e1 : ∑ i : Fin 100000, f i
      = ∑ x : Fin 20 × Fin 5000, f ((finProdFinEquiv : Fin 20 × Fin 5000 ≃ Fin (20 * 5000)) x) :=
    (Equiv.sum_comp (finProdFinEquiv : Fin 20 × Fin 5000 ≃ Fin (20 * 5000)) f).symm
  rw [e1, Fintype.sum_prod_type]
  refine Finset.sum_congr rfl fun t _ => Finset.sum_congr rfl fun r _ => ?_
  have hv : ((finProdFinEquiv : Fin 20 × Fin 5000 ≃ Fin (20 * 5000)) (t, r) : Fin 100000)
      = ⟨5000 * t.val + r.val, by omega⟩ := by
    apply Fin.ext
    show r.val + 5000 * t.val = 5000 * t.val + r.val
    omega
  exact congrArg f hv

end Cert.Spec

end
-- ==== Proof.PreFinite.lean ====
import proofs.«415659_j4501125726343_1_alg».proof.Pre_finite_inputs
import Idealize.ShloMosaic.Lib.ReduceAll
import Idealize.ShloMosaic.PureOps.Ideal
import Idealize.ShloMosaic.Lib.ValueIdx

noncomputable section

namespace Cert.PreFinite

open Idealize.ShloMosaic Cert.Pre_finite_inputs Cert.Pre_finite_inputs.Facts

instance : Subsingleton S_.Idx := ⟨fun a b => funext fun d => d.elim0⟩

theorem bound_eq_top : Ideal.ofBits .f32 0x7F800000#32 = (⊤ : EReal) := by simp [Ideal.ofBits, Ideal.ieee]

theorem real_of_abs_lt (x : EReal)
    (hx : Ideal.cmp .olt (max x (-x)) (Ideal.ofBits .f32 0x7F800000#32) = 1#1) : ∃ r : ℝ, x = (r : EReal) := by
  rw [bound_eq_top] at hx
  unfold Ideal.cmp at hx
  induction x using EReal.rec with
  | bot => simp at hx
  | coe r => exact ⟨r, rfl⟩
  | top => simp at hx

theorem entries_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
      (constantI S_ 1 1#1) hr hu ValueIdx.ix0 = 1#1)
    (i : s.Idx) : ∃ r : ℝ, a i = (r : EReal) :=
  real_of_abs_lt (a i) (Host.reduce_andi_all _ _ hr hu _ e i)

variable [Cert.Pre_finite_inputs.Facts]

/-- Every float entry has absolute value below infinity, so every prompt entry is a real number. -/
theorem prompts_real (a0 : FVec Ideal S100000x12 .f32) (a1 a2 : IVec S1600000 32) (a3 : IVec S100000 32)
    (a4 : FVec Ideal S12 .f32) (a5 : FVec Ideal S4x128 .f32) (a6 : FVec Ideal S12x128 .f32) (a7 : FVec Ideal S128 .f32)
    (a8 : FVec Ideal S128x128 .f32) (a9 : FVec Ideal S128 .f32) (a10 : FVec Ideal S4x128x128 .f32)
    (a11 : FVec Ideal S4x128 .f32) (a12 : FVec Ideal S4x128x128 .f32) (a13 : FVec Ideal S4x128 .f32)
    (a14 : FVec Ideal S128x2 .f32) (a15 : FVec Ideal S2 .f32)
    (h : fn (F := Ideal) a0 a1 a2 a3 a4 a5 a6 a7 a8 a9 a10 a11 a12 a13 a14 a15 = (fun _ => 1#1)) :
    (∀ i : S12.Idx, ∃ r : ℝ, a4 i = (r : EReal)) ∧ (∀ i : S4x128.Idx, ∃ r : ℝ, a5 i = (r : EReal)) := by
  have h0 := congrFun h ValueIdx.ix0
  dsimp only [fn, fn_part1, fn_part2, fn_part3] at h0
  have h58 := (IntOp.andi_eq_one.1 h0).1
  have h53 := (IntOp.andi_eq_one.1 h58).1
  have h48 := (IntOp.andi_eq_one.1 h53).1
  have h43 := (IntOp.andi_eq_one.1 h48).1
  have h38 := (IntOp.andi_eq_one.1 h43).1
  have h33 := (IntOp.andi_eq_one.1 h38).1
  have h28 := (IntOp.andi_eq_one.1 h33).1
  have h23 := (IntOp.andi_eq_one.1 h28).1
  have h18 := (IntOp.andi_eq_one.1 h23).1
  have h13 := (IntOp.andi_eq_one.1 h18).1
  have h12 := (IntOp.andi_eq_one.1 h13).2
  have h8 := (IntOp.andi_eq_one.1 h13).1
  have h7 := (IntOp.andi_eq_one.1 h8).2
  exact ⟨entries_real a4 _ _ _ h7, entries_real a5 _ _ _ h12⟩

theorem p0_real (a0 : FVec Ideal S100000x12 .f32) (a1 a2 : IVec S1600000 32) (a3 : IVec S100000 32)
    (a4 : FVec Ideal S12 .f32) (a5 : FVec Ideal S4x128 .f32) (a6 : FVec Ideal S12x128 .f32) (a7 : FVec Ideal S128 .f32)
    (a8 : FVec Ideal S128x128 .f32) (a9 : FVec Ideal S128 .f32) (a10 : FVec Ideal S4x128x128 .f32)
    (a11 : FVec Ideal S4x128 .f32) (a12 : FVec Ideal S4x128x128 .f32) (a13 : FVec Ideal S4x128 .f32)
    (a14 : FVec Ideal S128x2 .f32) (a15 : FVec Ideal S2 .f32)
    (h : fn (F := Ideal) a0 a1 a2 a3 a4 a5 a6 a7 a8 a9 a10 a11 a12 a13 a14 a15 = (fun _ => 1#1)) (d : Fin 12) :
    ∃ r : ℝ, a4 (ValueIdx.ix1 d) = (r : EReal) :=
  (prompts_real a0 a1 a2 a3 a4 a5 a6 a7 a8 a9 a10 a11 a12 a13 a14 a15 h).1 _

theorem prest_real (a0 : FVec Ideal S100000x12 .f32) (a1 a2 : IVec S1600000 32) (a3 : IVec S100000 32)
    (a4 : FVec Ideal S12 .f32) (a5 : FVec Ideal S4x128 .f32) (a6 : FVec Ideal S12x128 .f32) (a7 : FVec Ideal S128 .f32)
    (a8 : FVec Ideal S128x128 .f32) (a9 : FVec Ideal S128 .f32) (a10 : FVec Ideal S4x128x128 .f32)
    (a11 : FVec Ideal S4x128 .f32) (a12 : FVec Ideal S4x128x128 .f32) (a13 : FVec Ideal S4x128 .f32)
    (a14 : FVec Ideal S128x2 .f32) (a15 : FVec Ideal S2 .f32)
    (h : fn (F := Ideal) a0 a1 a2 a3 a4 a5 a6 a7 a8 a9 a10 a11 a12 a13 a14 a15 = (fun _ => 1#1)) (l : Fin 4) (d : Fin 128) :
    ∃ r : ℝ, a5 (ValueIdx.ix2 l d) = (r : EReal) :=
  (prompts_real a0 a1 a2 a3 a4 a5 a6 a7 a8 a9 a10 a11 a12 a13 a14 a15 h).2 _

end Cert.PreFinite

end
-- ==== Proof.LibGraphOps.lean ====
import Idealize.ShloMosaic.PureOps.Dims
import Idealize.ShloMosaic.PureOps.ShapeOps
import Idealize.ShloMosaic.PureOps.Ideal
import Idealize.ShloMosaic.PureOps.Contract
import Idealize.ShloMosaic.Lib.ValueIdx
import proofs.«415659_j4501125726343_1_alg».proof.Proof.Spec

namespace Idealize.ShloMosaic.GraphOps

open scoped BigOperators
open Idealize.ShloMosaic Idealize.ShloMosaic.ValueIdx

theorem ix2_val_zero {n0 n1 : Nat} (a : Fin n0) (b : Fin n1) (i : Fin 2) (h : i.val = 0) : (ix2 a b i).val = a.val := by
  match i, h with
  | ⟨0, _⟩, _ => rfl

theorem ix2_val_one {n0 n1 : Nat} (a : Fin n0) (b : Fin n1) (i : Fin 2) (h : i.val = 1) : (ix2 a b i).val = b.val := by
  match i, h with
  | ⟨1, _⟩, _ => rfl

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem ix1_val {n : Nat} (a : Fin n) (i : Fin 1) : (ix1 a i).val = a.val := by
  match i with
  | ⟨0, _⟩ => rfl

section rows
variable {C D N w : Nat} (d : ScatterDims ⟨2, ![C, D]⟩ ⟨2, ![N, 1]⟩ ⟨2, ![N, D]⟩)

theorem rows_uScatter (huw : d.updateWindowDims = [1]) : ∀ a ∈ d.uScatter, a.val = 0 := by
  intro a ha
  have hna : a ∉ d.updateWindowDims := by
    have := (List.mem_filter.mp ha).2
    simpa using this
  rw [huw] at hna
  have h2 : a.val < 2 := a.isLt
  by_contra hne
  exact hna (List.mem_singleton.mpr (Fin.ext (by show a.val = 1; omega)))

theorem rows_siIdx (huw : d.updateWindowDims = [1]) (hsd : d.scatterDimsToOperandDims = [0]) (hivd : d.indexVectorDim = 1)
    (r : Fin N) (b : Fin D) (k : Fin d.scatterDimsToOperandDims.length) :
    d.siIdx (ix2 r b) k = ix2 r (0 : Fin 1) := by
  funext a
  apply Fin.ext
  match a with
  | ⟨0, _⟩ =>
    unfold ScatterDims.siIdx
    rw [dif_neg (by rw [hivd]; exact Nat.zero_ne_one)]
    unfold ScatterDims.siCoord
    simp only [Fin.val_cast]
    exact ix2_val_zero r b _ (rows_uScatter d huw _ (List.getElem_mem _))
  | ⟨1, _⟩ =>
    unfold ScatterDims.siIdx
    rw [dif_pos (by rw [hivd])]
    have hl : d.scatterDimsToOperandDims.length = 1 := by rw [hsd]; rfl
    have hk : k.val < d.scatterDimsToOperandDims.length := k.isLt
    show k.val = 0
    omega

theorem rows_start_zero (huw : d.updateWindowDims = [1]) (hsd : d.scatterDimsToOperandDims = [0]) (hivd : d.indexVectorDim = 1)
    (idx : IVec ⟨2, ![N, 1]⟩ w) (r : Fin N) (b : Fin D) :
    d.start (ix2 r b) idx 0 = (idx (ix2 r (0 : Fin 1))).toInt := by
  have hm : (0 : Fin 2) ∈ d.scatterDimsToOperandDims := by rw [hsd]; exact List.mem_singleton.mpr rfl
  unfold ScatterDims.start
  rw [dif_pos hm, rows_siIdx d huw hsd hivd r b]

theorem rows_start_one (hsd : d.scatterDimsToOperandDims = [0]) (idx : IVec ⟨2, ![N, 1]⟩ w) (r : Fin N) (b : Fin D) :
    d.start (ix2 r b) idx 1 = 0 := by
  have hm : (1 : Fin 2) ∉ d.scatterDimsToOperandDims := by rw [hsd]; simp
  unfold ScatterDims.start
  rw [dif_neg hm]

theorem rows_window_zero (hiw : d.insertedWindowDims = [0]) (r : Fin N) (b : Fin D) : d.window (ix2 r b) 0 = 0 := by
  have hk : (0 : Fin 2) ∉ d.sKept := by
    intro h
    have := (List.mem_filter.mp h).2
    rw [hiw] at this
    simp at this
  unfold ScatterDims.window
  rw [dif_neg hk]

theorem rows_window_one (huw : d.updateWindowDims = [1]) (hiw : d.insertedWindowDims = [0]) (r : Fin N) (b : Fin D) :
    d.window (ix2 r b) 1 = b.val := by
  have hk : (1 : Fin 2) ∈ d.sKept := by
    refine List.mem_filter.mpr ⟨List.mem_finRange _, ?_⟩
    rw [hiw]; simp
  have hwin : ∀ a ∈ d.updateWindowDims, a.val = 1 := by
    intro a ha; rw [huw] at ha; rw [List.mem_singleton.mp ha]; rfl
  unfold ScatterDims.window
  rw [dif_pos hk]
  exact ix2_val_one r b _ (hwin _ (List.getElem_mem _))

end rows

theorem rows_hit {C D N w : Nat} (d : ScatterDims ⟨2, ![C, D]⟩ ⟨2, ![N, 1]⟩ ⟨2, ![N, D]⟩)
    (huw : d.updateWindowDims = [1]) (hiw : d.insertedWindowDims = [0]) (hsd : d.scatterDimsToOperandDims = [0])
    (hivd : d.indexVectorDim = 1)
    (idx : IVec ⟨2, ![N, 1]⟩ w) (r : Fin N) (b f : Fin D) (c : Fin C) :
    d.resultIdx? (ix2 r b) idx = some (ix2 c f) ↔ (idx (ix2 r (0 : Fin 1))).toInt = (c.val : ℤ) ∧ b = f := by
  have hs0 := rows_start_zero d huw hsd hivd idx r b
  have hs1 := rows_start_one d hsd idx r b
  have hw0 := rows_window_zero d hiw r b
  have hw1 := rows_window_one d huw hiw r b
  unfold ScatterDims.resultIdx?
  constructor
  · intro h
    split at h
    · rename_i hc
      have he := Option.some.inj h
      have e0 : (d.start (ix2 r b) idx 0 + (d.window (ix2 r b) 0 : ℤ)).toNat = c.val := congrArg (fun g => (g 0).val) he
      have e1 : (d.start (ix2 r b) idx 1 + (d.window (ix2 r b) 1 : ℤ)).toNat = f.val := congrArg (fun g => (g 1).val) he
      have c0 := (hc 0).1
      rw [hs0, hw0] at e0 c0
      rw [hs1, hw1] at e1
      exact ⟨by omega, Fin.ext (by omega)⟩
    · cases h
  · rintro ⟨hS, rfl⟩
    have hcl : c.val < C := c.isLt
    have hbl : b.val < D := b.isLt
    rw [dif_pos (by
      intro a
      match a with
      | ⟨0, _⟩ =>
        show 0 ≤ d.start (ix2 r b) idx 0 + (d.window (ix2 r b) 0 : ℤ) ∧ d.start (ix2 r b) idx 0 + (d.window (ix2 r b) 0 : ℤ) < (C : ℤ)
        rw [hs0, hw0, hS]; omega
      | ⟨1, _⟩ =>
        show 0 ≤ d.start (ix2 r b) idx 1 + (d.window (ix2 r b) 1 : ℤ) ∧ d.start (ix2 r b) idx 1 + (d.window (ix2 r b) 1 : ℤ) < (D : ℤ)
        rw [hs1, hw1]; omega)]
    congr 1
    funext a
    apply Fin.ext
    match a with
    | ⟨0, _⟩ =>
      show (d.start (ix2 r b) idx 0 + (d.window (ix2 r b) 0 : ℤ)).toNat = c.val
      rw [hs0, hw0, hS]; omega
    | ⟨1, _⟩ =>
      show (d.start (ix2 r b) idx 1 + (d.window (ix2 r b) 1 : ℤ)).toNat = b.val
      rw [hs1, hw1]; omega

section vec
variable {C N w : Nat} (d : ScatterDims ⟨1, ![C]⟩ ⟨2, ![N, 1]⟩ ⟨1, ![N]⟩)

theorem vec_siIdx (hsd : d.scatterDimsToOperandDims = [0]) (hivd : d.indexVectorDim = 1)
    (r : Fin N) (k : Fin d.scatterDimsToOperandDims.length) :
    d.siIdx (ix1 r) k = ix2 r (0 : Fin 1) := by
  funext a
  apply Fin.ext
  match a with
  | ⟨0, _⟩ =>
    unfold ScatterDims.siIdx
    rw [dif_neg (by rw [hivd]; exact Nat.zero_ne_one)]
    unfold ScatterDims.siCoord
    simp only [Fin.val_cast]
    exact ix1_val r _
  | ⟨1, _⟩ =>
    unfold ScatterDims.siIdx
    rw [dif_pos (by rw [hivd])]
    have hl : d.scatterDimsToOperandDims.length = 1 := by rw [hsd]; rfl
    have hk : k.val < d.scatterDimsToOperandDims.length := k.isLt
    show k.val = 0
    omega

theorem vec_start (hsd : d.scatterDimsToOperandDims = [0]) (hivd : d.indexVectorDim = 1)
    (idx : IVec ⟨2, ![N, 1]⟩ w) (r : Fin N) :
    d.start (ix1 r) idx 0 = (idx (ix2 r (0 : Fin 1))).toInt := by
  have hm : (0 : Fin 1) ∈ d.scatterDimsToOperandDims := by rw [hsd]; exact List.mem_singleton.mpr rfl
  unfold ScatterDims.start
  rw [dif_pos hm, vec_siIdx d hsd hivd r]

theorem vec_window (hiw : d.insertedWindowDims = [0]) (r : Fin N) : d.window (ix1 r) 0 = 0 := by
  have hk : (0 : Fin 1) ∉ d.sKept := by
    intro h
    have := (List.mem_filter.mp h).2
    rw [hiw] at this
    simp at this
  unfold ScatterDims.window
  rw [dif_neg hk]

end vec

theorem vec_hit {C N w : Nat} (d : ScatterDims ⟨1, ![C]⟩ ⟨2, ![N, 1]⟩ ⟨1, ![N]⟩)
    (huw : d.updateWindowDims = []) (hiw : d.insertedWindowDims = [0]) (hsd : d.scatterDimsToOperandDims = [0])
    (hivd : d.indexVectorDim = 1)
    (idx : IVec ⟨2, ![N, 1]⟩ w) (r : Fin N) (c : Fin C) :
    d.resultIdx? (ix1 r) idx = some (ix1 c) ↔ (idx (ix2 r (0 : Fin 1))).toInt = (c.val : ℤ) := by
  have _ := huw
  have hs0 := vec_start d hsd hivd idx r
  have hw0 := vec_window d hiw r
  unfold ScatterDims.resultIdx?
  constructor
  · intro h
    split at h
    · rename_i hc
      have he := Option.some.inj h
      have e0 : (d.start (ix1 r) idx 0 + (d.window (ix1 r) 0 : ℤ)).toNat = c.val := congrArg (fun g => (g 0).val) he
      have c0 := (hc 0).1
      rw [hs0, hw0] at e0 c0
      omega
    · cases h
  · intro hS
    have hcl : c.val < C := c.isLt
    rw [dif_pos (by
      intro a
      match a with
      | ⟨0, _⟩ =>
        show 0 ≤ d.start (ix1 r) idx 0 + (d.window (ix1 r) 0 : ℤ) ∧ d.start (ix1 r) idx 0 + (d.window (ix1 r) 0 : ℤ) < (C : ℤ)
        rw [hs0, hw0, hS]; omega)]
    congr 1
    funext a
    apply Fin.ext
    match a with
    | ⟨0, _⟩ =>
      show (d.start (ix1 r) idx 0 + (d.window (ix1 r) 0 : ℤ)).toNat = c.val
      rw [hs0, hw0, hS]; omega

theorem scatterAdd_rows_apply {C D N w : Nat} (d : ScatterDims ⟨2, ![C, D]⟩ ⟨2, ![N, 1]⟩ ⟨2, ![N, D]⟩)
    (huw : d.updateWindowDims = [1]) (hiw : d.insertedWindowDims = [0]) (hsd : d.scatterDimsToOperandDims = [0])
    (hivd : d.indexVectorDim = 1)
    (x : (⟨2, ![C, D]⟩ : Shape).Idx → EReal) (idx : IVec ⟨2, ![N, 1]⟩ w) (upd : (⟨2, ![N, D]⟩ : Shape).Idx → EReal)
    (c : Fin C) (f : Fin D) :
    Host.scatterAdd (F := Ideal) (φ := .f32) d x idx upd (ix2 c f)
      = x (ix2 c f) + ∑ r : Fin N, if (idx (ix2 r (0 : Fin 1))).toInt = (c.val : ℤ) then upd (ix2 r f) else 0 := by
  show x (ix2 c f) + ∑ j ∈ Finset.univ.filter (fun j => d.resultIdx? j idx = some (ix2 c f)), upd j = _
  congr 1
  rw [Finset.sum_filter, sum_idx2]
  refine Finset.sum_congr rfl fun r _ => ?_
  by_cases h : (idx (ix2 r (0 : Fin 1))).toInt = (c.val : ℤ)
  · rw [if_pos h, Finset.sum_eq_single f]
    · rw [if_pos ((rows_hit d huw hiw hsd hivd idx r f f c).mpr ⟨h, rfl⟩)]
    · intro b _ hb
      rw [if_neg (fun hh => hb ((rows_hit d huw hiw hsd hivd idx r b f c).mp hh).2)]
    · intro hf
      exact absurd (Finset.mem_univ f) hf
  · rw [if_neg h]
    refine Finset.sum_eq_zero fun b _ => ?_
    rw [if_neg (fun hh => h ((rows_hit d huw hiw hsd hivd idx r b f c).mp hh).1)]

theorem scatterAdd_vec_apply {C N w : Nat} (d : ScatterDims ⟨1, ![C]⟩ ⟨2, ![N, 1]⟩ ⟨1, ![N]⟩)
    (huw : d.updateWindowDims = []) (hiw : d.insertedWindowDims = [0]) (hsd : d.scatterDimsToOperandDims = [0])
    (hivd : d.indexVectorDim = 1)
    (x : (⟨1, ![C]⟩ : Shape).Idx → EReal) (idx : IVec ⟨2, ![N, 1]⟩ w) (upd : (⟨1, ![N]⟩ : Shape).Idx → EReal)
    (c : Fin C) :
    Host.scatterAdd (F := Ideal) (φ := .f32) d x idx upd (ix1 c)
      = x (ix1 c) + ∑ r : Fin N, if (idx (ix2 r (0 : Fin 1))).toInt = (c.val : ℤ) then upd (ix1 r) else 0 := by
  show x (ix1 c) + ∑ j ∈ Finset.univ.filter (fun j => d.resultIdx? j idx = some (ix1 c)), upd j = _
  congr 1
  rw [Finset.sum_filter, sum_idx1]
  refine Finset.sum_congr rfl fun r _ => ?_
  exact if_congr (vec_hit d huw hiw hsd hivd idx r c) rfl rfl

theorem scatterAdd_rows_lands {C D N : Nat} (d : ScatterDims ⟨2, ![C, D]⟩ ⟨2, ![N, 1]⟩ ⟨2, ![N, D]⟩)
    (huw : d.updateWindowDims = [1]) (hiw : d.insertedWindowDims = [0]) (hsd : d.scatterDimsToOperandDims = [0])
    (hivd : d.indexVectorDim = 1)
    (x : (⟨2, ![C, D]⟩ : Shape).Idx → EReal) (idx : IVec ⟨2, ![N, 1]⟩ 32) (upd : (⟨2, ![N, D]⟩ : Shape).Idx → EReal)
    (c : Fin C) (f : Fin D) :
    Host.scatterAdd (F := Ideal) (φ := .f32) d x idx upd (ix2 c f)
      = x (ix2 c f) + ∑ r : Fin N, if Cert.Spec.lands (idx (ix2 r (0 : Fin 1))) c.val then upd (ix2 r f) else 0 := by
  rw [scatterAdd_rows_apply d huw hiw hsd hivd]
  congr 1

theorem scatterAdd_vec_lands {C N : Nat} (d : ScatterDims ⟨1, ![C]⟩ ⟨2, ![N, 1]⟩ ⟨1, ![N]⟩)
    (huw : d.updateWindowDims = []) (hiw : d.insertedWindowDims = [0]) (hsd : d.scatterDimsToOperandDims = [0])
    (hivd : d.indexVectorDim = 1)
    (x : (⟨1, ![C]⟩ : Shape).Idx → EReal) (idx : IVec ⟨2, ![N, 1]⟩ 32) (upd : (⟨1, ![N]⟩ : Shape).Idx → EReal)
    (c : Fin C) :
    Host.scatterAdd (F := Ideal) (φ := .f32) d x idx upd (ix1 c)
      = x (ix1 c) + ∑ r : Fin N, if Cert.Spec.lands (idx (ix2 r (0 : Fin 1))) c.val then upd (ix1 r) else 0 := by
  rw [scatterAdd_vec_apply d huw hiw hsd hivd]
  congr 1

section gather
variable {C D n w : Nat} (d : GatherDims ⟨2, ![C, D]⟩ ⟨2, ![n, 1]⟩ ⟨2, ![n, D]⟩)

theorem grows_batchDims (hoff : d.offsetDims = [1]) : ∀ a ∈ d.batchDims, a.val = 0 := by
  intro a ha
  have hna : a ∉ d.offsetDims := by
    have := (List.mem_filter.mp ha).2
    simpa using this
  rw [hoff] at hna
  have h2 : a.val < 2 := a.isLt
  by_contra hne
  exact hna (List.mem_singleton.mpr (Fin.ext (by show a.val = 1; omega)))

theorem grows_siIdx (hoff : d.offsetDims = [1]) (hsim : d.startIndexMap = [0]) (hivd : d.indexVectorDim = 1)
    (e : Fin n) (f : Fin D) (k : Fin d.startIndexMap.length) :
    d.siIdx (ix2 e f) k = ix2 e (0 : Fin 1) := by
  funext a
  apply Fin.ext
  match a with
  | ⟨0, _⟩ =>
    unfold GatherDims.siIdx
    rw [dif_neg (by rw [hivd]; exact Nat.zero_ne_one)]
    unfold GatherDims.siCoord
    simp only [Fin.val_cast]
    exact ix2_val_zero e f _ (grows_batchDims d hoff _ (List.getElem_mem _))
  | ⟨1, _⟩ =>
    unfold GatherDims.siIdx
    rw [dif_pos (by rw [hivd])]
    have hl : d.startIndexMap.length = 1 := by rw [hsim]; rfl
    have hk : k.val < d.startIndexMap.length := k.isLt
    show k.val = 0
    omega

theorem grows_start_zero (hoff : d.offsetDims = [1]) (hcoll : d.collapsedSliceDims = [0]) (hsim : d.startIndexMap = [0])
    (hivd : d.indexVectorDim = 1) (idx : IVec ⟨2, ![n, 1]⟩ w) (e : Fin n) (f : Fin D) :
    d.start (ix2 e f) idx 0 = min (idx (ix2 e (0 : Fin 1))).toInt.toNat (C - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, grows_siIdx d hoff hsim hivd e f, hsl]
  rfl

theorem grows_start_one (hsim : d.startIndexMap = [0]) (idx : IVec ⟨2, ![n, 1]⟩ w) (e : Fin n) (f : Fin D) :
    d.start (ix2 e f) idx 1 = 0 := by
  have hm : (1 : Fin 2) ∉ d.startIndexMap := by rw [hsim]; simp
  unfold GatherDims.start
  rw [dif_neg hm]

theorem grows_off_zero (hcoll : d.collapsedSliceDims = [0]) (e : Fin n) (f : Fin D) : d.offCoord (ix2 e f) 0 = 0 := by
  refine d.offCoord_eq_zero _ _ (fun h => ?_)
  have := ((d.mem_sKept 0).mp h).1
  rw [hcoll] at this
  exact this (List.mem_singleton.mpr rfl)

theorem grows_off_one (hoff : d.offsetDims = [1]) (hcoll : d.collapsedSliceDims = [0]) (hob : d.operandBatchingDims = [])
    (e : Fin n) (f : Fin D) : d.offCoord (ix2 e f) 1 = f.val := by
  have hk : (1 : Fin 2) ∈ d.sKept := by
    rw [GatherDims.mem_sKept, hcoll, hob]
    simp
  have hod : ∀ a ∈ d.offsetDims, a.val = 1 := by
    intro a ha; rw [hoff] at ha; rw [List.mem_singleton.mp ha]; rfl
  unfold GatherDims.offCoord
  rw [dif_pos hk]
  exact ix2_val_one e f _ (hod _ (List.getElem_mem _))

end gather

theorem gather_rows_apply {α : Type} {C D n w : Nat} (d : GatherDims ⟨2, ![C, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![C, D]⟩ : Shape).Idx → α) (idx : IVec ⟨2, ![n, 1]⟩ w) (e : Fin n) (f : Fin D) (hC : 0 < C) :
    Host.gather d x idx (ix2 e f)
      = x (ix2 (⟨min (idx (ix2 e (0 : Fin 1))).toInt.toNat (C - 1), by omega⟩ : Fin C) f) := by
  have _ := hsb
  have _ := hss
  have hb : ∀ a : Fin 2, a ∉ d.operandBatchingDims := fun a => by rw [hob]; exact List.not_mem_nil
  unfold Host.gather
  congr 1
  funext a
  apply Fin.ext
  match a with
  | ⟨0, _⟩ =>
    show d.start (ix2 e f) idx 0 + d.batchCoord (ix2 e f) 0 + d.offCoord (ix2 e f) 0 = min _ (C - 1)
    rw [d.batchCoord_eq_zero _ _ (hb 0), grows_off_zero d hcoll e f, grows_start_zero d hoff hcoll hsim hivd idx e f]
    simp only [Nat.add_zero]
  | ⟨1, _⟩ =>
    show d.start (ix2 e f) idx 1 + d.batchCoord (ix2 e f) 1 + d.offCoord (ix2 e f) 1 = f.val
    rw [d.batchCoord_eq_zero _ _ (hb 1), grows_off_one d hoff hcoll hob e f, grows_start_one d hsim idx e f]
    omega

theorem wrap_nrm (w : BitVec 32) :
    Scalar.select (IntOp.cmpi .slt w 0#32) (IntOp.addi w 100000#32) w = Cert.Spec.nrm w := by
  show (if BitVec.ofBool (w.slt 0#32) = 1 then w + 100000#32 else w) = if w.slt 0#32 then w + 100000#32 else w
  cases w.slt 0#32 <;> simp

theorem wrap_row (w : BitVec 32) :
    (⟨min (Scalar.select (IntOp.cmpi .slt w 0#32) (IntOp.addi w 100000#32) w).toInt.toNat (100000 - 1), by omega⟩ : Fin 100000)
      = Cert.Spec.row w := by
  apply Fin.ext
  show min (Scalar.select (IntOp.cmpi .slt w 0#32) (IntOp.addi w 100000#32) w).toInt.toNat (100000 - 1)
    = min (Cert.Spec.nrm w).toInt.toNat 99999
  rw [wrap_nrm]

theorem wrap_nrm_at {s : Shape} (a z k : IVec s 32) (i : s.Idx) (hz : z i = 0#32) (hk : k i = 100000#32) :
    select (cmpi .slt a z) (addi a k) a i = Cert.Spec.nrm (a i) := by
  show Scalar.select (IntOp.cmpi .slt (a i) (z i)) (IntOp.addi (a i) (k i)) (a i) = _
  rw [hz, hk, wrap_nrm]

theorem wrap_row_at {s : Shape} (a z k : IVec s 32) (i : s.Idx) (hz : z i = 0#32) (hk : k i = 100000#32) :
    (⟨min (select (cmpi .slt a z) (addi a k) a i).toInt.toNat (100000 - 1), by omega⟩ : Fin 100000)
      = Cert.Spec.row (a i) := by
  apply Fin.ext
  show min (select (cmpi .slt a z) (addi a k) a i).toInt.toNat (100000 - 1) = min (Cert.Spec.nrm (a i)).toInt.toNat 99999
  rw [wrap_nrm_at a z k i hz hk]

theorem lands_iff (w : BitVec 32) (n : ℕ) : w.toInt = (n : ℤ) ↔ Cert.Spec.lands w n := Iff.rfl

theorem col_apply {α : Type} {N : Nat} (h : (⟨1, ![N]⟩ : Shape).BroadcastsInDim ⟨2, ![N, 1]⟩ ![0])
    (v : (⟨1, ![N]⟩ : Shape).Idx → α) (r : Fin N) (z : Fin 1) :
    broadcastInDim ⟨2, ![N, 1]⟩ ![0] h v (ix2 r z) = v (ix1 r) := by
  unfold broadcastInDim
  congr 1
  funext a
  match a with
  | ⟨0, _⟩ =>
    apply Fin.ext
    have hr : r.val < N := r.isLt
    split
    · rename_i h1
      have h1' : N = 1 := h1
      show 0 = r.val
      omega
    · rfl

theorem gather_rows_col {α : Type} {C D n w : Nat} (d : GatherDims ⟨2, ![C, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (h : (⟨1, ![n]⟩ : Shape).BroadcastsInDim ⟨2, ![n, 1]⟩ ![0])
    (x : (⟨2, ![C, D]⟩ : Shape).Idx → α) (v : IVec ⟨1, ![n]⟩ w) (e : Fin n) (f : Fin D) (hC : 0 < C) :
    Host.gather d x (broadcastInDim ⟨2, ![n, 1]⟩ ![0] h v) (ix2 e f)
      = x (ix2 (⟨min (v (ix1 e)).toInt.toNat (C - 1), by omega⟩ : Fin C) f) := by
  rw [gather_rows_apply d hoff hcoll hob hsb hsim hivd hss x _ e f hC]
  congr 2
  apply Fin.ext
  show min (broadcastInDim ⟨2, ![n, 1]⟩ ![0] h v (ix2 e (0 : Fin 1))).toInt.toNat (C - 1) = min (v (ix1 e)).toInt.toNat (C - 1)
  rw [col_apply]

theorem scatterAdd_rows_col {C D N : Nat} (d : ScatterDims ⟨2, ![C, D]⟩ ⟨2, ![N, 1]⟩ ⟨2, ![N, D]⟩)
    (huw : d.updateWindowDims = [1]) (hiw : d.insertedWindowDims = [0]) (hsd : d.scatterDimsToOperandDims = [0])
    (hivd : d.indexVectorDim = 1) (h : (⟨1, ![N]⟩ : Shape).BroadcastsInDim ⟨2, ![N, 1]⟩ ![0])
    (x : (⟨2, ![C, D]⟩ : Shape).Idx → EReal) (v : IVec ⟨1, ![N]⟩ 32) (upd : (⟨2, ![N, D]⟩ : Shape).Idx → EReal)
    (c : Fin C) (f : Fin D) :
    Host.scatterAdd (F := Ideal) (φ := .f32) d x (broadcastInDim ⟨2, ![N, 1]⟩ ![0] h v) upd (ix2 c f)
      = x (ix2 c f) + ∑ r : Fin N, if Cert.Spec.lands (v (ix1 r)) c.val then upd (ix2 r f) else 0 := by
  rw [scatterAdd_rows_lands d huw hiw hsd hivd]
  congr 1
  refine Finset.sum_congr rfl fun r _ => ?_
  rw [col_apply]

theorem scatterAdd_vec_col {C N : Nat} (d : ScatterDims ⟨1, ![C]⟩ ⟨2, ![N, 1]⟩ ⟨1, ![N]⟩)
    (huw : d.updateWindowDims = []) (hiw : d.insertedWindowDims = [0]) (hsd : d.scatterDimsToOperandDims = [0])
    (hivd : d.indexVectorDim = 1) (h : (⟨1, ![N]⟩ : Shape).BroadcastsInDim ⟨2, ![N, 1]⟩ ![0])
    (x : (⟨1, ![C]⟩ : Shape).Idx → EReal) (v : IVec ⟨1, ![N]⟩ 32) (upd : (⟨1, ![N]⟩ : Shape).Idx → EReal)
    (c : Fin C) :
    Host.scatterAdd (F := Ideal) (φ := .f32) d x (broadcastInDim ⟨2, ![N, 1]⟩ ![0] h v) upd (ix1 c)
      = x (ix1 c) + ∑ r : Fin N, if Cert.Spec.lands (v (ix1 r)) c.val then upd (ix1 r) else 0 := by
  rw [scatterAdd_vec_lands d huw hiw hsd hivd]
  congr 1
  refine Finset.sum_congr rfl fun r _ => ?_
  rw [col_apply]

end Idealize.ShloMosaic.GraphOps
-- ==== Proof.RefLayer.lean ====
import proofs.«415659_j4501125726343_1_alg».proof.Defs
import proofs.«415659_j4501125726343_1_alg».proof.Proof.Gen.ReferenceIdeal.Run
import proofs.«415659_j4501125726343_1_alg».proof.Proof.Gen.ReferenceIdeal.Read
import proofs.«415659_j4501125726343_1_alg».proof.Proof.Spec
import proofs.«415659_j4501125726343_1_alg».proof.Proof.LibGraphOps

noncomputable section

namespace Cert.ReferenceIdeal.RefValue

open Idealize.ShloMosaic Idealize.ShloMosaic.ValueIdx Idealize.ShloMosaic.GraphOps
open Cert.ReferenceIdeal Cert.ReferenceIdeal.Read
open scoped BigOperators

namespace Layer

abbrev wrapW (w : BitVec 32) : BitVec 32 :=
  Scalar.select (IntOp.cmpi .slt w 0#32) (IntOp.addi w 100000#32) w

theorem zero_word : FloatOps.ofBits (F := Ideal) .f32 0x00000000#32 = (0 : EReal) := by
  rw [Ideal.ofBits_def, Ideal.ofBits_zero_f32]

theorem agg_read {D : ℕ}
    (gd : GatherDims ⟨2, ![100000, D]⟩ ⟨2, ![1600000, 1]⟩ ⟨2, ![1600000, D]⟩)
    (hoff : gd.offsetDims = [1]) (hcoll : gd.collapsedSliceDims = [0]) (hob : gd.operandBatchingDims = [])
    (hsb : gd.startIndicesBatchingDims = []) (hsim : gd.startIndexMap = [0]) (hivd : gd.indexVectorDim = 1)
    (hsl : gd.sliceSizes = ![1, D])
    (sd : ScatterDims ⟨2, ![100000, D]⟩ ⟨2, ![1600000, 1]⟩ ⟨2, ![1600000, D]⟩)
    (huw : sd.updateWindowDims = [1]) (hiw : sd.insertedWindowDims = [0]) (hsd : sd.scatterDimsToOperandDims = [0])
    (hsivd : sd.indexVectorDim = 1)
    (h Z : (⟨2, ![100000, D]⟩ : Shape).Idx → EReal) (P : (⟨2, ![1600000, D]⟩ : Shape).Idx → EReal)
    (sidx didx : IVec ⟨2, ![1600000, 1]⟩ 32)
    (src dst : Fin 1600000 → BitVec 32) (p : Fin D → EReal)
    (hs : ∀ e, sidx (ix2 e (0 : Fin 1)) = wrapW (src e))
    (hd : ∀ e, didx (ix2 e (0 : Fin 1)) = dst e)
    (hP : ∀ e d, P (ix2 e d) = p d)
    (hZ : ∀ i d, Z (ix2 i d) = 0)
    (i : Fin 100000) (d : Fin D) :
    Host.scatterAdd (F := Ideal) (φ := .f32) sd Z didx
        (fun j => Host.gather gd h sidx j + P j) (ix2 i d)
      = Cert.Spec.aggR (fun i d => h (ix2 i d)) p src dst i d := by
  rw [scatterAdd_rows_apply sd huw hiw hsd hsivd, hZ, zero_add]
  unfold Cert.Spec.aggR
  refine Finset.sum_congr rfl fun e _ => ?_
  rw [hd e]
  refine if_congr (lands_iff _ _) ?_ rfl
  show Host.gather gd h sidx (ix2 e d) + P (ix2 e d) = _
  have hrow : (⟨min (sidx (ix2 e (0 : Fin 1))).toInt.toNat (100000 - 1), by omega⟩ : Fin 100000) = Cert.Spec.row (src e) := by
    rw [← wrap_row (src e)]
    apply Fin.ext
    show min (sidx (ix2 e (0 : Fin 1))).toInt.toNat (100000 - 1) = min (wrapW (src e)).toInt.toNat (100000 - 1)
    rw [hs e]
  rw [gather_rows_apply gd hoff hcoll hob hsb hsim hivd hsl h sidx e d (by decide), hP e d, hrow]

variable (x0 : (⟨S100000x12, .f32⟩ : BufTy).Contents (Elt Ideal)) (x1 x2 : (⟨S1600000, .i32⟩ : BufTy).Contents (Elt Ideal))
  (x3 : (⟨S100000, .i32⟩ : BufTy).Contents (Elt Ideal))
  (x4 : (⟨S12, .f32⟩ : BufTy).Contents (Elt Ideal)) (x5 : (⟨S4x128, .f32⟩ : BufTy).Contents (Elt Ideal))
  (x6 : (⟨S12x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S4x128x128, .f32⟩ : BufTy).Contents (Elt Ideal)) (x11 : (⟨S4x128, .f32⟩ : BufTy).Contents (Elt Ideal))
  (x12 : (⟨S4x128x128, .f32⟩ : BufTy).Contents (Elt Ideal)) (x13 : (⟨S4x128, .f32⟩ : BufTy).Contents (Elt Ideal))
  (x14 : (⟨S128x2, .f32⟩ : BufTy).Contents (Elt Ideal)) (x15 : (⟨S2, .f32⟩ : BufTy).Contents (Elt Ideal))

theorem src0 (e : Fin 1600000) : val_main_v5 (F := Ideal) x1 (ix2 e (0 : Fin 1)) = wrapW (x1 (ix1 e)) := by
  rw [val_main_v5_apply, val_main_v4_apply, val_main_v1_apply, val_main_v3_apply, val_main_v0_apply, val_main_v2_apply,
    val_main_c_apply, val_main_c_0_apply,
    show idx_main_v5 (ix2 e (0 : Fin 1)) = ix1 e from funext fun a => by match a with | ⟨0, _⟩ => rfl]

theorem dst0 (e : Fin 1600000) : val_main_v11 (F := Ideal) x2 (ix2 e (0 : Fin 1)) = x2 (ix1 e) := by
  rw [val_main_v11_apply, show idx_main_v11 (ix2 e (0 : Fin 1)) = ix1 e from funext fun a => by match a with | ⟨0, _⟩ => rfl]

theorem prompt0 (e : Fin 1600000) (d : Fin 12) : val_main_v8 (F := Ideal) x4 (ix2 e d) = x4 (ix1 d) := by
  rw [val_main_v8_apply, val_main_v7_apply,
    show idx_main_v7 (idx_main_v8 (ix2 e d)) = ix1 d from funext fun a => by match a with | ⟨0, _⟩ => rfl]

theorem zero0 (i : Fin 100000) (d : Fin 12) : val_main_v10 (F := Ideal) (ix2 i d) = 0 := by
  rw [val_main_v10_apply, val_main_cst_apply, zero_word]

theorem agg0 (i : Fin 100000) (d : Fin 12) :
    val_main_v13 (F := Ideal) x0 x1 x2 x4 (ix2 i d)
      = Cert.Spec.aggR (fun i d => x0 (ix2 i d)) (fun d => x4 (ix1 d)) (fun e => x1 (ix1 e)) (fun e => x2 (ix1 e)) i d
        + x0 (ix2 i d) := by
  rw [val_main_v13_apply, Ideal.addf_def]
  exact congrArg (· + x0 (ix2 i d)) <| agg_read gather_S100000x12_S1600000x1_S1600000x12_1_0_n_n_0_1_112 rfl rfl rfl rfl rfl rfl rfl
    scatter_S100000x12_S1600000x1_S1600000x12_1_0_0_1 rfl rfl rfl rfl
    x0 (val_main_v10 (F := Ideal)) (val_main_v8 (F := Ideal) x4) (val_main_v5 (F := Ideal) x1) (val_main_v11 (F := Ideal) x2)
    (fun e => x1 (ix1 e)) (fun e => x2 (ix1 e)) (fun d => x4 (ix1 d))
    (src0 x1) (dst0 x2) (prompt0 x4) zero0 i d

theorem bias1_0 (i : Fin 100000) (k : Fin 128) : val_main_v16 (F := Ideal) x7 (ix2 i k) = x7 (ix1 k) := by
  rw [val_main_v16_apply, val_main_v15_apply,
    show idx_main_v15 (idx_main_v16 (ix2 i k)) = ix1 k from funext fun a => by match a with | ⟨0, _⟩ => rfl]

theorem bias2_0 (i : Fin 100000) (j : Fin 128) : val_main_v21 (F := Ideal) x9 (ix2 i j) = x9 (ix1 j) := by
  rw [val_main_v21_apply, val_main_v20_apply,
    show idx_main_v20 (idx_main_v21 (ix2 i j)) = ix1 j from funext fun a => by match a with | ⟨0, _⟩ => rfl]

theorem rzero0 (j : S100000x128.Idx) : val_main_call0_v0 (F := Ideal) j = 0 := by
  rw [val_main_call0_v0_apply, val_main_call0_cst_apply, zero_word]

theorem rzero1 (j : S100000x128.Idx) : val_main_call1_v0 (F := Ideal) j = 0 := by
  rw [val_main_call1_v0_apply, val_main_call1_cst_apply, zero_word]

theorem hid0 (i : Fin 100000) (k : Fin 128) :
    val_main_v18 (F := Ideal) x0 x1 x2 x4 x6 x7 (ix2 i k)
      = max ((∑ d : Fin 12, val_main_v13 (F := Ideal) x0 x1 x2 x4 (ix2 i d) * x6 (ix2 d k)) + x7 (ix1 k)) 0 := by
  rw [val_main_v18_apply, val_main_v17_apply, val_main_v14_apply, rzero0, bias1_0, Ideal.maximumf_def, Ideal.addf_def]
  refine congrArg (fun t => max (t + x7 (ix1 k)) 0) (Finset.sum_congr rfl fun d _ => ?_)
  rw [show lidx_main_v14 (ix2 i k) d = ix2 i d from funext fun a => by match a with | ⟨0, _⟩ => rfl | ⟨1, _⟩ => rfl,
    show ridx_main_v14 (ix2 i k) d = ix2 d k from funext fun a => by match a with | ⟨0, _⟩ => rfl | ⟨1, _⟩ => rfl]

theorem out0 (i : Fin 100000) (j : Fin 128) :
    val_main_v23 (F := Ideal) x0 x1 x2 x4 x6 x7 x8 x9 (ix2 i j)
      = max ((∑ k : Fin 128, val_main_v18 (F := Ideal) x0 x1 x2 x4 x6 x7 (ix2 i k) * x8 (ix2 k j)) + x9 (ix1 j)) 0 := by
  rw [val_main_v23_apply, val_main_v22_apply, val_main_v19_apply, rzero1, bias2_0, Ideal.maximumf_def, Ideal.addf_def]
  refine congrArg (fun t => max (t + x9 (ix1 j)) 0) (Finset.sum_congr rfl fun k _ => ?_)
  rw [show lidx_main_v19 (ix2 i j) k = ix2 i k from funext fun a => by match a with | ⟨0, _⟩ => rfl | ⟨1, _⟩ => rfl,
    show ridx_main_v19 (ix2 i j) k = ix2 k j from funext fun a => by match a with | ⟨0, _⟩ => rfl | ⟨1, _⟩ => rfl]

theorem layer0 (i : Fin 100000) (j : Fin 128) :
    val_main_v23 (F := Ideal) x0 x1 x2 x4 x6 x7 x8 x9 (ix2 i j)
      = Cert.Spec.layerR Cert.Spec.relu (fun i d => x0 (ix2 i d)) (fun d => x4 (ix1 d)) (fun d k => x6 (ix2 d k))
          (fun k => x7 (ix1 k)) (fun k j => x8 (ix2 k j)) (fun j => x9 (ix1 j)) (fun e => x1 (ix1 e)) (fun e => x2 (ix1 e)) i j := by
  rw [out0]
  simp only [hid0, agg0]
  rfl

theorem src1 (e : Fin 1600000) : val_main_v39 (F := Ideal) x1 (ix2 e (0 : Fin 1)) = wrapW (x1 (ix1 e)) := by
  rw [val_main_v39_apply, val_main_v38_apply, val_main_v35_apply, val_main_v37_apply, val_main_v34_apply, val_main_v36_apply,
    val_main_c_1_apply, val_main_c_2_apply,
    show idx_main_v39 (ix2 e (0 : Fin 1)) = ix1 e from funext fun a => by match a with | ⟨0, _⟩ => rfl]

theorem dst1 (e : Fin 1600000) : val_main_v45 (F := Ideal) x2 (ix2 e (0 : Fin 1)) = x2 (ix1 e) := by
  rw [val_main_v45_apply, show idx_main_v45 (ix2 e (0 : Fin 1)) = ix1 e from funext fun a => by match a with | ⟨0, _⟩ => rfl]

theorem prompt1 (e : Fin 1600000) (d : Fin 128) : val_main_v42 (F := Ideal) x5 (ix2 e d) = x5 (ix2 (0 : Fin 4) d) := by
  rw [val_main_v42_apply, val_main_v41_apply, val_main_v25_apply, val_main_v24_apply]
  exact congrArg x5 (funext fun a => Fin.ext (by
    match a with
    | ⟨0, _⟩ => rfl
    | ⟨1, _⟩ => exact Nat.mod_eq_of_lt d.isLt))

theorem zero1 (i : Fin 100000) (d : Fin 128) : val_main_v44 (F := Ideal) (ix2 i d) = 0 := by
  rw [val_main_v44_apply, val_main_cst_3_apply, zero_word]

theorem agg1 (i : Fin 100000) (d : Fin 128) :
    val_main_v47 (F := Ideal) x0 x1 x2 x4 x5 x6 x7 x8 x9 (ix2 i d)
      = Cert.Spec.aggR (fun i d => val_main_v23 (F := Ideal) x0 x1 x2 x4 x6 x7 x8 x9 (ix2 i d)) (fun d => x5 (ix2 (0 : Fin 4) d))
          (fun e => x1 (ix1 e)) (fun e => x2 (ix1 e)) i d
        + val_main_v23 (F := Ideal) x0 x1 x2 x4 x6 x7 x8 x9 (ix2 i d) := by
  rw [val_main_v47_apply, Ideal.addf_def]
  exact congrArg (· + val_main_v23 (F := Ideal) x0 x1 x2 x4 x6 x7 x8 x9 (ix2 i d)) <|
    agg_read gather_S100000x128_S1600000x1_S1600000x128_1_0_n_n_0_1_1128 rfl rfl rfl rfl rfl rfl rfl
      scatter_S100000x128_S1600000x1_S1600000x128_1_0_0_1 rfl rfl rfl rfl
      (val_main_v23 (F := Ideal) x0 x1 x2 x4 x6 x7 x8 x9) (val_main_v44 (F := Ideal)) (val_main_v42 (F := Ideal) x5)
      (val_main_v39 (F := Ideal) x1) (val_main_v45 (F := Ideal) x2)
      (fun e => x1 (ix1 e)) (fun e => x2 (ix1 e)) (fun d => x5 (ix2 (0 : Fin 4) d))
      (src1 x1) (dst1 x2) (prompt1 x5) zero1 i d

theorem w1_1 (d k : Fin 128) : val_main_v27 (F := Ideal) x10 (ix2 d k) = x10 (ix3 (0 : Fin 4) d k) := by
  rw [val_main_v27_apply, val_main_v26_apply]
  have hd := d.isLt
  have hk := k.isLt
  exact congrArg x10 (funext fun a => Fin.ext (by
    match a with
    | ⟨0, _⟩ => rfl
    | ⟨1, _⟩ => show (d.val * 128 + k.val) / 128 % 128 = d.val; omega
    | ⟨2, _⟩ => show (d.val * 128 + k.val) % 128 = k.val; omega))

theorem b1_1 (i : Fin 100000) (k : Fin 128) : val_main_v50 (F := Ideal) x11 (ix2 i k) = x11 (ix2 (0 : Fin 4) k) := by
  rw [val_main_v50_apply, val_main_v49_apply, val_main_v29_apply, val_main_v28_apply]
  exact congrArg x11 (funext fun a => Fin.ext (by
    match a with
    | ⟨0, _⟩ => rfl
    | ⟨1, _⟩ => exact Nat.mod_eq_of_lt k.isLt))

theorem w2_1 (k j : Fin 128) : val_main_v31 (F := Ideal) x12 (ix2 k j) = x12 (ix3 (0 : Fin 4) k j) := by
  rw [val_main_v31_apply, val_main_v30_apply]
  have hk := k.isLt
  have hj := j.isLt
  exact congrArg x12 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

theorem b2_1 (i : Fin 100000) (j : Fin 128) : val_main_v55 (F := Ideal) x13 (ix2 i j) = x13 (ix2 (0 : Fin 4) j) := by
  rw [val_main_v55_apply, val_main_v54_apply, val_main_v33_apply, val_main_v32_apply]
  exact congrArg x13 (funext fun a => Fin.ext (by
    match a with
    | ⟨0, _⟩ => rfl
    | ⟨1, _⟩ => exact Nat.mod_eq_of_lt j.isLt))

theorem rzeroA1 (j : S100000x128.Idx) : val_main_call2_v0 (F := Ideal) j = 0 := by
  rw [val_main_call2_v0_apply, val_main_call2_cst_apply, zero_word]

theorem hid1 (i : Fin 100000) (k : Fin 128) :
    val_main_v52 (F := Ideal) x0 x1 x2 x4 x5 x6 x7 x8 x9 x10 x11 (ix2 i k)
      = max ((∑ d : Fin 128, val_main_v47 (F := Ideal) x0 x1 x2 x4 x5 x6 x7 x8 x9 (ix2 i d) * x10 (ix3 (0 : Fin 4) d k)) + x11 (ix2 (0 : Fin 4) k)) 0 := by
  rw [val_main_v52_apply, val_main_v51_apply, val_main_v48_apply, rzeroA1, b1_1, Ideal.maximumf_def, Ideal.addf_def]
  refine congrArg (fun t => max (t + x11 (ix2 (0 : Fin 4) k)) 0) (Finset.sum_congr rfl fun d _ => ?_)
  rw [show lidx_main_v48 (ix2 i k) d = ix2 i d from funext fun a => by match a with | ⟨0, _⟩ => rfl | ⟨1, _⟩ => rfl,
    show ridx_main_v48 (ix2 i k) d = ix2 d k from funext fun a => by match a with | ⟨0, _⟩ => rfl | ⟨1, _⟩ => rfl, w1_1]

theorem rzeroB1 (j : S100000x128.Idx) : val_main_call3_v0 (F := Ideal) j = 0 := by
  rw [val_main_call3_v0_apply, val_main_call3_cst_apply, zero_word]

theorem out1 (i : Fin 100000) (j : Fin 128) :
    val_main_v57 (F := Ideal) x0 x1 x2 x4 x5 x6 x7 x8 x9 x10 x11 x12 x13 (ix2 i j)
      = max ((∑ k : Fin 128, val_main_v52 (F := Ideal) x0 x1 x2 x4 x5 x6 x7 x8 x9 x10 x11 (ix2 i k) * x12 (ix3 (0 : Fin 4) k j)) + x13 (ix2 (0 : Fin 4) j)) 0 := by
  rw [val_main_v57_apply, val_main_v56_apply, val_main_v53_apply, rzeroB1, b2_1, Ideal.maximumf_def, Ideal.addf_def]
  refine congrArg (fun t => max (t + x13 (ix2 (0 : Fin 4) j)) 0) (Finset.sum_congr rfl fun k _ => ?_)
  rw [show lidx_main_v53 (ix2 i j) k = ix2 i k from funext fun a => by match a with | ⟨0, _⟩ => rfl | ⟨1, _⟩ => rfl,
    show ridx_main_v53 (ix2 i j) k = ix2 k j from funext fun a => by match a with | ⟨0, _⟩ => rfl | ⟨1, _⟩ => rfl, w2_1]

theorem layer1 (i : Fin 100000) (j : Fin 128) :
    val_main_v57 (F := Ideal) x0 x1 x2 x4 x5 x6 x7 x8 x9 x10 x11 x12 x13 (ix2 i j)
      = Cert.Spec.layerR Cert.Spec.relu (fun i d => val_main_v23 (F := Ideal) x0 x1 x2 x4 x6 x7 x8 x9 (ix2 i d)) (fun d => x5 (ix2 (0 : Fin 4) d))
          (fun d k => x10 (ix3 (0 : Fin 4) d k)) (fun k => x11 (ix2 (0 : Fin 4) k)) (fun k j => x12 (ix3 (0 : Fin 4) k j)) (fun j => x13 (ix2 (0 : Fin 4) j))
          (fun e => x1 (ix1 e)) (fun e => x2 (ix1 e)) i j := by
  rw [out1]
  simp only [hid1, agg1]
  rfl

end Layer

end Cert.ReferenceIdeal.RefValue

end
-- ==== Proof.RefLayerSib.lean ====
import proofs.«415659_j4501125726343_1_alg».proof.Proof.RefLayer

noncomputable section

namespace Cert.ReferenceIdeal.RefValue

open Idealize.ShloMosaic Idealize.ShloMosaic.ValueIdx Idealize.ShloMosaic.GraphOps
open Cert.ReferenceIdeal Cert.ReferenceIdeal.Read
open scoped BigOperators

namespace Layer

variable (x0 : (⟨S100000x12, .f32⟩ : BufTy).Contents (Elt Ideal)) (x1 x2 : (⟨S1600000, .i32⟩ : BufTy).Contents (Elt Ideal))
  (x3 : (⟨S100000, .i32⟩ : BufTy).Contents (Elt Ideal))
  (x4 : (⟨S12, .f32⟩ : BufTy).Contents (Elt Ideal)) (x5 : (⟨S4x128, .f32⟩ : BufTy).Contents (Elt Ideal))
  (x6 : (⟨S12x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S4x128x128, .f32⟩ : BufTy).Contents (Elt Ideal)) (x11 : (⟨S4x128, .f32⟩ : BufTy).Contents (Elt Ideal))
  (x12 : (⟨S4x128x128, .f32⟩ : BufTy).Contents (Elt Ideal)) (x13 : (⟨S4x128, .f32⟩ : BufTy).Contents (Elt Ideal))
  (x14 : (⟨S128x2, .f32⟩ : BufTy).Contents (Elt Ideal)) (x15 : (⟨S2, .f32⟩ : BufTy).Contents (Elt Ideal))

theorem src2 (e : Fin 1600000) : val_main_v73 (F := Ideal) x1 (ix2 e (0 : Fin 1)) = wrapW (x1 (ix1 e)) := by
  rw [val_main_v73_apply, val_main_v72_apply, val_main_v69_apply, val_main_v71_apply, val_main_v68_apply, val_main_v70_apply,
    val_main_c_4_apply, val_main_c_5_apply,
    show idx_main_v73 (ix2 e (0 : Fin 1)) = ix1 e from funext fun a => by match a with | ⟨0, _⟩ => rfl]

theorem dst2 (e : Fin 1600000) : val_main_v79 (F := Ideal) x2 (ix2 e (0 : Fin 1)) = x2 (ix1 e) := by
  rw [val_main_v79_apply, show idx_main_v79 (ix2 e (0 : Fin 1)) = ix1 e from funext fun a => by match a with | ⟨0, _⟩ => rfl]

theorem prompt2 (e : Fin 1600000) (d : Fin 128) : val_main_v76 (F := Ideal) x5 (ix2 e d) = x5 (ix2 (1 : Fin 4) d) := by
  rw [val_main_v76_apply, val_main_v75_apply, val_main_v59_apply, val_main_v58_apply]
  exact congrArg x5 (funext fun a => Fin.ext (by
    match a with
    | ⟨0, _⟩ => rfl
    | ⟨1, _⟩ => exact Nat.mod_eq_of_lt d.isLt))

theorem zero2 (i : Fin 100000) (d : Fin 128) : val_main_v78 (F := Ideal) (ix2 i d) = 0 := by
  rw [val_main_v78_apply, val_main_cst_6_apply, zero_word]

theorem agg2 (i : Fin 100000) (d : Fin 128) :
    val_main_v81 (F := Ideal) x0 x1 x2 x4 x5 x6 x7 x8 x9 x10 x11 x12 x13 (ix2 i d)
      = Cert.Spec.aggR (fun i d => val_main_v57 (F := Ideal) x0 x1 x2 x4 x5 x6 x7 x8 x9 x10 x11 x12 x13 (ix2 i d)) (fun d => x5 (ix2 (1 : Fin 4) d))
          (fun e => x1 (ix1 e)) (fun e => x2 (ix1 e)) i d
        + val_main_v57 (F := Ideal) x0 x1 x2 x4 x5 x6 x7 x8 x9 x10 x11 x12 x13 (ix2 i d) := by
  rw [val_main_v81_apply, Ideal.addf_def]
  exact congrArg (· + val_main_v57 (F := Ideal) x0 x1 x2 x4 x5 x6 x7 x8 x9 x10 x11 x12 x13 (ix2 i d)) <|
    agg_read gather_S100000x128_S1600000x1_S1600000x128_1_0_n_n_0_1_1128 rfl rfl rfl rfl rfl rfl rfl
      scatter_S100000x128_S1600000x1_S1600000x128_1_0_0_1 rfl rfl rfl rfl
      (val_main_v57 (F := Ideal) x0 x1 x2 x4 x5 x6 x7 x8 x9 x10 x11 x12 x13) (val_main_v78 (F := Ideal)) (val_main_v76 (F := Ideal) x5)
      (val_main_v73 (F := Ideal) x1) (val_main_v79 (F := Ideal) x2)
      (fun e => x1 (ix1 e)) (fun e => x2 (ix1 e)) (fun d => x5 (ix2 (1 : Fin 4) d))
      (src2 x1) (dst2 x2) (prompt2 x5) zero2 i d

theorem w1_2 (d k : Fin 128) : val_main_v61 (F := Ideal) x10 (ix2 d k) = x10 (ix3 (1 : Fin 4) d k) := by
  rw [val_main_v61_apply, val_main_v60_apply]
  have hd := d.isLt
  have hk := k.isLt
  exact congrArg x10 (funext fun a => Fin.ext (by
    match a with
    | ⟨0, _⟩ => rfl
    | ⟨1, _⟩ => show (d.val * 128 + k.val) / 128 % 128 = d.val; omega
    | ⟨2, _⟩ => show (d.val * 128 + k.val) % 128 = k.val; omega))

theorem b1_2 (i : Fin 100000) (k : Fin 128) : val_main_v84 (F := Ideal) x11 (ix2 i k) = x11 (ix2 (1 : Fin 4) k) := by
  rw [val_main_v84_apply, val_main_v83_apply, val_main_v63_apply, val_main_v62_apply]
  exact congrArg x11 (funext fun a => Fin.ext (by
    match a with
    | ⟨0, _⟩ => rfl
    | ⟨1, _⟩ => exact Nat.mod_eq_of_lt k.isLt))

theorem w2_2 (k j : Fin 128) : val_main_v65 (F := Ideal) x12 (ix2 k j) = x12 (ix3 (1 : Fin 4) k j) := by
  rw [val_main_v65_apply, val_main_v64_apply]
  have hk := k.isLt
  have hj := j.isLt
  exact congrArg x12 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

theorem b2_2 (i : Fin 100000) (j : Fin 128) : val_main_v89 (F := Ideal) x13 (ix2 i j) = x13 (ix2 (1 : Fin 4) j) := by
  rw [val_main_v89_apply, val_main_v88_apply, val_main_v67_apply, val_main_v66_apply]
  exact congrArg x13 (funext fun a => Fin.ext (by
    match a with
    | ⟨0, _⟩ => rfl
    | ⟨1, _⟩ => exact Nat.mod_eq_of_lt j.isLt))

theorem rzeroA2 (j : S100000x128.Idx) : val_main_call4_v0 (F := Ideal) j = 0 := by
  rw [val_main_call4_v0_apply, val_main_call4_cst_apply, zero_word]

theorem hid2 (i : Fin 100000) (k : Fin 128) :
    val_main_v86 (F := Ideal) x0 x1 x2 x4 x5 x6 x7 x8 x9 x10 x11 x12 x13 (ix2 i k)
      = max ((∑ d : Fin 128, val_main_v81 (F := Ideal) x0 x1 x2 x4 x5 x6 x7 x8 x9 x10 x11 x12 x13 (ix2 i d) * x10 (ix3 (1 : Fin 4) d k)) + x11 (ix2 (1 : Fin 4) k)) 0 := by
  rw [val_main_v86_apply, val_main_v85_apply, val_main_v82_apply, rzeroA2, b1_2, Ideal.maximumf_def, Ideal.addf_def]
  refine congrArg (fun t => max (t + x11 (ix2 (1 : Fin 4) k)) 0) (Finset.sum_congr rfl fun d _ => ?_)
  rw [show lidx_main_v82 (ix2 i k) d = ix2 i d from funext fun a => by match a with | ⟨0, _⟩ => rfl | ⟨1, _⟩ => rfl,
    show ridx_main_v82 (ix2 i k) d = ix2 d k from funext fun a => by match a with | ⟨0, _⟩ => rfl | ⟨1, _⟩ => rfl, w1_2]

theorem rzeroB2 (j : S100000x128.Idx) : val_main_call5_v0 (F := Ideal) j = 0 := by
  rw [val_main_call5_v0_apply, val_main_call5_cst_apply, zero_word]

theorem out2 (i : Fin 100000) (j : Fin 128) :
    val_main_v91 (F := Ideal) x0 x1 x2 x4 x5 x6 x7 x8 x9 x10 x11 x12 x13 (ix2 i j)
      = max ((∑ k : Fin 128, val_main_v86 (F := Ideal) x0 x1 x2 x4 x5 x6 x7 x8 x9 x10 x11 x12 x13 (ix2 i k) * x12 (ix3 (1 : Fin 4) k j)) + x13 (ix2 (1 : Fin 4) j)) 0 := by
  rw [val_main_v91_apply, val_main_v90_apply, val_main_v87_apply, rzeroB2, b2_2, Ideal.maximumf_def, Ideal.addf_def]
  refine congrArg (fun t => max (t + x13 (ix2 (1 : Fin 4) j)) 0) (Finset.sum_congr rfl fun k _ => ?_)
  rw [show lidx_main_v87 (ix2 i j) k = ix2 i k from funext fun a => by match a with | ⟨0, _⟩ => rfl | ⟨1, _⟩ => rfl,
    show ridx_main_v87 (ix2 i j) k = ix2 k j from funext fun a => by match a with | ⟨0, _⟩ => rfl | ⟨1, _⟩ => rfl, w2_2]

theorem layer2 (i : Fin 100000) (j : Fin 128) :
    val_main_v91 (F := Ideal) x0 x1 x2 x4 x5 x6 x7 x8 x9 x10 x11 x12 x13 (ix2 i j)
      = Cert.Spec.layerR Cert.Spec.relu (fun i d => val_main_v57 (F := Ideal) x0 x1 x2 x4 x5 x6 x7 x8 x9 x10 x11 x12 x13 (ix2 i d)) (fun d => x5 (ix2 (1 : Fin 4) d))
          (fun d k => x10 (ix3 (1 : Fin 4) d k)) (fun k => x11 (ix2 (1 : Fin 4) k)) (fun k j => x12 (ix3 (1 : Fin 4) k j)) (fun j => x13 (ix2 (1 : Fin 4) j))
          (fun e => x1 (ix1 e)) (fun e => x2 (ix1 e)) i j := by
  rw [out2]
  simp only [hid2, agg2]
  rfl

theorem src3 (e : Fin 1600000) : val_main_v107 (F := Ideal) x1 (ix2 e (0 : Fin 1)) = wrapW (x1 (ix1 e)) := by
  rw [val_main_v107_apply, val_main_v106_apply, val_main_v103_apply, val_main_v105_apply, val_main_v102_apply, val_main_v104_apply,
    val_main_c_7_apply, val_main_c_8_apply,
    show idx_main_v107 (ix2 e (0 : Fin 1)) = ix1 e from funext fun a => by match a with | ⟨0, _⟩ => rfl]

theorem dst3 (e : Fin 1600000) : val_main_v113 (F := Ideal) x2 (ix2 e (0 : Fin 1)) = x2 (ix1 e) := by
  rw [val_main_v113_apply, show idx_main_v113 (ix2 e (0 : Fin 1)) = ix1 e from funext fun a => by match a with | ⟨0, _⟩ => rfl]

theorem prompt3 (e : Fin 1600000) (d : Fin 128) : val_main_v110 (F := Ideal) x5 (ix2 e d) = x5 (ix2 (2 : Fin 4) d) := by
  rw [val_main_v110_apply, val_main_v109_apply, val_main_v93_apply, val_main_v92_apply]
  exact congrArg x5 (funext fun a => Fin.ext (by
    match a with
    | ⟨0, _⟩ => rfl
    | ⟨1, _⟩ => exact Nat.mod_eq_of_lt d.isLt))

theorem zero3 (i : Fin 100000) (d : Fin 128) : val_main_v112 (F := Ideal) (ix2 i d) = 0 := by
  rw [val_main_v112_apply, val_main_cst_9_apply, zero_word]

theorem agg3 (i : Fin 100000) (d : Fin 128) :
    val_main_v115 (F := Ideal) x0 x1 x2 x4 x5 x6 x7 x8 x9 x10 x11 x12 x13 (ix2 i d)
      = Cert.Spec.aggR (fun i d => val_main_v91 (F := Ideal) x0 x1 x2 x4 x5 x6 x7 x8 x9 x10 x11 x12 x13 (ix2 i d)) (fun d => x5 (ix2 (2 : Fin 4) d))
          (fun e => x1 (ix1 e)) (fun e => x2 (ix1 e)) i d
        + val_main_v91 (F := Ideal) x0 x1 x2 x4 x5 x6 x7 x8 x9 x10 x11 x12 x13 (ix2 i d) := by
  rw [val_main_v115_apply, Ideal.addf_def]
  exact congrArg (· + val_main_v91 (F := Ideal) x0 x1 x2 x4 x5 x6 x7 x8 x9 x10 x11 x12 x13 (ix2 i d)) <|
    agg_read gather_S100000x128_S1600000x1_S1600000x128_1_0_n_n_0_1_1128 rfl rfl rfl rfl rfl rfl rfl
      scatter_S100000x128_S1600000x1_S1600000x128_1_0_0_1 rfl rfl rfl rfl
      (val_main_v91 (F := Ideal) x0 x1 x2 x4 x5 x6 x7 x8 x9 x10 x11 x12 x13) (val_main_v112 (F := Ideal)) (val_main_v110 (F := Ideal) x5)
      (val_main_v107 (F := Ideal) x1) (val_main_v113 (F := Ideal) x2)
      (fun e => x1 (ix1 e)) (fun e => x2 (ix1 e)) (fun d => x5 (ix2 (2 : Fin 4) d))
      (src3 x1) (dst3 x2) (prompt3 x5) zero3 i d

theorem w1_3 (d k : Fin 128) : val_main_v95 (F := Ideal) x10 (ix2 d k) = x10 (ix3 (2 : Fin 4) d k) := by
  rw [val_main_v95_apply, val_main_v94_apply]
  have hd := d.isLt
  have hk := k.isLt
  exact congrArg x10 (funext fun a => Fin.ext (by
    match a with
    | ⟨0, _⟩ => rfl
    | ⟨1, _⟩ => show (d.val * 128 + k.val) / 128 % 128 = d.val; omega
    | ⟨2, _⟩ => show (d.val * 128 + k.val) % 128 = k.val; omega))

theorem b1_3 (i : Fin 100000) (k : Fin 128) : val_main_v118 (F := Ideal) x11 (ix2 i k) = x11 (ix2 (2 : Fin 4) k) := by
  rw [val_main_v118_apply, val_main_v117_apply, val_main_v97_apply, val_main_v96_apply]
  exact congrArg x11 (funext fun a => Fin.ext (by
    match a with
    | ⟨0, _⟩ => rfl
    | ⟨1, _⟩ => exact Nat.mod_eq_of_lt k.isLt))

theorem w2_3 (k j : Fin 128) : val_main_v99 (F := Ideal) x12 (ix2 k j) = x12 (ix3 (2 : Fin 4) k j) := by
  rw [val_main_v99_apply, val_main_v98_apply]
  have hk := k.isLt
  have hj := j.isLt
  exact congrArg x12 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

theorem b2_3 (i : Fin 100000) (j : Fin 128) : val_main_v123 (F := Ideal) x13 (ix2 i j) = x13 (ix2 (2 : Fin 4) j) := by
  rw [val_main_v123_apply, val_main_v122_apply, val_main_v101_apply, val_main_v100_apply]
  exact congrArg x13 (funext fun a => Fin.ext (by
    match a with
    | ⟨0, _⟩ => rfl
    | ⟨1, _⟩ => exact Nat.mod_eq_of_lt j.isLt))

theorem rzeroA3 (j : S100000x128.Idx) : val_main_call6_v0 (F := Ideal) j = 0 := by
  rw [val_main_call6_v0_apply, val_main_call6_cst_apply, zero_word]

theorem hid3 (i : Fin 100000) (k : Fin 128) :
    val_main_v120 (F := Ideal) x0 x1 x2 x4 x5 x6 x7 x8 x9 x10 x11 x12 x13 (ix2 i k)
      = max ((∑ d : Fin 128, val_main_v115 (F := Ideal) x0 x1 x2 x4 x5 x6 x7 x8 x9 x10 x11 x12 x13 (ix2 i d) * x10 (ix3 (2 : Fin 4) d k)) + x11 (ix2 (2 : Fin 4) k)) 0 := by
  rw [val_main_v120_apply, val_main_v119_apply, val_main_v116_apply, rzeroA3, b1_3, Ideal.maximumf_def, Ideal.addf_def]
  refine congrArg (fun t => max (t + x11 (ix2 (2 : Fin 4) k)) 0) (Finset.sum_congr rfl fun d _ => ?_)
  rw [show lidx_main_v116 (ix2 i k) d = ix2 i d from funext fun a => by match a with | ⟨0, _⟩ => rfl | ⟨1, _⟩ => rfl,
    show ridx_main_v116 (ix2 i k) d = ix2 d k from funext fun a => by match a with | ⟨0, _⟩ => rfl | ⟨1, _⟩ => rfl, w1_3]

theorem rzeroB3 (j : S100000x128.Idx) : val_main_call7_v0 (F := Ideal) j = 0 := by
  rw [val_main_call7_v0_apply, val_main_call7_cst_apply, zero_word]

theorem out3 (i : Fin 100000) (j : Fin 128) :
    val_main_v125 (F := Ideal) x0 x1 x2 x4 x5 x6 x7 x8 x9 x10 x11 x12 x13 (ix2 i j)
      = max ((∑ k : Fin 128, val_main_v120 (F := Ideal) x0 x1 x2 x4 x5 x6 x7 x8 x9 x10 x11 x12 x13 (ix2 i k) * x12 (ix3 (2 : Fin 4) k j)) + x13 (ix2 (2 : Fin 4) j)) 0 := by
  rw [val_main_v125_apply, val_main_v124_apply, val_main_v121_apply, rzeroB3, b2_3, Ideal.maximumf_def, Ideal.addf_def]
  refine congrArg (fun t => max (t + x13 (ix2 (2 : Fin 4) j)) 0) (Finset.sum_congr rfl fun k _ => ?_)
  rw [show lidx_main_v121 (ix2 i j) k = ix2 i k from funext fun a => by match a with | ⟨0, _⟩ => rfl | ⟨1, _⟩ => rfl,
    show ridx_main_v121 (ix2 i j) k = ix2 k j from funext fun a => by match a with | ⟨0, _⟩ => rfl | ⟨1, _⟩ => rfl, w2_3]

theorem layer3 (i : Fin 100000) (j : Fin 128) :
    val_main_v125 (F := Ideal) x0 x1 x2 x4 x5 x6 x7 x8 x9 x10 x11 x12 x13 (ix2 i j)
      = Cert.Spec.layerR Cert.Spec.relu (fun i d => val_main_v91 (F := Ideal) x0 x1 x2 x4 x5 x6 x7 x8 x9 x10 x11 x12 x13 (ix2 i d)) (fun d => x5 (ix2 (2 : Fin 4) d))
          (fun d k => x10 (ix3 (2 : Fin 4) d k)) (fun k => x11 (ix2 (2 : Fin 4) k)) (fun k j => x12 (ix3 (2 : Fin 4) k j)) (fun j => x13 (ix2 (2 : Fin 4) j))
          (fun e => x1 (ix1 e)) (fun e => x2 (ix1 e)) i j := by
  rw [out3]
  simp only [hid3, agg3]
  rfl

theorem src4 (e : Fin 1600000) : val_main_v141 (F := Ideal) x1 (ix2 e (0 : Fin 1)) = wrapW (x1 (ix1 e)) := by
  rw [val_main_v141_apply, val_main_v140_apply, val_main_v137_apply, val_main_v139_apply, val_main_v136_apply, val_main_v138_apply,
    val_main_c_10_apply, val_main_c_11_apply,
    show idx_main_v141 (ix2 e (0 : Fin 1)) = ix1 e from funext fun a => by match a with | ⟨0, _⟩ => rfl]

theorem dst4 (e : Fin 1600000) : val_main_v147 (F := Ideal) x2 (ix2 e (0 : Fin 1)) = x2 (ix1 e) := by
  rw [val_main_v147_apply, show idx_main_v147 (ix2 e (0 : Fin 1)) = ix1 e from funext fun a => by match a with | ⟨0, _⟩ => rfl]

theorem prompt4 (e : Fin 1600000) (d : Fin 128) : val_main_v144 (F := Ideal) x5 (ix2 e d) = x5 (ix2 (3 : Fin 4) d) := by
  rw [val_main_v144_apply, val_main_v143_apply, val_main_v127_apply, val_main_v126_apply]
  exact congrArg x5 (funext fun a => Fin.ext (by
    match a with
    | ⟨0, _⟩ => rfl
    | ⟨1, _⟩ => exact Nat.mod_eq_of_lt d.isLt))

theorem zero4 (i : Fin 100000) (d : Fin 128) : val_main_v146 (F := Ideal) (ix2 i d) = 0 := by
  rw [val_main_v146_apply, val_main_cst_12_apply, zero_word]

theorem agg4 (i : Fin 100000) (d : Fin 128) :
    val_main_v149 (F := Ideal) x0 x1 x2 x4 x5 x6 x7 x8 x9 x10 x11 x12 x13 (ix2 i d)
      = Cert.Spec.aggR (fun i d => val_main_v125 (F := Ideal) x0 x1 x2 x4 x5 x6 x7 x8 x9 x10 x11 x12 x13 (ix2 i d)) (fun d => x5 (ix2 (3 : Fin 4) d))
          (fun e => x1 (ix1 e)) (fun e => x2 (ix1 e)) i d
        + val_main_v125 (F := Ideal) x0 x1 x2 x4 x5 x6 x7 x8 x9 x10 x11 x12 x13 (ix2 i d) := by
  rw [val_main_v149_apply, Ideal.addf_def]
  exact congrArg (· + val_main_v125 (F := Ideal) x0 x1 x2 x4 x5 x6 x7 x8 x9 x10 x11 x12 x13 (ix2 i d)) <|
    agg_read gather_S100000x128_S1600000x1_S1600000x128_1_0_n_n_0_1_1128 rfl rfl rfl rfl rfl rfl rfl
      scatter_S100000x128_S1600000x1_S1600000x128_1_0_0_1 rfl rfl rfl rfl
      (val_main_v125 (F := Ideal) x0 x1 x2 x4 x5 x6 x7 x8 x9 x10 x11 x12 x13) (val_main_v146 (F := Ideal)) (val_main_v144 (F := Ideal) x5)
      (val_main_v141 (F := Ideal) x1) (val_main_v147 (F := Ideal) x2)
      (fun e => x1 (ix1 e)) (fun e => x2 (ix1 e)) (fun d => x5 (ix2 (3 : Fin 4) d))
      (src4 x1) (dst4 x2) (prompt4 x5) zero4 i d

theorem w1_4 (d k : Fin 128) : val_main_v129 (F := Ideal) x10 (ix2 d k) = x10 (ix3 (3 : Fin 4) d k) := by
  rw [val_main_v129_apply, val_main_v128_apply]
  have hd := d.isLt
  have hk := k.isLt
  exact congrArg x10 (funext fun a => Fin.ext (by
    match a with
    | ⟨0, _⟩ => rfl
    | ⟨1, _⟩ => show (d.val * 128 + k.val) / 128 % 128 = d.val; omega
    | ⟨2, _⟩ => show (d.val * 128 + k.val) % 128 = k.val; omega))

theorem b1_4 (i : Fin 100000) (k : Fin 128) : val_main_v152 (F := Ideal) x11 (ix2 i k) = x11 (ix2 (3 : Fin 4) k) := by
  rw [val_main_v152_apply, val_main_v151_apply, val_main_v131_apply, val_main_v130_apply]
  exact congrArg x11 (funext fun a => Fin.ext (by
    match a with
    | ⟨0, _⟩ => rfl
    | ⟨1, _⟩ => exact Nat.mod_eq_of_lt k.isLt))

theorem w2_4 (k j : Fin 128) : val_main_v133 (F := Ideal) x12 (ix2 k j) = x12 (ix3 (3 : Fin 4) k j) := by
  rw [val_main_v133_apply, val_main_v132_apply]
  have hk := k.isLt
  have hj := j.isLt
  exact congrArg x12 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

theorem b2_4 (i : Fin 100000) (j : Fin 128) : val_main_v157 (F := Ideal) x13 (ix2 i j) = x13 (ix2 (3 : Fin 4) j) := by
  rw [val_main_v157_apply, val_main_v156_apply, val_main_v135_apply, val_main_v134_apply]
  exact congrArg x13 (funext fun a => Fin.ext (by
    match a with
    | ⟨0, _⟩ => rfl
    | ⟨1, _⟩ => exact Nat.mod_eq_of_lt j.isLt))

theorem rzeroA4 (j : S100000x128.Idx) : val_main_call8_v0 (F := Ideal) j = 0 := by
  rw [val_main_call8_v0_apply, val_main_call8_cst_apply, zero_word]

theorem hid4 (i : Fin 100000) (k : Fin 128) :
    val_main_v154 (F := Ideal) x0 x1 x2 x4 x5 x6 x7 x8 x9 x10 x11 x12 x13 (ix2 i k)
      = max ((∑ d : Fin 128, val_main_v149 (F := Ideal) x0 x1 x2 x4 x5 x6 x7 x8 x9 x10 x11 x12 x13 (ix2 i d) * x10 (ix3 (3 : Fin 4) d k)) + x11 (ix2 (3 : Fin 4) k)) 0 := by
  rw [val_main_v154_apply, val_main_v153_apply, val_main_v150_apply, rzeroA4, b1_4, Ideal.maximumf_def, Ideal.addf_def]
  refine congrArg (fun t => max (t + x11 (ix2 (3 : Fin 4) k)) 0) (Finset.sum_congr rfl fun d _ => ?_)
  rw [show lidx_main_v150 (ix2 i k) d = ix2 i d from funext fun a => by match a with | ⟨0, _⟩ => rfl | ⟨1, _⟩ => rfl,
    show ridx_main_v150 (ix2 i k) d = ix2 d k from funext fun a => by match a with | ⟨0, _⟩ => rfl | ⟨1, _⟩ => rfl, w1_4]

end Layer

end Cert.ReferenceIdeal.RefValue

end
-- ==== Proof.RefPool.lean ====
import proofs.«415659_j4501125726343_1_alg».proof.Defs
import proofs.«415659_j4501125726343_1_alg».proof.Proof.Gen.ReferenceIdeal.Run
import proofs.«415659_j4501125726343_1_alg».proof.Proof.Gen.ReferenceIdeal.Read
import proofs.«415659_j4501125726343_1_alg».proof.Proof.Spec
import proofs.«415659_j4501125726343_1_alg».proof.Proof.LibGraphOps

namespace Cert.ReferenceIdeal.RefValue

open Cert.ReferenceIdeal Cert.ReferenceIdeal.Gen Cert.ReferenceIdeal.Read Idealize.ShloMosaic Idealize.ShloMosaic.ValueIdx
open scoped BigOperators

theorem ref_pool (x0 : (⟨S100000x12, .f32⟩ : BufTy).Contents (Elt Ideal)) (x1 x2 : (⟨S1600000, .i32⟩ : BufTy).Contents (Elt Ideal)) (x3 : (⟨S100000, .i32⟩ : BufTy).Contents (Elt Ideal)) (x4 : (⟨S12, .f32⟩ : BufTy).Contents (Elt Ideal)) (x5 : (⟨S4x128, .f32⟩ : BufTy).Contents (Elt Ideal)) (x6 : (⟨S12x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S4x128x128, .f32⟩ : BufTy).Contents (Elt Ideal)) (x11 : (⟨S4x128, .f32⟩ : BufTy).Contents (Elt Ideal)) (x12 : (⟨S4x128x128, .f32⟩ : BufTy).Contents (Elt Ideal)) (x13 : (⟨S4x128, .f32⟩ : BufTy).Contents (Elt Ideal)) (x14 : (⟨S128x2, .f32⟩ : BufTy).Contents (Elt Ideal)) (x15 : (⟨S2, .f32⟩ : BufTy).Contents (Elt Ideal)) (g : Fin 128) (c : Fin 2) :
    val_main_v174 (F := Ideal) x0 x1 x2 x3 x4 x5 x6 x7 x8 x9 x10 x11 x12 x13 x14 x15 (ix2 g c)
      = Cert.Spec.pool (fun i k => val_main_v158 (F := Ideal) x0 x1 x2 x4 x5 x6 x7 x8 x9 x10 x11 x12 x13 (ix2 i k)) (fun i => x3 (ix1 i))
          (fun k c => x14 (ix2 k c)) (fun c => x15 (ix1 c)) g c := by
  have hl : ∀ k : Fin 128, lidx_main_v171 (ix2 g c) k = ix2 g k := fun k => funext fun a => by
    match a with
    | ⟨0, _⟩ => rfl
    | ⟨1, _⟩ => rfl
  have hr : ∀ k : Fin 128, ridx_main_v171 (ix2 g c) k = ix2 k c := fun k => funext fun a => by
    match a with
    | ⟨0, _⟩ => rfl
    | ⟨1, _⟩ => rfl
  have hb : idx_main_v172 (idx_main_v173 (ix2 g c)) = ix1 c := funext fun a => by
    match a with
    | ⟨0, _⟩ => rfl
  have hg : ∀ k : Fin 128, idx_main_v168 (idx_main_v169 (ix2 g k)) = ix1 g := fun k => funext fun a => by
    match a with
    | ⟨0, _⟩ => rfl
  have hone : Ideal.ofBits .f32 0x3F800000#32 = 1 := by
    simp [Ideal.ofBits, Ideal.ieee, -EReal.coe_mul]; norm_num

  have hcnt : val_main_v165 (F := Ideal) x3 (ix1 g) = Cert.Spec.cnt (fun i => x3 (ix1 i)) g := by
    unfold val_main_v165 val_main_v164
    rw [GraphOps.scatterAdd_vec_col _ rfl rfl rfl rfl]
    rw [val_main_v163_apply, val_main_cst_15_apply, Ideal.ofBits_def, Ideal.ofBits_zero_f32, zero_add]
    unfold Cert.Spec.cnt
    refine Finset.sum_congr rfl fun r _ => ?_
    rw [val_main_v162_apply, val_main_cst_14_apply, Ideal.ofBits_def, hone]

  have hsum : ∀ k : Fin 128, val_main_v161 (F := Ideal) x0 x1 x2 x3 x4 x5 x6 x7 x8 x9 x10 x11 x12 x13 (ix2 g k)
      = Cert.Spec.sums (fun i k => val_main_v158 (F := Ideal) x0 x1 x2 x4 x5 x6 x7 x8 x9 x10 x11 x12 x13 (ix2 i k)) (fun i => x3 (ix1 i)) g k := by
    intro k
    unfold val_main_v161 val_main_v160
    generalize val_main_v158 (F := Ideal) x0 x1 x2 x4 x5 x6 x7 x8 x9 x10 x11 x12 x13 = h
    rw [GraphOps.scatterAdd_rows_col _ rfl rfl rfl rfl]
    rw [val_main_v159_apply, val_main_cst_13_apply, Ideal.ofBits_def, Ideal.ofBits_zero_f32, zero_add]
    rfl
  rw [val_main_v174_apply, val_main_v171_apply, val_main_v173_apply, val_main_v172_apply, hb, Ideal.addf_def]
  unfold Cert.Spec.pool
  refine congrArg (fun t => t + x15 (ix1 c)) ?_
  refine Finset.sum_congr rfl fun k _ => ?_
  rw [hl, hr, val_main_v170_apply, Ideal.hostDivf_def, hsum, val_main_v169_apply, val_main_v168_apply, hg,
    val_main_v167_apply, Ideal.maximumf_def, hcnt, val_main_v166_apply, val_main_cst_16_apply, Ideal.ofBits_def, hone]

end Cert.ReferenceIdeal.RefValue
-- ==== Proof.RefSide.lean ====
import proofs.«415659_j4501125726343_1_alg».proof.Proof.RefLayerSib
import proofs.«415659_j4501125726343_1_alg».proof.Proof.RefPool

noncomputable section

namespace Cert.ReferenceIdeal.RefValue

open Idealize.ShloMosaic Idealize.ShloMosaic.ValueIdx Idealize.ShloMosaic.GraphOps
open Cert.ReferenceIdeal Cert.ReferenceIdeal.Read
open scoped BigOperators

namespace Layer

variable (x0 : (⟨S100000x12, .f32⟩ : BufTy).Contents (Elt Ideal)) (x1 x2 : (⟨S1600000, .i32⟩ : BufTy).Contents (Elt Ideal))
  (x3 : (⟨S100000, .i32⟩ : BufTy).Contents (Elt Ideal))
  (x4 : (⟨S12, .f32⟩ : BufTy).Contents (Elt Ideal)) (x5 : (⟨S4x128, .f32⟩ : BufTy).Contents (Elt Ideal))
  (x6 : (⟨S12x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S4x128x128, .f32⟩ : BufTy).Contents (Elt Ideal)) (x11 : (⟨S4x128, .f32⟩ : BufTy).Contents (Elt Ideal))
  (x12 : (⟨S4x128x128, .f32⟩ : BufTy).Contents (Elt Ideal)) (x13 : (⟨S4x128, .f32⟩ : BufTy).Contents (Elt Ideal))
  (x14 : (⟨S128x2, .f32⟩ : BufTy).Contents (Elt Ideal)) (x15 : (⟨S2, .f32⟩ : BufTy).Contents (Elt Ideal))

theorem out4 (i : Fin 100000) (j : Fin 128) :
    val_main_v158 (F := Ideal) x0 x1 x2 x4 x5 x6 x7 x8 x9 x10 x11 x12 x13 (ix2 i j)
      = (∑ k : Fin 128, val_main_v154 (F := Ideal) x0 x1 x2 x4 x5 x6 x7 x8 x9 x10 x11 x12 x13 (ix2 i k) * x12 (ix3 (3 : Fin 4) k j)) + x13 (ix2 (3 : Fin 4) j) := by
  rw [val_main_v158_apply, val_main_v155_apply, b2_4, Ideal.addf_def]
  refine congrArg (fun t => t + x13 (ix2 (3 : Fin 4) j)) (Finset.sum_congr rfl fun k _ => ?_)
  rw [show lidx_main_v155 (ix2 i j) k = ix2 i k from funext fun a => by match a with | ⟨0, _⟩ => rfl | ⟨1, _⟩ => rfl,
    show ridx_main_v155 (ix2 i j) k = ix2 k j from funext fun a => by match a with | ⟨0, _⟩ => rfl | ⟨1, _⟩ => rfl, w2_4]

theorem layer4 (i : Fin 100000) (j : Fin 128) :
    val_main_v158 (F := Ideal) x0 x1 x2 x4 x5 x6 x7 x8 x9 x10 x11 x12 x13 (ix2 i j)
      = Cert.Spec.layerR id (fun i d => val_main_v125 (F := Ideal) x0 x1 x2 x4 x5 x6 x7 x8 x9 x10 x11 x12 x13 (ix2 i d)) (fun d => x5 (ix2 (3 : Fin 4) d))
          (fun d k => x10 (ix3 (3 : Fin 4) d k)) (fun k => x11 (ix2 (3 : Fin 4) k)) (fun k j => x12 (ix3 (3 : Fin 4) k j)) (fun j => x13 (ix2 (3 : Fin 4) j))
          (fun e => x1 (ix1 e)) (fun e => x2 (ix1 e)) i j := by
  rw [out4]
  simp only [hid4, agg4]
  unfold Cert.Spec.layerR Cert.Spec.mlp
  exact (id_eq _).symm

end Layer

open Layer

variable (x0 : (⟨S100000x12, .f32⟩ : BufTy).Contents (Elt Ideal)) (x1 x2 : (⟨S1600000, .i32⟩ : BufTy).Contents (Elt Ideal))
  (x3 : (⟨S100000, .i32⟩ : BufTy).Contents (Elt Ideal))
  (x4 : (⟨S12, .f32⟩ : BufTy).Contents (Elt Ideal)) (x5 : (⟨S4x128, .f32⟩ : BufTy).Contents (Elt Ideal))
  (x6 : (⟨S12x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S4x128x128, .f32⟩ : BufTy).Contents (Elt Ideal)) (x11 : (⟨S4x128, .f32⟩ : BufTy).Contents (Elt Ideal))
  (x12 : (⟨S4x128x128, .f32⟩ : BufTy).Contents (Elt Ideal)) (x13 : (⟨S4x128, .f32⟩ : BufTy).Contents (Elt Ideal))
  (x14 : (⟨S128x2, .f32⟩ : BufTy).Contents (Elt Ideal)) (x15 : (⟨S2, .f32⟩ : BufTy).Contents (Elt Ideal))

theorem ref_val (g : Fin 128) (c : Fin 2) :
    val_main_v174 (F := Ideal) x0 x1 x2 x3 x4 x5 x6 x7 x8 x9 x10 x11 x12 x13 x14 x15 (ix2 g c)
      = Cert.Spec.netR (fun i d => x0 (ix2 i d)) (fun e => x1 (ix1 e)) (fun e => x2 (ix1 e)) (fun i => x3 (ix1 i))
          ⟨fun d => x4 (ix1 d), fun d k => x6 (ix2 d k), fun k => x7 (ix1 k), fun k j => x8 (ix2 k j), fun j => x9 (ix1 j)⟩
          ⟨fun d => x5 (ix2 (0 : Fin 4) d), fun d k => x10 (ix3 (0 : Fin 4) d k), fun k => x11 (ix2 (0 : Fin 4) k),
            fun k j => x12 (ix3 (0 : Fin 4) k j), fun j => x13 (ix2 (0 : Fin 4) j)⟩
          ⟨fun d => x5 (ix2 (1 : Fin 4) d), fun d k => x10 (ix3 (1 : Fin 4) d k), fun k => x11 (ix2 (1 : Fin 4) k),
            fun k j => x12 (ix3 (1 : Fin 4) k j), fun j => x13 (ix2 (1 : Fin 4) j)⟩
          ⟨fun d => x5 (ix2 (2 : Fin 4) d), fun d k => x10 (ix3 (2 : Fin 4) d k), fun k => x11 (ix2 (2 : Fin 4) k),
            fun k j => x12 (ix3 (2 : Fin 4) k j), fun j => x13 (ix2 (2 : Fin 4) j)⟩
          ⟨fun d => x5 (ix2 (3 : Fin 4) d), fun d k => x10 (ix3 (3 : Fin 4) d k), fun k => x11 (ix2 (3 : Fin 4) k),
            fun k j => x12 (ix3 (3 : Fin 4) k j), fun j => x13 (ix2 (3 : Fin 4) j)⟩
          (fun k c => x14 (ix2 k c)) (fun c => x15 (ix1 c)) g c := by
  have e1 : (fun i j => val_main_v23 (F := Ideal) x0 x1 x2 x4 x6 x7 x8 x9 (ix2 i j))
      = (Cert.Spec.layerR Cert.Spec.relu (fun i d => x0 (ix2 i d))
        (fun d => x4 (ix1 d)) (fun d k => x6 (ix2 d k)) (fun k => x7 (ix1 k)) (fun k j => x8 (ix2 k j)) (fun j => x9 (ix1 j)) (fun e => x1 (ix1 e)) (fun e => x2 (ix1 e))) :=
    funext fun i => funext fun j => layer0 x0 x1 x2 x4 x6 x7 x8 x9 i j
  have e2 : (fun i j => val_main_v57 (F := Ideal) x0 x1 x2 x4 x5 x6 x7 x8 x9 x10 x11 x12 x13 (ix2 i j))
      = (Cert.Spec.layerR Cert.Spec.relu (Cert.Spec.layerR Cert.Spec.relu (fun i d => x0 (ix2 i d))
        (fun d => x4 (ix1 d)) (fun d k => x6 (ix2 d k)) (fun k => x7 (ix1 k)) (fun k j => x8 (ix2 k j)) (fun j => x9 (ix1 j)) (fun e => x1 (ix1 e)) (fun e => x2 (ix1 e)))
        (fun d => x5 (ix2 (0 : Fin 4) d)) (fun d k => x10 (ix3 (0 : Fin 4) d k)) (fun k => x11 (ix2 (0 : Fin 4) k)) (fun k j => x12 (ix3 (0 : Fin 4) k j)) (fun j => x13 (ix2 (0 : Fin 4) j)) (fun e => x1 (ix1 e)) (fun e => x2 (ix1 e))) := by
    funext i j
    rw [layer1, e1]
  have e3 : (fun i j => val_main_v91 (F := Ideal) x0 x1 x2 x4 x5 x6 x7 x8 x9 x10 x11 x12 x13 (ix2 i j))
      = (Cert.Spec.layerR Cert.Spec.relu (Cert.Spec.layerR Cert.Spec.relu (Cert.Spec.layerR Cert.Spec.relu (fun i d => x0 (ix2 i d))
        (fun d => x4 (ix1 d)) (fun d k => x6 (ix2 d k)) (fun k => x7 (ix1 k)) (fun k j => x8 (ix2 k j)) (fun j => x9 (ix1 j)) (fun e => x1 (ix1 e)) (fun e => x2 (ix1 e)))
        (fun d => x5 (ix2 (0 : Fin 4) d)) (fun d k => x10 (ix3 (0 : Fin 4) d k)) (fun k => x11 (ix2 (0 : Fin 4) k)) (fun k j => x12 (ix3 (0 : Fin 4) k j)) (fun j => x13 (ix2 (0 : Fin 4) j)) (fun e => x1 (ix1 e)) (fun e => x2 (ix1 e)))
        (fun d => x5 (ix2 (1 : Fin 4) d)) (fun d k => x10 (ix3 (1 : Fin 4) d k)) (fun k => x11 (ix2 (1 : Fin 4) k)) (fun k j => x12 (ix3 (1 : Fin 4) k j)) (fun j => x13 (ix2 (1 : Fin 4) j)) (fun e => x1 (ix1 e)) (fun e => x2 (ix1 e))) := by
    funext i j
    rw [layer2, e2]
  have e4 : (fun i j => val_main_v125 (F := Ideal) x0 x1 x2 x4 x5 x6 x7 x8 x9 x10 x11 x12 x13 (ix2 i j))
      = (Cert.Spec.layerR Cert.Spec.relu (Cert.Spec.layerR Cert.Spec.relu (Cert.Spec.layerR Cert.Spec.relu (Cert.Spec.layerR Cert.Spec.relu (fun i d => x0 (ix2 i d))
        (fun d => x4 (ix1 d)) (fun d k => x6 (ix2 d k)) (fun k => x7 (ix1 k)) (fun k j => x8 (ix2 k j)) (fun j => x9 (ix1 j)) (fun e => x1 (ix1 e)) (fun e => x2 (ix1 e)))
        (fun d => x5 (ix2 (0 : Fin 4) d)) (fun d k => x10 (ix3 (0 : Fin 4) d k)) (fun k => x11 (ix2 (0 : Fin 4) k)) (fun k j => x12 (ix3 (0 : Fin 4) k j)) (fun j => x13 (ix2 (0 : Fin 4) j)) (fun e => x1 (ix1 e)) (fun e => x2 (ix1 e)))
        (fun d => x5 (ix2 (1 : Fin 4) d)) (fun d k => x10 (ix3 (1 : Fin 4) d k)) (fun k => x11 (ix2 (1 : Fin 4) k)) (fun k j => x12 (ix3 (1 : Fin 4) k j)) (fun j => x13 (ix2 (1 : Fin 4) j)) (fun e => x1 (ix1 e)) (fun e => x2 (ix1 e)))
        (fun d => x5 (ix2 (2 : Fin 4) d)) (fun d k => x10 (ix3 (2 : Fin 4) d k)) (fun k => x11 (ix2 (2 : Fin 4) k)) (fun k j => x12 (ix3 (2 : Fin 4) k j)) (fun j => x13 (ix2 (2 : Fin 4) j)) (fun e => x1 (ix1 e)) (fun e => x2 (ix1 e))) := by
    funext i j
    rw [layer3, e3]
  have e5 : (fun i j => val_main_v158 (F := Ideal) x0 x1 x2 x4 x5 x6 x7 x8 x9 x10 x11 x12 x13 (ix2 i j))
      = (Cert.Spec.layerR id (Cert.Spec.layerR Cert.Spec.relu (Cert.Spec.layerR Cert.Spec.relu (Cert.Spec.layerR Cert.Spec.relu (Cert.Spec.layerR Cert.Spec.relu (fun i d => x0 (ix2 i d))
        (fun d => x4 (ix1 d)) (fun d k => x6 (ix2 d k)) (fun k => x7 (ix1 k)) (fun k j => x8 (ix2 k j)) (fun j => x9 (ix1 j)) (fun e => x1 (ix1 e)) (fun e => x2 (ix1 e)))
        (fun d => x5 (ix2 (0 : Fin 4) d)) (fun d k => x10 (ix3 (0 : Fin 4) d k)) (fun k => x11 (ix2 (0 : Fin 4) k)) (fun k j => x12 (ix3 (0 : Fin 4) k j)) (fun j => x13 (ix2 (0 : Fin 4) j)) (fun e => x1 (ix1 e)) (fun e => x2 (ix1 e)))
        (fun d => x5 (ix2 (1 : Fin 4) d)) (fun d k => x10 (ix3 (1 : Fin 4) d k)) (fun k => x11 (ix2 (1 : Fin 4) k)) (fun k j => x12 (ix3 (1 : Fin 4) k j)) (fun j => x13 (ix2 (1 : Fin 4) j)) (fun e => x1 (ix1 e)) (fun e => x2 (ix1 e)))
        (fun d => x5 (ix2 (2 : Fin 4) d)) (fun d k => x10 (ix3 (2 : Fin 4) d k)) (fun k => x11 (ix2 (2 : Fin 4) k)) (fun k j => x12 (ix3 (2 : Fin 4) k j)) (fun j => x13 (ix2 (2 : Fin 4) j)) (fun e => x1 (ix1 e)) (fun e => x2 (ix1 e)))
        (fun d => x5 (ix2 (3 : Fin 4) d)) (fun d k => x10 (ix3 (3 : Fin 4) d k)) (fun k => x11 (ix2 (3 : Fin 4) k)) (fun k j => x12 (ix3 (3 : Fin 4) k j)) (fun j => x13 (ix2 (3 : Fin 4) j)) (fun e => x1 (ix1 e)) (fun e => x2 (ix1 e))) := by
    funext i j
    rw [layer4, e4]
  rw [ref_pool, e5]
  unfold Cert.Spec.netR
  rfl

end Cert.ReferenceIdeal.RefValue

end
-- ==== Proof.KI.NetBase.lean ====
import proofs.«415659_j4501125726343_1_alg».proof.Proof.KI.Run
import proofs.«415659_j4501125726343_1_alg».proof.Proof.Spec
import Idealize.ShloMosaic.Lib.ValueIdx
import Idealize.ShloMosaic.PureOps.Ideal

set_option maxRecDepth 16384

noncomputable section

namespace Cert.KernelIdeal.HandV

open Cert.KernelIdeal Cert.KernelIdeal.Gen Cert.KernelIdeal.Hand
open Idealize.ShloMosaic Idealize.ShloMosaic.TcCoe ValueIdx
open Idealize.SL Idealize.SL.Sem

abbrev rd2 {a b : ℕ} (x : (⟨2, ![a, b]⟩ : Shape).Idx → EReal) (i : Fin a) (j : Fin b) : EReal := x (ix2 i j)

theorem mlp_congr {D : ℕ} (act : EReal → EReal) {z z' : Fin 100000 → Fin D → EReal} {A A' : Fin D → Fin 128 → EReal}
    {b b' : Fin 128 → EReal} {B B' : Fin 128 → Fin 128 → EReal} {e e' : Fin 128 → EReal}
    (hz : ∀ i d, z i d = z' i d) (hA : ∀ d k, A d k = A' d k) (hb : ∀ k, b k = b' k) (hB : ∀ k j, B k j = B' k j)
    (he : ∀ j, e j = e' j) (i : Fin 100000) (j : Fin 128) :
    Cert.Spec.mlp act z A b B e i j = Cert.Spec.mlp act z' A' b' B' e' i j := by
  obtain rfl : z = z' := funext fun i => funext (hz i)
  obtain rfl : A = A' := funext fun d => funext (hA d)
  obtain rfl : b = b' := funext hb
  obtain rfl : B = B' := funext fun k => funext (hB k)
  obtain rfl : e = e' := funext he
  rfl

theorem pool_congr {h h' : Fin 100000 → Fin 128 → EReal} {bt bt' : Fin 100000 → BitVec 32} {A A' : Fin 128 → Fin 2 → EReal}
    {b b' : Fin 2 → EReal} (hh : ∀ i k, h i k = h' i k) (hbt : ∀ i, bt i = bt' i) (hA : ∀ k q, A k q = A' k q)
    (hb : ∀ q, b q = b' q) (g : Fin 128) (q : Fin 2) :
    Cert.Spec.pool h bt A b g q = Cert.Spec.pool h' bt' A' b' g q := by
  obtain rfl : h = h' := funext fun i => funext (hh i)
  obtain rfl : bt = bt' := funext hbt
  obtain rfl : A = A' := funext fun k => funext (hA k)
  obtain rfl : b = b' := funext hb
  rfl

section Inputs
variable (m : (ℓ : Loc nD τ sig) → Buf (Elt Ideal) ℓ) (c : Dev nD)

abbrev netX : Fin 100000 → Fin 12 → EReal :=
  fun i d => (m ((c : Thread nD τ).loc main_arg0) : S100000x12.Idx → EReal) (ix2 i d)

abbrev netSrc : Fin 1600000 → BitVec 32 :=
  fun e => (m ((c : Thread nD τ).loc main_arg1) : S1600000.Idx → BitVec 32) (ix1 e)

abbrev netDst : Fin 1600000 → BitVec 32 :=
  fun e => (m ((c : Thread nD τ).loc main_arg2) : S1600000.Idx → BitVec 32) (ix1 e)

abbrev netBatch : Fin 100000 → BitVec 32 :=
  fun i => (m ((c : Thread nD τ).loc main_arg3) : S100000.Idx → BitVec 32) (ix1 i)

abbrev netL0 : Cert.Spec.LayerW 12 where
  p d := (m ((c : Thread nD τ).loc main_arg4) : S12.Idx → EReal) (ix1 d)
  W1 d k := (m ((c : Thread nD τ).loc main_arg6) : S12x128.Idx → EReal) (ix2 d k)
  b1 k := (m ((c : Thread nD τ).loc main_arg7) : S128.Idx → EReal) (ix1 k)
  W2 k j := (m ((c : Thread nD τ).loc main_arg8) : S128x128.Idx → EReal) (ix2 k j)
  b2 j := (m ((c : Thread nD τ).loc main_arg9) : S128.Idx → EReal) (ix1 j)

abbrev netL (l : Fin 4) : Cert.Spec.LayerW 128 where
  p d := (m ((c : Thread nD τ).loc main_arg5) : S4x128.Idx → EReal) (ix2 l d)
  W1 d k := (m ((c : Thread nD τ).loc main_arg10) : S4x128x128.Idx → EReal) (ix3 l d k)
  b1 k := (m ((c : Thread nD τ).loc main_arg11) : S4x128.Idx → EReal) (ix2 l k)
  W2 k j := (m ((c : Thread nD τ).loc main_arg12) : S4x128x128.Idx → EReal) (ix3 l k j)
  b2 j := (m ((c : Thread nD τ).loc main_arg13) : S4x128.Idx → EReal) (ix2 l j)

abbrev netWc : Fin 128 → Fin 2 → EReal :=
  fun k q => (m ((c : Thread nD τ).loc main_arg14) : S128x2.Idx → EReal) (ix2 k q)

abbrev netBc : Fin 2 → EReal :=
  fun q => (m ((c : Thread nD τ).loc main_arg15) : S2.Idx → EReal) (ix1 q)

end Inputs

variable (m : (ℓ : Loc nD τ sig) → Buf (Elt Ideal) ℓ) (ρ : Dev nD → PrngReg) (c : Dev nD)

abbrev Unwritten (r : Ref sig .tc) : Prop :=
  r ∉ hostOps0_W ++ hostOps1_W ++ hostOps2_W ++ hostOps3_W ++ hostOps4_W ++ hostOps5_W
        ++ [main_v19, main_v43, main_v67, main_v91, main_v115, main_v117]

abbrev Later (r : Ref sig .tc) : Prop :=
  r ∉ hostOps1_W ++ hostOps2_W ++ hostOps3_W ++ hostOps4_W ++ hostOps5_W
        ++ [main_v19, main_v43, main_v67, main_v91, main_v115, main_v117]

variable {r : Ref sig .tc}

theorem Later.split (h : Later r) :
    ((((r ∉ hostOps1_W ∧ r ∉ hostOps2_W) ∧ r ∉ hostOps3_W) ∧ r ∉ hostOps4_W) ∧ r ∉ hostOps5_W)
      ∧ (r ≠ main_v19 ∧ r ≠ main_v43 ∧ r ≠ main_v67 ∧ r ≠ main_v91 ∧ r ≠ main_v115 ∧ r ≠ main_v117) := by
  have h' := h
  simp only [Later, List.mem_append, not_or] at h'
  obtain ⟨hs, hL⟩ := h'
  refine ⟨hs, ?_, ?_, ?_, ?_, ?_, ?_⟩ <;> (rintro rfl; exact hL (by decide))

theorem Unwritten.later (h : Unwritten r) : Later r := by
  have h' := h
  simp only [Unwritten, List.mem_append, not_or] at h'
  simp only [Later, List.mem_append, not_or]
  obtain ⟨⟨⟨⟨⟨⟨h0, h1⟩, h2⟩, h3⟩, h4⟩, h5⟩, hL⟩ := h'
  exact ⟨⟨⟨⟨⟨h1, h2⟩, h3⟩, h4⟩, h5⟩, hL⟩

theorem Unwritten.first (h : Unwritten r) : r ∉ hostOps0_W := by
  have h' := h
  simp only [Unwritten, List.mem_append, not_or] at h'
  exact h'.1.1.1.1.1.1

theorem late_W2 (h : Later r) : W2 m ρ c (Proc.devRef .tc r) = W1 m ρ c (Proc.devRef .tc r) :=
  W2_keep m ρ c r h.split.2.1
theorem late_W3 (h : Later r) : W3 m ρ c (Proc.devRef .tc r) = W1 m ρ c (Proc.devRef .tc r) :=
  (StableHlo.after_of_writes_sub hostOps1 _ hostOps1_writes h.split.1.1.1.1.1).trans (late_W2 m ρ c h)
theorem late_W4 (h : Later r) : W4 m ρ c (Proc.devRef .tc r) = W1 m ρ c (Proc.devRef .tc r) :=
  (W4_keep m ρ c r h.split.2.2.1).trans (late_W3 m ρ c h)
theorem late_W5 (h : Later r) : W5 m ρ c (Proc.devRef .tc r) = W1 m ρ c (Proc.devRef .tc r) :=
  (StableHlo.after_of_writes_sub hostOps2 _ hostOps2_writes h.split.1.1.1.1.2).trans (late_W4 m ρ c h)
theorem late_W6 (h : Later r) : W6 m ρ c (Proc.devRef .tc r) = W1 m ρ c (Proc.devRef .tc r) :=
  (W6_keep m ρ c r h.split.2.2.2.1).trans (late_W5 m ρ c h)
theorem late_W7 (h : Later r) : W7 m ρ c (Proc.devRef .tc r) = W1 m ρ c (Proc.devRef .tc r) :=
  (StableHlo.after_of_writes_sub hostOps3 _ hostOps3_writes h.split.1.1.1.2).trans (late_W6 m ρ c h)
theorem late_W8 (h : Later r) : W8 m ρ c (Proc.devRef .tc r) = W1 m ρ c (Proc.devRef .tc r) :=
  (W8_keep m ρ c r h.split.2.2.2.2.1).trans (late_W7 m ρ c h)
theorem late_W9 (h : Later r) : W9 m ρ c (Proc.devRef .tc r) = W1 m ρ c (Proc.devRef .tc r) :=
  (StableHlo.after_of_writes_sub hostOps4 _ hostOps4_writes h.split.1.1.2).trans (late_W8 m ρ c h)
theorem late_W10 (h : Later r) : W10 m ρ c (Proc.devRef .tc r) = W1 m ρ c (Proc.devRef .tc r) :=
  (W10_keep m ρ c r h.split.2.2.2.2.2.1).trans (late_W9 m ρ c h)
theorem late_W11 (h : Later r) : W11 m ρ c (Proc.devRef .tc r) = W1 m ρ c (Proc.devRef .tc r) :=
  (StableHlo.after_of_writes_sub hostOps5 _ hostOps5_writes h.split.1.2).trans (late_W10 m ρ c h)

theorem arg_W1 (h : Unwritten r) : W1 m ρ c (Proc.devRef .tc r) = m ((c : Thread nD τ).loc r) :=
  StableHlo.after_of_writes_sub hostOps0 _ hostOps0_writes h.first
theorem arg_W2 (h : Unwritten r) : W2 m ρ c (Proc.devRef .tc r) = m ((c : Thread nD τ).loc r) :=
  (late_W2 m ρ c h.later).trans (arg_W1 m ρ c h)
theorem arg_W4 (h : Unwritten r) : W4 m ρ c (Proc.devRef .tc r) = m ((c : Thread nD τ).loc r) :=
  (late_W4 m ρ c h.later).trans (arg_W1 m ρ c h)
theorem arg_W6 (h : Unwritten r) : W6 m ρ c (Proc.devRef .tc r) = m ((c : Thread nD τ).loc r) :=
  (late_W6 m ρ c h.later).trans (arg_W1 m ρ c h)
theorem arg_W8 (h : Unwritten r) : W8 m ρ c (Proc.devRef .tc r) = m ((c : Thread nD τ).loc r) :=
  (late_W8 m ρ c h.later).trans (arg_W1 m ρ c h)
theorem arg_W10 (h : Unwritten r) : W10 m ρ c (Proc.devRef .tc r) = m ((c : Thread nD τ).loc r) :=
  (late_W10 m ρ c h.later).trans (arg_W1 m ρ c h)
theorem arg_W11 (h : Unwritten r) : W11 m ρ c (Proc.devRef .tc r) = m ((c : Thread nD τ).loc r) :=
  (late_W11 m ρ c h.later).trans (arg_W1 m ρ c h)

abbrev hid1 : Fin 100000 → Fin 128 → EReal :=
  fun i j => (W2 m ρ c (Proc.devRef .tc main_v19) : S100000x128.Idx → EReal) (ix2 i j)

abbrev hid2 : Fin 100000 → Fin 128 → EReal :=
  fun i j => (W4 m ρ c (Proc.devRef .tc main_v43) : S100000x128.Idx → EReal) (ix2 i j)

abbrev hid3 : Fin 100000 → Fin 128 → EReal :=
  fun i j => (W6 m ρ c (Proc.devRef .tc main_v67) : S100000x128.Idx → EReal) (ix2 i j)

abbrev hid4 : Fin 100000 → Fin 128 → EReal :=
  fun i j => (W8 m ρ c (Proc.devRef .tc main_v91) : S100000x128.Idx → EReal) (ix2 i j)

abbrev hid5 : Fin 100000 → Fin 128 → EReal :=
  fun i j => (W10 m ρ c (Proc.devRef .tc main_v115) : S100000x128.Idx → EReal) (ix2 i j)

end Cert.KernelIdeal.HandV

end
-- ==== Proof.KI.HostBase.lean ====
import Idealize.ShloMosaic.Lib.ValueIdx
import Idealize.ShloMosaic.Lib.Pipeline.Value
import Idealize.ShloMosaic.Lib.ValueLayout

namespace Cert.KernelIdeal.HandV

open Idealize.ShloMosaic ValueIdx

variable {α : Type}

theorem sliceRow_apply {n b : ℕ} (r : ℕ) (X : (⟨2, ![n, b]⟩ : Shape).Idx → α)
    (h : (⟨2, ![n, b]⟩ : Shape).Slices ![r, 0] ⟨2, ![1, b]⟩) (u : Fin 1) (e : Fin b) (k : Fin n) (hk : k.val = r) :
    extractStridedSlice ⟨2, ![1, b]⟩ ![r, 0] X h (ix2 u e) = X (ix2 k e) :=
  slice2_axis0_apply r X h u e k (by have := u.isLt; omega)

theorem sliceSlab_apply {n a b : ℕ} (r : ℕ) (X : (⟨3, ![n, a, b]⟩ : Shape).Idx → α)
    (h : (⟨3, ![n, a, b]⟩ : Shape).Slices ![r, 0, 0] ⟨3, ![1, a, b]⟩) (u : Fin 1) (i : Fin a) (j : Fin b) (k : Fin n)
    (hk : k.val = r) :
    extractStridedSlice ⟨3, ![1, a, b]⟩ ![r, 0, 0] X h (ix3 u i j) = X (ix3 k i j) :=
  extractStridedSlice_apply _ _ _ _ _ (fun ax => by
    match ax with
    | ⟨0, _⟩ =>
      have hu : u.val = 0 := by have := u.isLt; omega
      show k.val = r + u.val
      omega
    | ⟨1, _⟩ => exact (Nat.zero_add _).symm
    | ⟨2, _⟩ => exact (Nat.zero_add _).symm)

theorem shapeCast_a_a1_apply {a : ℕ} (x : (⟨1, ![a]⟩ : Shape).Idx → α) (h : (⟨1, ![a]⟩ : Shape).ShapeCasts ⟨2, ![a, 1]⟩)
    (e : Fin a) (u : Fin 1) : shapeCast ⟨2, ![a, 1]⟩ x h (ix2 e u) = x (ix1 e) :=
  shapeCast_apply x h _ _ (by
    have hu : u.val = 0 := by have := u.isLt; omega
    rw [Shape.rowMajor_val_two, Shape.rowMajor_val_one]
    show e.val = e.val * 1 + u.val
    rw [hu, Nat.mul_one, Nat.add_zero])

theorem bcastScalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x _ _ (fun a => a.elim0)

end Cert.KernelIdeal.HandV
-- ==== Proof.KI.Lay0.lean ====
import proofs.«415659_j4501125726343_1_alg».proof.Proof.Gen.KernelIdeal.Launch
import proofs.«415659_j4501125726343_1_alg».proof.Proof.KI.HostBase
import Idealize.ShloMosaic.Lib.StableHlo.Run

set_option maxRecDepth 1412

noncomputable section

namespace Cert.KernelIdeal.HandV

open Cert.KernelIdeal Cert.KernelIdeal.Gen Idealize.ShloMosaic ValueIdx
open Idealize.ShloMosaic.StableHlo

variable (W : Valuation τ sig (Elt Ideal))

theorem host0_p (d : Fin 12) :
    (StableHlo.after hostOps0 W (Proc.devRef .tc main_v16) : S1x12.Idx → EReal) (ix2 (0 : Fin 1) d)
      = (W (Proc.devRef .tc main_arg4) : S12.Idx → EReal) (ix1 d) := by
  have e : (StableHlo.after hostOps0 W (Proc.devRef .tc main_v16) : S1x12.Idx → EReal)
      = fun i => shapeCast S1x12 (W (Proc.devRef .tc main_arg4) : S12.Idx → EReal) shapeCasts_S12_S1x12 i := by
    show StableHlo.after hostOps0 _ (Proc.devRef .tc main_v16) = _
    after_results
    rfl
  rw [e]
  exact shapeCast_a_1a_apply _ _ _ _

theorem host0_b1 (k : Fin 128) :
    (StableHlo.after hostOps0 W (Proc.devRef .tc main_v17) : S1x128.Idx → EReal) (ix2 (0 : Fin 1) k)
      = (W (Proc.devRef .tc main_arg7) : S128.Idx → EReal) (ix1 k) := by
  have e : (StableHlo.after hostOps0 W (Proc.devRef .tc main_v17) : S1x128.Idx → EReal)
      = fun i => shapeCast S1x128 (W (Proc.devRef .tc main_arg7) : S128.Idx → EReal) shapeCasts_S128_S1x128 i := by
    show StableHlo.after hostOps0 _ (Proc.devRef .tc main_v17) = _
    after_results
    rfl
  rw [e]
  exact shapeCast_a_1a_apply _ _ _ _

theorem host0_b2 (j : Fin 128) :
    (StableHlo.after hostOps0 W (Proc.devRef .tc main_v18) : S1x128.Idx → EReal) (ix2 (0 : Fin 1) j)
      = (W (Proc.devRef .tc main_arg9) : S128.Idx → EReal) (ix1 j) := by
  have e : (StableHlo.after hostOps0 W (Proc.devRef .tc main_v18) : S1x128.Idx → EReal)
      = fun i => shapeCast S1x128 (W (Proc.devRef .tc main_arg9) : S128.Idx → EReal) shapeCasts_S128_S1x128 i := by
    show StableHlo.after hostOps0 _ (Proc.devRef .tc main_v18) = _
    after_results
    rfl
  rw [e]
  exact shapeCast_a_1a_apply _ _ _ _

theorem host0_batch (i : Fin 100000) :
    (StableHlo.after hostOps0 W (Proc.devRef .tc main_v0) : S100000x1.Idx → BitVec 32) (ix2 i (0 : Fin 1))
      = (W (Proc.devRef .tc main_arg3) : S100000.Idx → BitVec 32) (ix1 i) := by
  have e : (StableHlo.after hostOps0 W (Proc.devRef .tc main_v0) : S100000x1.Idx → BitVec 32)
      = fun i => shapeCast S100000x1 (W (Proc.devRef .tc main_arg3) : S100000.Idx → BitVec 32) shapeCasts_S100000_S100000x1 i := by
    show StableHlo.after hostOps0 _ (Proc.devRef .tc main_v0) = _
    after_results
    rfl
  rw [e]
  exact shapeCast_a_a1_apply _ _ _ _

theorem host5_bc (c : Fin 2) :
    (StableHlo.after hostOps5 W (Proc.devRef .tc main_v116) : S1x2.Idx → EReal) (ix2 (0 : Fin 1) c)
      = (W (Proc.devRef .tc main_arg15) : S2.Idx → EReal) (ix1 c) := by
  have e : (StableHlo.after hostOps5 W (Proc.devRef .tc main_v116) : S1x2.Idx → EReal)
      = fun i => shapeCast S1x2 (W (Proc.devRef .tc main_arg15) : S2.Idx → EReal) shapeCasts_S2_S1x2 i := by
    show StableHlo.after hostOps5 _ (Proc.devRef .tc main_v116) = _
    after_results
    rfl
  rw [e]
  exact shapeCast_a_1a_apply _ _ _ _

end Cert.KernelIdeal.HandV
-- ==== Proof.KI.Agg0.lean ====
import proofs.«415659_j4501125726343_1_alg».proof.Proof.Gen.KernelIdeal.Launch
import proofs.«415659_j4501125726343_1_alg».proof.Proof.KI.HostBase
import proofs.«415659_j4501125726343_1_alg».proof.Proof.Spec
import proofs.«415659_j4501125726343_1_alg».proof.Proof.LibGraphOps
import Idealize.ShloMosaic.Lib.StableHlo.Run
import Idealize.ShloMosaic.PureOps.Ideal.Laws

set_option maxRecDepth 1412

noncomputable section

namespace Cert.KernelIdeal.HandV

open Cert.KernelIdeal Cert.KernelIdeal.Gen Idealize.ShloMosaic ValueIdx
open Idealize.ShloMosaic.StableHlo

variable (W : Valuation τ sig (Elt Ideal))

abbrev host0_srcw : S1600000.Idx → BitVec 32 :=
  select (cmpi .slt (W (Proc.devRef .tc main_arg1) : S1600000.Idx → BitVec 32)
      (broadcastInDim S1600000 ![] bcast_S_S1600000 (constantI S_ 32 0#32)))
    (addi (W (Proc.devRef .tc main_arg1) : S1600000.Idx → BitVec 32)
      (broadcastInDim S1600000 ![] bcast_S_S1600000 (constantI S_ 32 100000#32)))
    (W (Proc.devRef .tc main_arg1) : S1600000.Idx → BitVec 32)

set_option maxHeartbeats 1000000 in

theorem host0_agg_term :
    (StableHlo.after hostOps0 W (Proc.devRef .tc main_v15) : S100000x12.Idx → EReal)
      = Host.scatterAdd (F := Ideal) (φ := .f32) scatter_S100000x12_S1600000x1_S1600000x12_1_0_0_1
          (broadcastInDim S100000x12 ![] bcast_S_S100000x12 (constant (F := Ideal) S_ .f32 0x00000000#32))
          (broadcastInDim S1600000x1 ![0] bcast_S1600000_S1600000x1_0 (W (Proc.devRef .tc main_arg2) : S1600000.Idx → BitVec 32))
          (Host.gather gather_S100000x12_S1600000x1_S1600000x12_1_0_n_n_0_1_112
            (W (Proc.devRef .tc main_arg0) : S100000x12.Idx → EReal)
            (broadcastInDim S1600000x1 ![0] bcast_S1600000_S1600000x1_0 (host0_srcw W))) := by
  show StableHlo.after hostOps0 _ (Proc.devRef .tc main_v15) = _
  after_results

theorem host0_agg (i : Fin 100000) (d : Fin 12) :
    (StableHlo.after hostOps0 W (Proc.devRef .tc main_v15) : S100000x12.Idx → EReal) (ix2 i d)
      = Cert.Spec.aggK (fun i d => (W (Proc.devRef .tc main_arg0) : S100000x12.Idx → EReal) (ix2 i d))
          (fun e => (W (Proc.devRef .tc main_arg1) : S1600000.Idx → BitVec 32) (ix1 e))
          (fun e => (W (Proc.devRef .tc main_arg2) : S1600000.Idx → BitVec 32) (ix1 e)) i d := by
  rw [host0_agg_term]
  refine (GraphOps.scatterAdd_rows_col _ rfl rfl rfl rfl _ _ _ _ i d).trans ?_
  have hz : (broadcastInDim S100000x12 ![] bcast_S_S100000x12 (constant (F := Ideal) S_ .f32 0x00000000#32) : S100000x12.Idx → EReal)
      (ix2 i d) = 0 :=
    (bcastScalar_apply _ _ _).trans Ideal.ofBits_zero_f32
  rw [hz, zero_add]
  unfold Cert.Spec.aggK
  refine Finset.sum_congr rfl fun r _ => ?_
  refine if_congr Iff.rfl ?_ rfl
  refine (GraphOps.gather_rows_col _ rfl rfl rfl rfl rfl rfl rfl _ _ _ r d (by decide)).trans ?_
  exact congrArg (fun q => (W (Proc.devRef .tc main_arg0) : S100000x12.Idx → EReal) (ix2 q d))
    (GraphOps.wrap_row_at _ _ _ (ix1 r) rfl rfl)

theorem ofBits_one_f32 : Ideal.ofBits .f32 0x3F800000#32 = 1 := by
  simp [Ideal.ofBits, Ideal.ieee, -EReal.coe_mul]
  norm_num

set_option maxHeartbeats 1000000 in

theorem host0_indeg_term :
    (StableHlo.after hostOps0 W (Proc.devRef .tc main_v5) : S100000x1.Idx → EReal)
      = fun j => shapeCast S100000x1
          (Host.scatterAdd (F := Ideal) (φ := .f32) scatter_S100000_S1600000x1_S1600000_n_0_0_1
            (broadcastInDim S100000 ![] bcast_S_S100000 (constant (F := Ideal) S_ .f32 0x00000000#32))
            (broadcastInDim S1600000x1 ![0] bcast_S1600000_S1600000x1_0 (W (Proc.devRef .tc main_arg2) : S1600000.Idx → BitVec 32))
            (broadcastInDim S1600000 ![] bcast_S_S1600000 (constant (F := Ideal) S_ .f32 0x3F800000#32)))
          shapeCasts_S100000_S100000x1 j := by
  show StableHlo.after hostOps0 _ (Proc.devRef .tc main_v5) = _
  after_results
  rfl

theorem host0_indeg (i : Fin 100000) :
    (StableHlo.after hostOps0 W (Proc.devRef .tc main_v5) : S100000x1.Idx → EReal) (ix2 i (0 : Fin 1))
      = Cert.Spec.indeg (fun e => (W (Proc.devRef .tc main_arg2) : S1600000.Idx → BitVec 32) (ix1 e)) i := by
  rw [host0_indeg_term]
  refine (shapeCast_a_a1_apply _ _ _ _).trans ?_
  refine (GraphOps.scatterAdd_vec_col _ rfl rfl rfl rfl _ _ _ _ i).trans ?_
  have hz : (broadcastInDim S100000 ![] bcast_S_S100000 (constant (F := Ideal) S_ .f32 0x00000000#32) : S100000.Idx → EReal)
      (ix1 i) = 0 :=
    (bcastScalar_apply _ _ _).trans Ideal.ofBits_zero_f32
  rw [hz, zero_add]
  unfold Cert.Spec.indeg
  refine Finset.sum_congr rfl fun r _ => ?_
  refine if_congr Iff.rfl ?_ rfl
  exact (bcastScalar_apply _ _ _).trans ofBits_one_f32

end Cert.KernelIdeal.HandV
-- ==== Proof.KI.Payload.lean ====
import proofs.«415659_j4501125726343_1_alg».proof.Proof.Gen.KernelIdeal.Skeleton
import proofs.«415659_j4501125726343_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandV

open scoped BigOperators
open Cert.KernelIdeal Cert.KernelIdeal.Gen Idealize.ShloMosaic ValueIdx

theorem lhs128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem matmul128_apply {φ₁ φ₂ : FTy} (a : FVec Ideal S5000x128 φ₁) (b : FVec Ideal S128x128 φ₂) (r : Fin 5000) (j : Fin 128) :
    matmul dot_S5000x128_S128x128_S5000x128_1_0_0_1_n_n none a b (constant (F := Ideal) S5000x128 .f32 0x00000000#32) (ix2 r j)
      = ∑ k : Fin 128, a (ix2 r k) * b (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun ax => Fin.ext (by
    match ax with
    | ⟨0, _⟩ => exact lhs128_0 _ _
    | ⟨1, _⟩ => exact (lhs128_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun ax => Fin.ext (by
    match ax with
    | ⟨0, _⟩ => exact (rhs128_0 _ _).trans hk
    | ⟨1, _⟩ => exact rhs128_1 _ _)
  rw [el, er]

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem k1_pay1_apply (v0 v2 : Vec Ideal S5000x128 .f32) (v4 : Vec Ideal S5000x1 .f32) (v6 : Vec Ideal S1x128 .f32) (v14 : Vec Ideal S128x128 .f32) (v17 : Vec Ideal S1x128 .f32) (v25 : Vec Ideal S128x128 .f32) (v28 : Vec Ideal S1x128 .f32) (r : Fin 5000) (j : Fin 128) :
    k1_pay1 (F := Ideal) v0 v2 v4 v6 v14 v17 v25 v28 (ix2 r j)
      = Cert.Spec.relu ((∑ k : Fin 128, max ((∑ d : Fin 128, (v0 (ix2 r d) + v4 (ix2 r 0) * v6 (ix2 0 d) + v2 (ix2 r d)) * v14 (ix2 d k)) + v17 (ix2 0 k)) 0 * v25 (ix2 k j)) + v28 (ix2 0 j)) := by
  unfold k1_pay1
  simp only [shapeCast_self]
  rw [maximumf_apply, addf_apply, matmul128_apply, broadcastTo_1b_ab_apply, broadcast_apply]
  simp only [truncf_apply, maximumf_apply, addf_apply, mulf_apply, matmul128_apply, broadcastTo_1b_ab_apply, broadcastTo_a1_ab_apply, broadcast_apply, Ideal.ofBits_def, Ideal.ofBits_zero_f32]
  rfl

theorem k4_pay1_apply (v0 v2 : Vec Ideal S5000x128 .f32) (v4 : Vec Ideal S5000x1 .f32) (v6 : Vec Ideal S1x128 .f32) (v14 : Vec Ideal S128x128 .f32) (v17 : Vec Ideal S1x128 .f32) (v25 : Vec Ideal S128x128 .f32) (v28 : Vec Ideal S1x128 .f32) (r : Fin 5000) (j : Fin 128) :
    k4_pay1 (F := Ideal) v0 v2 v4 v6 v14 v17 v25 v28 (ix2 r j)
      = (∑ k : Fin 128, max ((∑ d : Fin 128, (v0 (ix2 r d) + v4 (ix2 r 0) * v6 (ix2 0 d) + v2 (ix2 r d)) * v14 (ix2 d k)) + v17 (ix2 0 k)) 0 * v25 (ix2 k j)) + v28 (ix2 0 j) := by
  unfold k4_pay1
  simp only [shapeCast_self]
  rw [addf_apply, matmul128_apply, broadcastTo_1b_ab_apply]
  simp only [truncf_apply, maximumf_apply, addf_apply, mulf_apply, matmul128_apply, broadcastTo_1b_ab_apply, broadcastTo_a1_ab_apply, broadcast_apply, Ideal.ofBits_def, Ideal.ofBits_zero_f32]

end Cert.KernelIdeal.HandV

end
-- ==== Proof.KI.PayloadSib.lean ====
import proofs.«415659_j4501125726343_1_alg».proof.Proof.KI.Payload

noncomputable section

namespace Cert.KernelIdeal.HandV

open scoped BigOperators
open Cert.KernelIdeal Cert.KernelIdeal.Gen Idealize.ShloMosaic ValueIdx

theorem lhs12_0 (i : S5000x128.Idx) (q : dot_S5000x12_S12x128_S5000x128_1_0_0_1_n_n.contr.Idx) :
    (dot_S5000x12_S12x128_S5000x128_1_0_0_1_n_n.lhsIdx i q 0).val = (i 0).val := by
  unfold DotDims.lhsIdx
  rw [dif_neg (show ¬(0 : Fin S5000x12.rank) ∈ dot_S5000x12_S12x128_S5000x128_1_0_0_1_n_n.lhsBatch by decide), dif_pos (show (0 : Fin S5000x12.rank) ∈ dot_S5000x12_S12x128_S5000x128_1_0_0_1_n_n.lhsNonContracting by decide)]
  rfl
theorem lhs12_1 (i : S5000x128.Idx) (q : dot_S5000x12_S12x128_S5000x128_1_0_0_1_n_n.contr.Idx) :
    (dot_S5000x12_S12x128_S5000x128_1_0_0_1_n_n.lhsIdx i q 1).val = (q ⟨0, by decide⟩).val :=
  dot_S5000x12_S12x128_S5000x128_1_0_0_1_n_n.lhsIdx_val_of_single rfl i q
theorem rhs12_0 (i : S5000x128.Idx) (q : dot_S5000x12_S12x128_S5000x128_1_0_0_1_n_n.contr.Idx) :
    (dot_S5000x12_S12x128_S5000x128_1_0_0_1_n_n.rhsIdx i q 0).val = (q ⟨0, by decide⟩).val :=
  dot_S5000x12_S12x128_S5000x128_1_0_0_1_n_n.rhsIdx_val_of_single rfl i q
theorem rhs12_1 (i : S5000x128.Idx) (q : dot_S5000x12_S12x128_S5000x128_1_0_0_1_n_n.contr.Idx) :
    (dot_S5000x12_S12x128_S5000x128_1_0_0_1_n_n.rhsIdx i q 1).val = (i 1).val := by
  unfold DotDims.rhsIdx
  rw [dif_neg (show ¬(1 : Fin S12x128.rank) ∈ dot_S5000x12_S12x128_S5000x128_1_0_0_1_n_n.rhsBatch by decide), dif_pos (show (1 : Fin S12x128.rank) ∈ dot_S5000x12_S12x128_S5000x128_1_0_0_1_n_n.rhsNonContracting by decide)]
  rfl

theorem matmul12_apply {φ₁ φ₂ : FTy} (a : FVec Ideal S5000x12 φ₁) (b : FVec Ideal S12x128 φ₂) (r : Fin 5000) (j : Fin 128) :
    matmul dot_S5000x12_S12x128_S5000x128_1_0_0_1_n_n none a b (constant (F := Ideal) S5000x128 .f32 0x00000000#32) (ix2 r j)
      = ∑ k : Fin 12, a (ix2 r k) * b (ix2 k j) := by
  simp only [matmul]
  rw [Ideal.matmul_constant_zero_apply, ← Equiv.sum_comp (contrEquiv1 dot_S5000x12_S12x128_S5000x128_1_0_0_1_n_n 12 rfl rfl).symm]
  refine Finset.sum_congr rfl fun k _ => ?_
  have hk := contrEquiv1_symm_val dot_S5000x12_S12x128_S5000x128_1_0_0_1_n_n 12 rfl rfl k
  have el : dot_S5000x12_S12x128_S5000x128_1_0_0_1_n_n.lhsIdx (ix2 r j) ((contrEquiv1 dot_S5000x12_S12x128_S5000x128_1_0_0_1_n_n 12 rfl rfl).symm k) = ix2 r k := funext fun ax => Fin.ext (by
    match ax with
    | ⟨0, _⟩ => exact lhs12_0 _ _
    | ⟨1, _⟩ => exact (lhs12_1 _ _).trans hk)
  have er : dot_S5000x12_S12x128_S5000x128_1_0_0_1_n_n.rhsIdx (ix2 r j) ((contrEquiv1 dot_S5000x12_S12x128_S5000x128_1_0_0_1_n_n 12 rfl rfl).symm k) = ix2 k j := funext fun ax => Fin.ext (by
    match ax with
    | ⟨0, _⟩ => exact (rhs12_0 _ _).trans hk
    | ⟨1, _⟩ => exact rhs12_1 _ _)
  rw [el, er]

end Cert.KernelIdeal.HandV

end
-- ==== Proof.KI.Payload0.lean ====
import proofs.«415659_j4501125726343_1_alg».proof.Proof.KI.PayloadSib

noncomputable section

namespace Cert.KernelIdeal.HandV

open scoped BigOperators
open Cert.KernelIdeal Cert.KernelIdeal.Gen Idealize.ShloMosaic ValueIdx

theorem k0_pay1_apply (v0 v2 : Vec Ideal S5000x12 .f32) (v3 : Vec Ideal S5000x1 .f32) (v5 : Vec Ideal S1x12 .f32) (v13 : Vec Ideal S12x128 .f32) (v15 : Vec Ideal S1x128 .f32) (v23 : Vec Ideal S128x128 .f32) (v25 : Vec Ideal S1x128 .f32) (r : Fin 5000) (j : Fin 128) :
    k0_pay1 (F := Ideal) v0 v2 v3 v5 v13 v15 v23 v25 (ix2 r j)
      = Cert.Spec.relu ((∑ k : Fin 128, max ((∑ d : Fin 12, (v0 (ix2 r d) + v3 (ix2 r 0) * v5 (ix2 0 d) + v2 (ix2 r d)) * v13 (ix2 d k)) + v15 (ix2 0 k)) 0 * v23 (ix2 k j)) + v25 (ix2 0 j)) := by
  unfold k0_pay1
  simp only [shapeCast_self]
  rw [maximumf_apply, addf_apply, matmul128_apply, broadcastTo_1b_ab_apply, broadcast_apply]
  simp only [truncf_apply, maximumf_apply, addf_apply, mulf_apply, matmul12_apply, broadcastTo_1b_ab_apply, broadcastTo_a1_ab_apply, broadcast_apply, Ideal.ofBits_def, Ideal.ofBits_zero_f32]
  rfl

end Cert.KernelIdeal.HandV

end
-- ==== Proof.KI.DenseVal0.lean ====
import proofs.«415659_j4501125726343_1_alg».proof.Proof.KI.Dense0
import proofs.«415659_j4501125726343_1_alg».proof.Proof.KI.Payload0
import proofs.«415659_j4501125726343_1_alg».proof.Proof.Spec
import Idealize.ShloMosaic.Lib.Pipeline.Value
import Idealize.ShloMosaic.Lib.ValueIdx

set_option maxRecDepth 16384

noncomputable section

namespace Cert.KernelIdeal.HandV

open scoped BigOperators
open Cert.KernelIdeal Cert.KernelIdeal.Gen Cert.KernelIdeal.Hand Idealize.ShloMosaic ValueIdx
open Idealize.ShloMosaic.TcCoe Idealize.SL.Sem
open Idealize.ShloMosaic.Pipeline (Dat)

variable (V : (c : Dev nD) → (b : Ref sig .tc) → Buf (Elt Ideal) ((c : Thread nD τ).loc b))

abbrev in0_0 (c : Dev nD) : S100000x12.Idx → EReal := V c (Pipeline.arrRef spec0 0)

abbrev in0_1 (c : Dev nD) : S100000x12.Idx → EReal := V c (Pipeline.arrRef spec0 1)

abbrev in0_2 (c : Dev nD) : S100000x1.Idx → EReal := V c (Pipeline.arrRef spec0 2)

abbrev in0_3 (c : Dev nD) : S1x12.Idx → EReal := V c (Pipeline.arrRef spec0 3)

abbrev in0_4 (c : Dev nD) : S12x128.Idx → EReal := V c (Pipeline.arrRef spec0 4)

abbrev in0_5 (c : Dev nD) : S1x128.Idx → EReal := V c (Pipeline.arrRef spec0 5)

abbrev in0_6 (c : Dev nD) : S128x128.Idx → EReal := V c (Pipeline.arrRef spec0 6)

abbrev in0_7 (c : Dev nD) : S1x128.Idx → EReal := V c (Pipeline.arrRef spec0 7)

abbrev layer0 (c : Dev nD) : S100000x128.Idx → EReal := fun y =>
  Cert.Spec.mlp Cert.Spec.relu (fun i d => in0_0 V c (ix2 i d) + in0_2 V c (ix2 i 0) * in0_3 V c (ix2 0 d) + in0_1 V c (ix2 i d))
    (fun d k => in0_4 V c (ix2 d k)) (fun k => in0_5 V c (ix2 0 k)) (fun k j => in0_6 V c (ix2 k j)) (fun j => in0_7 V c (ix2 0 j)) (y 0) (y 1)

theorem zeros0 : (![0, 0] : Fin 2 → Nat) = fun _ => 0 := funext fun a => by
  match a with
  | ⟨0, _⟩ => rfl
  | ⟨1, _⟩ => rfl

theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem read0_0 (c : Dev nD) (t : Fin cfg0.N) (r : Fin 5000) (d : Fin 12) (i : Fin 100000) (hi : i.val = 5000 * t.val + r.val) :
    (iblk0 V c 0 t : Vec Ideal S5000x12 .f32) (ix2 r d) = in0_0 V c (ix2 i d) := by
  obtain ⟨e0, e1, -⟩ := blockIndex0 t
  show in0_0 V c (((cfg0.win 0).blk t).view.emb (ix2 r d : S5000x12.Idx)) = in0_0 V c (ix2 i d)
  refine congrArg (in0_0 V c) (funext fun a => Fin.ext ?_)
  match a with
  | ⟨0, _⟩ => show win0_0.index t (0 : Fin 2) * 5000 + 1 * r.val = i.val; omega
  | ⟨1, _⟩ => show win0_0.index t (1 : Fin 2) * 12 + 1 * d.val = d.val; omega

theorem read0_1 (c : Dev nD) (t : Fin cfg0.N) (r : Fin 5000) (d : Fin 12) (i : Fin 100000) (hi : i.val = 5000 * t.val + r.val) :
    (iblk0 V c 1 t : Vec Ideal S5000x12 .f32) (ix2 r d) = in0_1 V c (ix2 i d) := by
  obtain ⟨-, -, e0, e1, -⟩ := blockIndex0 t
  show in0_1 V c (((cfg0.win 1).blk t).view.emb (ix2 r d : S5000x12.Idx)) = in0_1 V c (ix2 i d)
  refine congrArg (in0_1 V c) (funext fun a => Fin.ext ?_)
  match a with
  | ⟨0, _⟩ => show win0_1.index t (0 : Fin 2) * 5000 + 1 * r.val = i.val; omega
  | ⟨1, _⟩ => show win0_1.index t (1 : Fin 2) * 12 + 1 * d.val = d.val; omega

theorem read0_2 (c : Dev nD) (t : Fin cfg0.N) (r : Fin 5000) (i : Fin 100000) (hi : i.val = 5000 * t.val + r.val) :
    (iblk0 V c 2 t : Vec Ideal S5000x1 .f32) (ix2 r 0) = in0_2 V c (ix2 i 0) := by
  obtain ⟨-, -, -, -, e0, e1, -⟩ := blockIndex0 t
  show in0_2 V c (((cfg0.win 2).blk t).view.emb (ix2 r 0 : S5000x1.Idx)) = in0_2 V c (ix2 i 0)
  refine congrArg (in0_2 V c) (funext fun a => Fin.ext ?_)
  match a with
  | ⟨0, _⟩ => show win0_2.index t (0 : Fin 2) * 5000 + 1 * r.val = i.val; omega
  | ⟨1, _⟩ => show win0_2.index t (1 : Fin 2) * 1 + 1 * 0 = 0; omega

theorem read0_3 (c : Dev nD) (t : Fin cfg0.N) (d : Fin 12) :
    (iblk0 V c 3 t : Vec Ideal S1x12 .f32) (ix2 0 d) = in0_3 V c (ix2 0 d) := by
  obtain ⟨-, -, -, -, -, -, e0, e1, -⟩ := blockIndex0 t
  show in0_3 V c (((cfg0.win 3).blk t).view.emb (ix2 0 d : S1x12.Idx)) = in0_3 V c (ix2 0 d)
  refine congrArg (in0_3 V c) (funext fun a => Fin.ext ?_)
  match a with
  | ⟨0, _⟩ => show win0_3.index t (0 : Fin 2) * 1 + 1 * 0 = 0; omega
  | ⟨1, _⟩ => show win0_3.index t (1 : Fin 2) * 12 + 1 * d.val = d.val; omega

theorem read0_4 (c : Dev nD) (t : Fin cfg0.N) (d : Fin 12) (k : Fin 128) :
    (iblk0 V c 4 t : Vec Ideal S12x128 .f32) (ix2 d k) = in0_4 V c (ix2 d k) := by
  obtain ⟨-, -, -, -, -, -, -, -, e0, e1, -⟩ := blockIndex0 t
  show in0_4 V c (((cfg0.win 4).blk t).view.emb (ix2 d k : S12x128.Idx)) = in0_4 V c (ix2 d k)
  refine congrArg (in0_4 V c) (funext fun a => Fin.ext ?_)
  match a with
  | ⟨0, _⟩ => show win0_4.index t (0 : Fin 2) * 12 + 1 * d.val = d.val; omega
  | ⟨1, _⟩ => show win0_4.index t (1 : Fin 2) * 128 + 1 * k.val = k.val; omega

theorem read0_5 (c : Dev nD) (t : Fin cfg0.N) (k : Fin 128) :
    (iblk0 V c 5 t : Vec Ideal S1x128 .f32) (ix2 0 k) = in0_5 V c (ix2 0 k) := by
  obtain ⟨-, -, -, -, -, -, -, -, -, -, e0, e1, -⟩ := blockIndex0 t
  show in0_5 V c (((cfg0.win 5).blk t).view.emb (ix2 0 k : S1x128.Idx)) = in0_5 V c (ix2 0 k)
  refine congrArg (in0_5 V c) (funext fun a => Fin.ext ?_)
  match a with
  | ⟨0, _⟩ => show win0_5.index t (0 : Fin 2) * 1 + 1 * 0 = 0; omega
  | ⟨1, _⟩ => show win0_5.index t (1 : Fin 2) * 128 + 1 * k.val = k.val; omega

theorem read0_6 (c : Dev nD) (t : Fin cfg0.N) (k : Fin 128) (j : Fin 128) :
    (iblk0 V c 6 t : Vec Ideal S128x128 .f32) (ix2 k j) = in0_6 V c (ix2 k j) := by
  obtain ⟨-, -, -, -, -, -, -, -, -, -, -, -, e0, e1, -⟩ := blockIndex0 t
  show in0_6 V c (((cfg0.win 6).blk t).view.emb (ix2 k j : S128x128.Idx)) = in0_6 V c (ix2 k j)
  refine congrArg (in0_6 V c) (funext fun a => Fin.ext ?_)
  match a with
  | ⟨0, _⟩ => show win0_6.index t (0 : Fin 2) * 128 + 1 * k.val = k.val; omega
  | ⟨1, _⟩ => show win0_6.index t (1 : Fin 2) * 128 + 1 * j.val = j.val; omega

theorem read0_7 (c : Dev nD) (t : Fin cfg0.N) (j : Fin 128) :
    (iblk0 V c 7 t : Vec Ideal S1x128 .f32) (ix2 0 j) = in0_7 V c (ix2 0 j) := by
  obtain ⟨-, -, -, -, -, -, -, -, -, -, -, -, -, -, e0, e1, -⟩ := blockIndex0 t
  show in0_7 V c (((cfg0.win 7).blk t).view.emb (ix2 0 j : S1x128.Idx)) = in0_7 V c (ix2 0 j)
  refine congrArg (in0_7 V c) (funext fun a => Fin.ext ?_)
  match a with
  | ⟨0, _⟩ => show win0_7.index t (0 : Fin 2) * 1 + 1 * 0 = 0; omega
  | ⟨1, _⟩ => show win0_7.index t (1 : Fin 2) * 128 + 1 * j.val = j.val; omega

theorem rowBlock0_at (x0 : Vec Ideal S5000x12 .f32) (x1 : Vec Ideal S5000x12 .f32) (x2 : Vec Ideal S5000x1 .f32) (x3 : Vec Ideal S1x12 .f32)
    (x4 : Vec Ideal S12x128 .f32) (x5 : Vec Ideal S1x128 .f32) (x6 : Vec Ideal S128x128 .f32) (x7 : Vec Ideal S1x128 .f32)
    (a0 : S100000x12.Idx → EReal) (a1 : S100000x12.Idx → EReal) (a2 : S100000x1.Idx → EReal) (a3 : S1x12.Idx → EReal) (a4 : S12x128.Idx → EReal)
    (a5 : S1x128.Idx → EReal) (a6 : S128x128.Idx → EReal) (a7 : S1x128.Idx → EReal)
    (r : Fin 5000) (j : Fin 128) (i : Fin 100000)
    (h0 : ∀ d : Fin 12, x0 (ix2 r d) = a0 (ix2 i d)) (h1 : ∀ d : Fin 12, x1 (ix2 r d) = a1 (ix2 i d))
    (h2 : x2 (ix2 r 0) = a2 (ix2 i 0)) (h3 : ∀ d : Fin 12, x3 (ix2 0 d) = a3 (ix2 0 d))
    (h4 : ∀ (d : Fin 12) (k : Fin 128), x4 (ix2 d k) = a4 (ix2 d k)) (h5 : ∀ k : Fin 128, x5 (ix2 0 k) = a5 (ix2 0 k))
    (h6 : ∀ (k : Fin 128) (j : Fin 128), x6 (ix2 k j) = a6 (ix2 k j)) (h7 : ∀ j : Fin 128, x7 (ix2 0 j) = a7 (ix2 0 j)) :
    k0_pay1 (F := Ideal) x0 x1 x2 x3 x4 x5 x6 x7 (ix2 r j)
      = Cert.Spec.mlp Cert.Spec.relu (fun i d => a0 (ix2 i d) + a2 (ix2 i 0) * a3 (ix2 0 d) + a1 (ix2 i d))
          (fun d k => a4 (ix2 d k)) (fun k => a5 (ix2 0 k)) (fun k j => a6 (ix2 k j)) (fun j => a7 (ix2 0 j)) i j := by
  rw [k0_pay1_apply]
  unfold Cert.Spec.mlp
  simp only [h0, h1, h2, h3, h4, h5, h6, h7, id_eq]

theorem wrote0 (c : Dev nD) (t : Fin cfg0.N) :
    (dat0 (F := Ideal) V c).flushed 8 t = ((cfg0.win 8).blk t).view.read (Elt Ideal) (layer0 V c) := by
  show (cfg0.win 8).cut (grid0.coords t) ((dat0 (F := Ideal) V c).after 8 t) = _
  rw [after0_8]
  unfold out0_8
  rw [View.canon_unit_zero zeros0]
  simp only [View.ld_unit_zero (S := S5000x12) zeros0, View.ld_unit_zero (S := S5000x12) zeros0,
    View.ld_unit_zero (S := S5000x1) zeros0, View.ld_unit_zero (S := S1x12) zeros0,
    View.ld_unit_zero (S := S12x128) zeros0, View.ld_unit_zero (S := S1x128) zeros0,
    View.ld_unit_zero (S := S128x128) zeros0, View.ld_unit_zero (S := S1x128) zeros0]
  obtain ⟨-, -, -, -, -, -, -, -, -, -, -, -, -, -, -, -, e0, e1⟩ := blockIndex0 t
  have hN : cfg0.N = 20 := N_0
  refine funext fun (y : S5000x128.Idx) => ?_
  obtain ⟨r, j, rfl⟩ : ∃ (r : Fin 5000) (j : Fin 128), y = ix2 r j := ⟨y 0, y 1, eq_ix2 y⟩
  obtain ⟨i, hi⟩ : ∃ i : Fin 100000, i.val = 5000 * t.val + r.val := ⟨⟨5000 * t.val + r.val, by have := t.isLt; have := r.isLt; omega⟩, rfl⟩
  have hemb : ((cfg0.win 8).blk t).view.emb (ix2 r j : S5000x128.Idx) = (ix2 i j : S100000x128.Idx) := funext fun a => Fin.ext (by
    match a with
    | ⟨0, _⟩ => show win0_8.index t (0 : Fin 2) * 5000 + 1 * r.val = i.val; omega
    | ⟨1, _⟩ => show win0_8.index t (1 : Fin 2) * 128 + 1 * j.val = j.val; omega)
  show k0_pay1 (F := Ideal) (iblk0 V c 0 t) (iblk0 V c 1 t) (iblk0 V c 2 t) (iblk0 V c 3 t) (iblk0 V c 4 t) (iblk0 V c 5 t) (iblk0 V c 6 t) (iblk0 V c 7 t) (ix2 r j)
    = layer0 V c (((cfg0.win 8).blk t).view.emb (ix2 r j : S5000x128.Idx))
  rw [hemb]
  exact rowBlock0_at (iblk0 V c 0 t) (iblk0 V c 1 t) (iblk0 V c 2 t) (iblk0 V c 3 t) (iblk0 V c 4 t) (iblk0 V c 5 t) (iblk0 V c 6 t) (iblk0 V c 7 t)
    (in0_0 V c) (in0_1 V c) (in0_2 V c) (in0_3 V c) (in0_4 V c) (in0_5 V c) (in0_6 V c) (in0_7 V c) r j i
    (fun d => read0_0 V c t r d i hi) (fun d => read0_1 V c t r d i hi) (read0_2 V c t r i hi) (fun d => read0_3 V c t d)
    (fun d k => read0_4 V c t d k) (fun k => read0_5 V c t k) (fun k j => read0_6 V c t k j) (fun j => read0_7 V c t j)

theorem rows_mem0 (t : Fin cfg0.N) (y : S100000x128.Idx) :
    y ∈ ((cfg0.win 8).blk t).view.set ↔ ∀ a : Fin 2, win0_8.index t a * S5000x128.size a ≤ (y a).val ∧ (y a).val < win0_8.index t a * S5000x128.size a + S5000x128.size a := by
  show y ∈ ((View.whole main_v19).slice (win0_8.rect t)).set ↔ _
  rw [View.set_slice_whole, Rect.mem_set_unit]
  exact Iff.rfl

theorem rows_cover0 (y : S100000x128.Idx) :
    ∃ t : Fin cfg0.N, (cfg0.win 8).flush t = true ∧ y ∈ ((cfg0.win 8).blk t).view.set := by
  have h0 : (y 0).val < 100000 := idx2_lt0 y
  have h1 : (y 1).val < 128 := idx2_lt1 y
  have hN : cfg0.N = 20 := N_0
  obtain ⟨t, ht⟩ : ∃ t : Fin cfg0.N, t.val = (y 0).val / 5000 := ⟨⟨(y 0).val / 5000, by omega⟩, rfl⟩
  obtain ⟨-, -, -, -, -, -, -, -, -, -, -, -, -, -, -, -, e0, e1⟩ := blockIndex0 t
  refine ⟨t, flush0_8 t, ?_⟩
  rw [rows_mem0]
  intro a
  match a with
  | ⟨0, _⟩ => show win0_8.index t (0 : Fin 2) * 5000 ≤ (y 0).val ∧ (y 0).val < win0_8.index t (0 : Fin 2) * 5000 + 5000; omega
  | ⟨1, _⟩ => show win0_8.index t (1 : Fin 2) * 128 ≤ (y 1).val ∧ (y 1).val < win0_8.index t (1 : Fin 2) * 128 + 128; omega

theorem layer0_array (c : Dev nD) : (dat0 (F := Ideal) V c).arrAt 8 cfg0.N = layer0 V c :=
  (dat0 (F := Ideal) V c).arrAt_eq_of_cover 8 (layer0 V c) (fun t _ => wrote0 V c t) rows_cover0

theorem dense0_val (c : Dev nD) (i : Fin 100000) (j : Fin 128) :
    ((dat0 (F := Ideal) V c).arrAt 8 cfg0.N : S100000x128.Idx → EReal) (ix2 i j)
      = Cert.Spec.mlp Cert.Spec.relu (fun i d => in0_0 V c (ix2 i d) + in0_2 V c (ix2 i 0) * in0_3 V c (ix2 0 d) + in0_1 V c (ix2 i d))
          (fun d k => in0_4 V c (ix2 d k)) (fun k => in0_5 V c (ix2 0 k)) (fun k j => in0_6 V c (ix2 k j)) (fun j => in0_7 V c (ix2 0 j)) i j :=
  congrFun (layer0_array V c) (ix2 i j)

end Cert.KernelIdeal.HandV

end
-- ==== Proof.KI.NetLay0.lean ====
import proofs.«415659_j4501125726343_1_alg».proof.Proof.KI.NetBase
import proofs.«415659_j4501125726343_1_alg».proof.Proof.KI.Lay0
import proofs.«415659_j4501125726343_1_alg».proof.Proof.KI.Agg0
import proofs.«415659_j4501125726343_1_alg».proof.Proof.KI.DenseVal0

set_option maxRecDepth 16384

noncomputable section

namespace Cert.KernelIdeal.HandV

open Cert.KernelIdeal Cert.KernelIdeal.Gen Cert.KernelIdeal.Hand
open Idealize.ShloMosaic Idealize.ShloMosaic.TcCoe ValueIdx
open Idealize.SL Idealize.SL.Sem

variable (m : (ℓ : Loc nD τ sig) → Buf (Elt Ideal) ℓ) (ρ : Dev nD → PrngReg) (c : Dev nD)

theorem agg0 (i : Fin 100000) (d : Fin 12) :
    rd2 (a := 100000) (b := 12) (W1 m ρ c (Proc.devRef .tc main_v15)) i d
      = Cert.Spec.aggK (netX m c) (netSrc m c) (netDst m c) i d :=
  host0_agg (W0 m ρ c) i d
theorem ind0 (i : Fin 100000) :
    rd2 (a := 100000) (b := 1) (W1 m ρ c (Proc.devRef .tc main_v5)) i (0 : Fin 1) = Cert.Spec.indeg (netDst m c) i :=
  host0_indeg (W0 m ρ c) i
theorem prm0 (d : Fin 12) :
    rd2 (a := 1) (b := 12) (W1 m ρ c (Proc.devRef .tc main_v16)) (0 : Fin 1) d = (netL0 m c).p d :=
  host0_p (W0 m ρ c) d
theorem own0 (i : Fin 100000) (d : Fin 12) :
    rd2 (a := 100000) (b := 12) (W1 m ρ c (Proc.devRef .tc main_arg0)) i d = netX m c i d :=
  congrFun (arg_W1 m ρ c (r := main_arg0) (by decide)) (ix2 i d)
theorem wa0 (d : Fin 12) (k : Fin 128) :
    (W1 m ρ c (Proc.devRef .tc main_arg6) : S12x128.Idx → EReal) (ix2 d k) = (netL0 m c).W1 d k :=
  congrFun (arg_W1 m ρ c (r := main_arg6) (by decide)) (ix2 d k)
theorem ba0 (k : Fin 128) :
    (W1 m ρ c (Proc.devRef .tc main_v17) : S1x128.Idx → EReal) (ix2 (0 : Fin 1) k) = (netL0 m c).b1 k :=
  host0_b1 (W0 m ρ c) k
theorem wb0 (k j : Fin 128) :
    (W1 m ρ c (Proc.devRef .tc main_arg8) : S128x128.Idx → EReal) (ix2 k j) = (netL0 m c).W2 k j :=
  congrFun (arg_W1 m ρ c (r := main_arg8) (by decide)) (ix2 k j)
theorem bb0 (j : Fin 128) :
    (W1 m ρ c (Proc.devRef .tc main_v18) : S1x128.Idx → EReal) (ix2 (0 : Fin 1) j) = (netL0 m c).b2 j :=
  host0_b2 (W0 m ρ c) j

theorem layer0_val (i : Fin 100000) (j : Fin 128) :
    hid1 m ρ c i j
      = Cert.Spec.layerK Cert.Spec.relu (netX m c) (netL0 m c).p (netL0 m c).W1 (netL0 m c).b1 (netL0 m c).W2 (netL0 m c).b2
          (netSrc m c) (netDst m c) i j := by
  have e : (W2 m ρ c (Proc.devRef .tc main_v19) : S100000x128.Idx → EReal)
      = ((dat0 (F := Ideal) (Hand.V1 m ρ) c).arrAt 8 cfg0.N : S100000x128.Idx → EReal) := W2_arr m ρ c 8
  refine (congrFun e (ix2 i j)).trans ((dense0_val (Hand.V1 m ρ) c i j).trans ?_)
  unfold Cert.Spec.layerK
  refine mlp_congr _ (fun i d => ?_) (fun d k => ?_) (fun k => ?_) (fun k j => ?_) (fun j => ?_) i j
  · show rd2 (a := 100000) (b := 12) (W1 m ρ c (Proc.devRef .tc main_v15)) i d
        + rd2 (a := 100000) (b := 1) (W1 m ρ c (Proc.devRef .tc main_v5)) i (0 : Fin 1)
          * rd2 (a := 1) (b := 12) (W1 m ρ c (Proc.devRef .tc main_v16)) (0 : Fin 1) d
        + rd2 (a := 100000) (b := 12) (W1 m ρ c (Proc.devRef .tc main_arg0)) i d
      = Cert.Spec.aggK (netX m c) (netSrc m c) (netDst m c) i d + Cert.Spec.indeg (netDst m c) i * (netL0 m c).p d
          + netX m c i d
    rw [agg0 m ρ c i d, ind0 m ρ c i, prm0 m ρ c d, own0 m ρ c i d]
  · exact wa0 m ρ c d k
  · exact ba0 m ρ c k
  · exact wb0 m ρ c k j
  · exact bb0 m ρ c j

end Cert.KernelIdeal.HandV

end
-- ==== Proof.KI.Lay1.lean ====
import proofs.«415659_j4501125726343_1_alg».proof.Proof.Gen.KernelIdeal.Launch
import proofs.«415659_j4501125726343_1_alg».proof.Proof.KI.HostBase
import Idealize.ShloMosaic.Lib.StableHlo.Run

set_option maxRecDepth 1412

noncomputable section

namespace Cert.KernelIdeal.HandV

open Cert.KernelIdeal Cert.KernelIdeal.Gen Idealize.ShloMosaic ValueIdx
open Idealize.ShloMosaic.StableHlo

variable (W : Valuation τ sig (Elt Ideal))

theorem host1_p (d : Fin 128) :
    (StableHlo.after hostOps1 W (Proc.devRef .tc main_v40) : S1x128.Idx → EReal) (ix2 (0 : Fin 1) d)
      = (W (Proc.devRef .tc main_arg5) : S4x128.Idx → EReal) (ix2 (0 : Fin 4) d) := by
  have e : (StableHlo.after hostOps1 W (Proc.devRef .tc main_v40) : S1x128.Idx → EReal)
      = fun i => shapeCast S1x128 (fun i => shapeCast S128
          (extractStridedSlice S1x128 ![0, 0] (W (Proc.devRef .tc main_arg5) : S4x128.Idx → EReal) slices_S4x128_S1x128_0_0)
          shapeCasts_S1x128_S128 i) shapeCasts_S128_S1x128 i := by
    show StableHlo.after hostOps1 _ (Proc.devRef .tc main_v40) = _
    after_results
    rfl
  rw [e]
  refine (shapeCast_a_1a_apply _ _ _ _).trans ?_
  refine (shapeCast_1a_a_apply _ _ _).trans ?_
  exact sliceRow_apply 0 _ _ _ _ _ rfl

theorem host1_b1 (k : Fin 128) :
    (StableHlo.after hostOps1 W (Proc.devRef .tc main_v41) : S1x128.Idx → EReal) (ix2 (0 : Fin 1) k)
      = (W (Proc.devRef .tc main_arg11) : S4x128.Idx → EReal) (ix2 (0 : Fin 4) k) := by
  have e : (StableHlo.after hostOps1 W (Proc.devRef .tc main_v41) : S1x128.Idx → EReal)
      = fun i => shapeCast S1x128 (fun i => shapeCast S128
          (extractStridedSlice S1x128 ![0, 0] (W (Proc.devRef .tc main_arg11) : S4x128.Idx → EReal) slices_S4x128_S1x128_0_0)
          shapeCasts_S1x128_S128 i) shapeCasts_S128_S1x128 i := by
    show StableHlo.after hostOps1 _ (Proc.devRef .tc main_v41) = _
    after_results
    rfl
  rw [e]
  refine (shapeCast_a_1a_apply _ _ _ _).trans ?_
  refine (shapeCast_1a_a_apply _ _ _).trans ?_
  exact sliceRow_apply 0 _ _ _ _ _ rfl

theorem host1_b2 (j : Fin 128) :
    (StableHlo.after hostOps1 W (Proc.devRef .tc main_v42) : S1x128.Idx → EReal) (ix2 (0 : Fin 1) j)
      = (W (Proc.devRef .tc main_arg13) : S4x128.Idx → EReal) (ix2 (0 : Fin 4) j) := by
  have e : (StableHlo.after hostOps1 W (Proc.devRef .tc main_v42) : S1x128.Idx → EReal)
      = fun i => shapeCast S1x128 (fun i => shapeCast S128
          (extractStridedSlice S1x128 ![0, 0] (W (Proc.devRef .tc main_arg13) : S4x128.Idx → EReal) slices_S4x128_S1x128_0_0)
          shapeCasts_S1x128_S128 i) shapeCasts_S128_S1x128 i := by
    show StableHlo.after hostOps1 _ (Proc.devRef .tc main_v42) = _
    after_results
    rfl
  rw [e]
  refine (shapeCast_a_1a_apply _ _ _ _).trans ?_
  refine (shapeCast_1a_a_apply _ _ _).trans ?_
  exact sliceRow_apply 0 _ _ _ _ _ rfl

theorem host1_W1 (d k : Fin 128) :
    (StableHlo.after hostOps1 W (Proc.devRef .tc main_v33) : S128x128.Idx → EReal) (ix2 d k)
      = (W (Proc.devRef .tc main_arg10) : S4x128x128.Idx → EReal) (ix3 (0 : Fin 4) d k) := by
  have e : (StableHlo.after hostOps1 W (Proc.devRef .tc main_v33) : S128x128.Idx → EReal)
      = fun i => shapeCast S128x128
          (extractStridedSlice S1x128x128 ![0, 0, 0] (W (Proc.devRef .tc main_arg10) : S4x128x128.Idx → EReal) slices_S4x128x128_S1x128x128_0_0_0)
          shapeCasts_S1x128x128_S128x128 i := by
    show StableHlo.after hostOps1 _ (Proc.devRef .tc main_v33) = _
    after_results
    rfl
  rw [e]
  refine (shapeCast_1ab_ab_apply _ _ _ _).trans ?_
  exact sliceSlab_apply 0 _ _ _ _ _ _ rfl

theorem host1_W2 (k j : Fin 128) :
    (StableHlo.after hostOps1 W (Proc.devRef .tc main_v37) : S128x128.Idx → EReal) (ix2 k j)
      = (W (Proc.devRef .tc main_arg12) : S4x128x128.Idx → EReal) (ix3 (0 : Fin 4) k j) := by
  have e : (StableHlo.after hostOps1 W (Proc.devRef .tc main_v37) : S128x128.Idx → EReal)
      = fun i => shapeCast S128x128
          (extractStridedSlice S1x128x128 ![0, 0, 0] (W (Proc.devRef .tc main_arg12) : S4x128x128.Idx → EReal) slices_S4x128x128_S1x128x128_0_0_0)
          shapeCasts_S1x128x128_S128x128 i := by
    show StableHlo.after hostOps1 _ (Proc.devRef .tc main_v37) = _
    after_results
    rfl
  rw [e]
  refine (shapeCast_1ab_ab_apply _ _ _ _).trans ?_
  exact sliceSlab_apply 0 _ _ _ _ _ _ rfl

end Cert.KernelIdeal.HandV
-- ==== Proof.KI.Agg1.lean ====
import proofs.«415659_j4501125726343_1_alg».proof.Proof.Gen.KernelIdeal.Launch
import proofs.«415659_j4501125726343_1_alg».proof.Proof.KI.HostBase
import proofs.«415659_j4501125726343_1_alg».proof.Proof.Spec
import proofs.«415659_j4501125726343_1_alg».proof.Proof.LibGraphOps
import Idealize.ShloMosaic.Lib.StableHlo.Run
import Idealize.ShloMosaic.PureOps.Ideal.Laws

set_option maxRecDepth 1412

noncomputable section

namespace Cert.KernelIdeal.HandV

open Cert.KernelIdeal Cert.KernelIdeal.Gen Idealize.ShloMosaic ValueIdx
open Idealize.ShloMosaic.StableHlo

variable (W : Valuation τ sig (Elt Ideal))

abbrev host1_srcw : S1600000.Idx → BitVec 32 :=
  select (cmpi .slt (W (Proc.devRef .tc main_arg1) : S1600000.Idx → BitVec 32)
      (broadcastInDim S1600000 ![] bcast_S_S1600000 (constantI S_ 32 0#32)))
    (addi (W (Proc.devRef .tc main_arg1) : S1600000.Idx → BitVec 32)
      (broadcastInDim S1600000 ![] bcast_S_S1600000 (constantI S_ 32 100000#32)))
    (W (Proc.devRef .tc main_arg1) : S1600000.Idx → BitVec 32)

set_option maxHeartbeats 1000000 in

theorem host1_agg_term :
    (StableHlo.after hostOps1 W (Proc.devRef .tc main_v29) : S100000x128.Idx → EReal)
      = Host.scatterAdd (F := Ideal) (φ := .f32) scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (W (Proc.devRef .tc main_arg2) : S1600000.Idx → BitVec 32))
          (Host.gather gather_S100000x128_S1600000x1_S1600000x128_1_0_n_n_0_1_1128
            (W (Proc.devRef .tc main_v19) : S100000x128.Idx → EReal)
            (broadcastInDim S1600000x1 ![0] bcast_S1600000_S1600000x1_0 (host1_srcw W))) := by
  show StableHlo.after hostOps1 _ (Proc.devRef .tc main_v29) = _
  after_results

theorem host1_agg (i : Fin 100000) (d : Fin 128) :
    (StableHlo.after hostOps1 W (Proc.devRef .tc main_v29) : S100000x128.Idx → EReal) (ix2 i d)
      = Cert.Spec.aggK (fun i d => (W (Proc.devRef .tc main_v19) : S100000x128.Idx → EReal) (ix2 i d))
          (fun e => (W (Proc.devRef .tc main_arg1) : S1600000.Idx → BitVec 32) (ix1 e))
          (fun e => (W (Proc.devRef .tc main_arg2) : S1600000.Idx → BitVec 32) (ix1 e)) i d := by
  rw [host1_agg_term]
  refine (GraphOps.scatterAdd_rows_col _ rfl rfl rfl rfl _ _ _ _ i d).trans ?_
  have hz : (broadcastInDim S100000x128 ![] bcast_S_S100000x128 (constant (F := Ideal) S_ .f32 0x00000000#32) : S100000x128.Idx → EReal)
      (ix2 i d) = 0 :=
    (bcastScalar_apply _ _ _).trans Ideal.ofBits_zero_f32
  rw [hz, zero_add]
  unfold Cert.Spec.aggK
  refine Finset.sum_congr rfl fun r _ => ?_
  refine if_congr Iff.rfl ?_ rfl
  refine (GraphOps.gather_rows_col _ rfl rfl rfl rfl rfl rfl rfl _ _ _ r d (by decide)).trans ?_
  exact congrArg (fun q => (W (Proc.devRef .tc main_v19) : S100000x128.Idx → EReal) (ix2 q d))
    (GraphOps.wrap_row_at _ _ _ (ix1 r) rfl rfl)

end Cert.KernelIdeal.HandV
-- ==== Proof.KI.DenseVal1.lean ====
import proofs.«415659_j4501125726343_1_alg».proof.Proof.KI.Dense1
import proofs.«415659_j4501125726343_1_alg».proof.Proof.KI.Payload
import proofs.«415659_j4501125726343_1_alg».proof.Proof.Spec
import Idealize.ShloMosaic.Lib.Pipeline.Value
import Idealize.ShloMosaic.Lib.ValueIdx

set_option maxRecDepth 16384

noncomputable section

namespace Cert.KernelIdeal.HandV

open scoped BigOperators
open Cert.KernelIdeal Cert.KernelIdeal.Gen Cert.KernelIdeal.Hand Idealize.ShloMosaic ValueIdx
open Idealize.ShloMosaic.TcCoe Idealize.SL.Sem
open Idealize.ShloMosaic.Pipeline (Dat)

variable (V : (c : Dev nD) → (b : Ref sig .tc) → Buf (Elt Ideal) ((c : Thread nD τ).loc b))

abbrev in1_0 (c : Dev nD) : S100000x128.Idx → EReal := V c (Pipeline.arrRef spec1 0)

abbrev in1_1 (c : Dev nD) : S100000x128.Idx → EReal := V c (Pipeline.arrRef spec1 1)

abbrev in1_2 (c : Dev nD) : S100000x1.Idx → EReal := V c (Pipeline.arrRef spec1 2)

abbrev in1_3 (c : Dev nD) : S1x128.Idx → EReal := V c (Pipeline.arrRef spec1 3)

abbrev in1_4 (c : Dev nD) : S128x128.Idx → EReal := V c (Pipeline.arrRef spec1 4)

abbrev in1_5 (c : Dev nD) : S1x128.Idx → EReal := V c (Pipeline.arrRef spec1 5)

abbrev in1_6 (c : Dev nD) : S128x128.Idx → EReal := V c (Pipeline.arrRef spec1 6)

abbrev in1_7 (c : Dev nD) : S1x128.Idx → EReal := V c (Pipeline.arrRef spec1 7)

abbrev layer1 (c : Dev nD) : S100000x128.Idx → EReal := fun y =>
  Cert.Spec.mlp Cert.Spec.relu (fun i d => in1_0 V c (ix2 i d) + in1_2 V c (ix2 i 0) * in1_3 V c (ix2 0 d) + in1_1 V c (ix2 i d))
    (fun d k => in1_4 V c (ix2 d k)) (fun k => in1_5 V c (ix2 0 k)) (fun k j => in1_6 V c (ix2 k j)) (fun j => in1_7 V c (ix2 0 j)) (y 0) (y 1)

theorem zeros1 : (![0, 0] : Fin 2 → Nat) = fun _ => 0 := funext fun a => by
  match a with
  | ⟨0, _⟩ => rfl
  | ⟨1, _⟩ => rfl

theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

theorem read1_0 (c : Dev nD) (t : Fin cfg1.N) (r : Fin 5000) (d : Fin 128) (i : Fin 100000) (hi : i.val = 5000 * t.val + r.val) :
    (iblk1 V c 0 t : Vec Ideal S5000x128 .f32) (ix2 r d) = in1_0 V c (ix2 i d) := by
  obtain ⟨e0, e1, -⟩ := blockIndex1 t
  show in1_0 V c (((cfg1.win 0).blk t).view.emb (ix2 r d : S5000x128.Idx)) = in1_0 V c (ix2 i d)
  refine congrArg (in1_0 V c) (funext fun a => Fin.ext ?_)
  match a with
  | ⟨0, _⟩ => show win1_0.index t (0 : Fin 2) * 5000 + 1 * r.val = i.val; omega
  | ⟨1, _⟩ => show win1_0.index t (1 : Fin 2) * 128 + 1 * d.val = d.val; omega

theorem read1_1 (c : Dev nD) (t : Fin cfg1.N) (r : Fin 5000) (d : Fin 128) (i : Fin 100000) (hi : i.val = 5000 * t.val + r.val) :
    (iblk1 V c 1 t : Vec Ideal S5000x128 .f32) (ix2 r d) = in1_1 V c (ix2 i d) := by
  obtain ⟨-, -, e0, e1, -⟩ := blockIndex1 t
  show in1_1 V c (((cfg1.win 1).blk t).view.emb (ix2 r d : S5000x128.Idx)) = in1_1 V c (ix2 i d)
  refine congrArg (in1_1 V c) (funext fun a => Fin.ext ?_)
  match a with
  | ⟨0, _⟩ => show win1_1.index t (0 : Fin 2) * 5000 + 1 * r.val = i.val; omega
  | ⟨1, _⟩ => show win1_1.index t (1 : Fin 2) * 128 + 1 * d.val = d.val; omega

theorem read1_2 (c : Dev nD) (t : Fin cfg1.N) (r : Fin 5000) (i : Fin 100000) (hi : i.val = 5000 * t.val + r.val) :
    (iblk1 V c 2 t : Vec Ideal S5000x1 .f32) (ix2 r 0) = in1_2 V c (ix2 i 0) := by
  obtain ⟨-, -, -, -, e0, e1, -⟩ := blockIndex1 t
  show in1_2 V c (((cfg1.win 2).blk t).view.emb (ix2 r 0 : S5000x1.Idx)) = in1_2 V c (ix2 i 0)
  refine congrArg (in1_2 V c) (funext fun a => Fin.ext ?_)
  match a with
  | ⟨0, _⟩ => show win1_2.index t (0 : Fin 2) * 5000 + 1 * r.val = i.val; omega
  | ⟨1, _⟩ => show win1_2.index t (1 : Fin 2) * 1 + 1 * 0 = 0; omega

theorem read1_3 (c : Dev nD) (t : Fin cfg1.N) (d : Fin 128) :
    (iblk1 V c 3 t : Vec Ideal S1x128 .f32) (ix2 0 d) = in1_3 V c (ix2 0 d) := by
  obtain ⟨-, -, -, -, -, -, e0, e1, -⟩ := blockIndex1 t
  show in1_3 V c (((cfg1.win 3).blk t).view.emb (ix2 0 d : S1x128.Idx)) = in1_3 V c (ix2 0 d)
  refine congrArg (in1_3 V c) (funext fun a => Fin.ext ?_)
  match a with
  | ⟨0, _⟩ => show win1_3.index t (0 : Fin 2) * 1 + 1 * 0 = 0; omega
  | ⟨1, _⟩ => show win1_3.index t (1 : Fin 2) * 128 + 1 * d.val = d.val; omega

theorem read1_4 (c : Dev nD) (t : Fin cfg1.N) (d : Fin 128) (k : Fin 128) :
    (iblk1 V c 4 t : Vec Ideal S128x128 .f32) (ix2 d k) = in1_4 V c (ix2 d k) := by
  obtain ⟨-, -, -, -, -, -, -, -, e0, e1, -⟩ := blockIndex1 t
  show in1_4 V c (((cfg1.win 4).blk t).view.emb (ix2 d k : S128x128.Idx)) = in1_4 V c (ix2 d k)
  refine congrArg (in1_4 V c) (funext fun a => Fin.ext ?_)
  match a with
  | ⟨0, _⟩ => show win1_4.index t (0 : Fin 2) * 128 + 1 * d.val = d.val; omega
  | ⟨1, _⟩ => show win1_4.index t (1 : Fin 2) * 128 + 1 * k.val = k.val; omega

theorem read1_5 (c : Dev nD) (t : Fin cfg1.N) (k : Fin 128) :
    (iblk1 V c 5 t : Vec Ideal S1x128 .f32) (ix2 0 k) = in1_5 V c (ix2 0 k) := by
  obtain ⟨-, -, -, -, -, -, -, -, -, -, e0, e1, -⟩ := blockIndex1 t
  show in1_5 V c (((cfg1.win 5).blk t).view.emb (ix2 0 k : S1x128.Idx)) = in1_5 V c (ix2 0 k)
  refine congrArg (in1_5 V c) (funext fun a => Fin.ext ?_)
  match a with
  | ⟨0, _⟩ => show win1_5.index t (0 : Fin 2) * 1 + 1 * 0 = 0; omega
  | ⟨1, _⟩ => show win1_5.index t (1 : Fin 2) * 128 + 1 * k.val = k.val; omega

theorem read1_6 (c : Dev nD) (t : Fin cfg1.N) (k : Fin 128) (j : Fin 128) :
    (iblk1 V c 6 t : Vec Ideal S128x128 .f32) (ix2 k j) = in1_6 V c (ix2 k j) := by
  obtain ⟨-, -, -, -, -, -, -, -, -, -, -, -, e0, e1, -⟩ := blockIndex1 t
  show in1_6 V c (((cfg1.win 6).blk t).view.emb (ix2 k j : S128x128.Idx)) = in1_6 V c (ix2 k j)
  refine congrArg (in1_6 V c) (funext fun a => Fin.ext ?_)
  match a with
  | ⟨0, _⟩ => show win1_6.index t (0 : Fin 2) * 128 + 1 * k.val = k.val; omega
  | ⟨1, _⟩ => show win1_6.index t (1 : Fin 2) * 128 + 1 * j.val = j.val; omega

theorem read1_7 (c : Dev nD) (t : Fin cfg1.N) (j : Fin 128) :
    (iblk1 V c 7 t : Vec Ideal S1x128 .f32) (ix2 0 j) = in1_7 V c (ix2 0 j) := by
  obtain ⟨-, -, -, -, -, -, -, -, -, -, -, -, -, -, e0, e1, -⟩ := blockIndex1 t
  show in1_7 V c (((cfg1.win 7).blk t).view.emb (ix2 0 j : S1x128.Idx)) = in1_7 V c (ix2 0 j)
  refine congrArg (in1_7 V c) (funext fun a => Fin.ext ?_)
  match a with
  | ⟨0, _⟩ => show win1_7.index t (0 : Fin 2) * 1 + 1 * 0 = 0; omega
  | ⟨1, _⟩ => show win1_7.index t (1 : Fin 2) * 128 + 1 * j.val = j.val; omega

theorem rowBlock1_at (x0 : Vec Ideal S5000x128 .f32) (x1 : Vec Ideal S5000x128 .f32) (x2 : Vec Ideal S5000x1 .f32) (x3 : Vec Ideal S1x128 .f32)
    (x4 : Vec Ideal S128x128 .f32) (x5 : Vec Ideal S1x128 .f32) (x6 : Vec Ideal S128x128 .f32) (x7 : Vec Ideal S1x128 .f32)
    (a0 : S100000x128.Idx → EReal) (a1 : S100000x128.Idx → EReal) (a2 : S100000x1.Idx → EReal) (a3 : S1x128.Idx → EReal) (a4 : S128x128.Idx → EReal)
    (a5 : S1x128.Idx → EReal) (a6 : S128x128.Idx → EReal) (a7 : S1x128.Idx → EReal)
    (r : Fin 5000) (j : Fin 128) (i : Fin 100000)
    (h0 : ∀ d : Fin 128, x0 (ix2 r d) = a0 (ix2 i d)) (h1 : ∀ d : Fin 128, x1 (ix2 r d) = a1 (ix2 i d))
    (h2 : x2 (ix2 r 0) = a2 (ix2 i 0)) (h3 : ∀ d : Fin 128, x3 (ix2 0 d) = a3 (ix2 0 d))
    (h4 : ∀ (d : Fin 128) (k : Fin 128), x4 (ix2 d k) = a4 (ix2 d k)) (h5 : ∀ k : Fin 128, x5 (ix2 0 k) = a5 (ix2 0 k))
    (h6 : ∀ (k : Fin 128) (j : Fin 128), x6 (ix2 k j) = a6 (ix2 k j)) (h7 : ∀ j : Fin 128, x7 (ix2 0 j) = a7 (ix2 0 j)) :
    k1_pay1 (F := Ideal) x0 x1 x2 x3 x4 x5 x6 x7 (ix2 r j)
      = Cert.Spec.mlp Cert.Spec.relu (fun i d => a0 (ix2 i d) + a2 (ix2 i 0) * a3 (ix2 0 d) + a1 (ix2 i d))
          (fun d k => a4 (ix2 d k)) (fun k => a5 (ix2 0 k)) (fun k j => a6 (ix2 k j)) (fun j => a7 (ix2 0 j)) i j := by
  rw [k1_pay1_apply]
  unfold Cert.Spec.mlp
  simp only [h0, h1, h2, h3, h4, h5, h6, h7, id_eq]

theorem wrote1 (c : Dev nD) (t : Fin cfg1.N) :
    (dat1 (F := Ideal) V c).flushed 8 t = ((cfg1.win 8).blk t).view.read (Elt Ideal) (layer1 V c) := by
  show (cfg1.win 8).cut (grid1.coords t) ((dat1 (F := Ideal) V c).after 8 t) = _
  rw [after1_8]
  unfold out1_8
  rw [View.canon_unit_zero zeros1]
  simp only [View.ld_unit_zero (S := S5000x128) zeros1, View.ld_unit_zero (S := S5000x128) zeros1,
    View.ld_unit_zero (S := S5000x1) zeros1, View.ld_unit_zero (S := S1x128) zeros1,
    View.ld_unit_zero (S := S128x128) zeros1, View.ld_unit_zero (S := S1x128) zeros1,
    View.ld_unit_zero (S := S128x128) zeros1, View.ld_unit_zero (S := S1x128) zeros1]
  obtain ⟨-, -, -, -, -, -, -, -, -, -, -, -, -, -, -, -, e0, e1⟩ := blockIndex1 t
  have hN : cfg1.N = 20 := N_1
  refine funext fun (y : S5000x128.Idx) => ?_
  obtain ⟨r, j, rfl⟩ : ∃ (r : Fin 5000) (j : Fin 128), y = ix2 r j := ⟨y 0, y 1, eq_ix2 y⟩
  obtain ⟨i, hi⟩ : ∃ i : Fin 100000, i.val = 5000 * t.val + r.val := ⟨⟨5000 * t.val + r.val, by have := t.isLt; have := r.isLt; omega⟩, rfl⟩
  have hemb : ((cfg1.win 8).blk t).view.emb (ix2 r j : S5000x128.Idx) = (ix2 i j : S100000x128.Idx) := funext fun a => Fin.ext (by
    match a with
    | ⟨0, _⟩ => show win1_8.index t (0 : Fin 2) * 5000 + 1 * r.val = i.val; omega
    | ⟨1, _⟩ => show win1_8.index t (1 : Fin 2) * 128 + 1 * j.val = j.val; omega)
  show k1_pay1 (F := Ideal) (iblk1 V c 0 t) (iblk1 V c 1 t) (iblk1 V c 2 t) (iblk1 V c 3 t) (iblk1 V c 4 t) (iblk1 V c 5 t) (iblk1 V c 6 t) (iblk1 V c 7 t) (ix2 r j)
    = layer1 V c (((cfg1.win 8).blk t).view.emb (ix2 r j : S5000x128.Idx))
  rw [hemb]
  exact rowBlock1_at (iblk1 V c 0 t) (iblk1 V c 1 t) (iblk1 V c 2 t) (iblk1 V c 3 t) (iblk1 V c 4 t) (iblk1 V c 5 t) (iblk1 V c 6 t) (iblk1 V c 7 t)
    (in1_0 V c) (in1_1 V c) (in1_2 V c) (in1_3 V c) (in1_4 V c) (in1_5 V c) (in1_6 V c) (in1_7 V c) r j i
    (fun d => read1_0 V c t r d i hi) (fun d => read1_1 V c t r d i hi) (read1_2 V c t r i hi) (fun d => read1_3 V c t d)
    (fun d k => read1_4 V c t d k) (fun k => read1_5 V c t k) (fun k j => read1_6 V c t k j) (fun j => read1_7 V c t j)

theorem rows_mem1 (t : Fin cfg1.N) (y : S100000x128.Idx) :
    y ∈ ((cfg1.win 8).blk t).view.set ↔ ∀ a : Fin 2, win1_8.index t a * S5000x128.size a ≤ (y a).val ∧ (y a).val < win1_8.index t a * S5000x128.size a + S5000x128.size a := by
  show y ∈ ((View.whole main_v43).slice (win1_8.rect t)).set ↔ _
  rw [View.set_slice_whole, Rect.mem_set_unit]
  exact Iff.rfl

theorem rows_cover1 (y : S100000x128.Idx) :
    ∃ t : Fin cfg1.N, (cfg1.win 8).flush t = true ∧ y ∈ ((cfg1.win 8).blk t).view.set := by
  have h0 : (y 0).val < 100000 := idx2_lt0 y
  have h1 : (y 1).val < 128 := idx2_lt1 y
  have hN : cfg1.N = 20 := N_1
  obtain ⟨t, ht⟩ : ∃ t : Fin cfg1.N, t.val = (y 0).val / 5000 := ⟨⟨(y 0).val / 5000, by omega⟩, rfl⟩
  obtain ⟨-, -, -, -, -, -, -, -, -, -, -, -, -, -, -, -, e0, e1⟩ := blockIndex1 t
  refine ⟨t, flush1_8 t, ?_⟩
  rw [rows_mem1]
  intro a
  match a with
  | ⟨0, _⟩ => show win1_8.index t (0 : Fin 2) * 5000 ≤ (y 0).val ∧ (y 0).val < win1_8.index t (0 : Fin 2) * 5000 + 5000; omega
  | ⟨1, _⟩ => show win1_8.index t (1 : Fin 2) * 128 ≤ (y 1).val ∧ (y 1).val < win1_8.index t (1 : Fin 2) * 128 + 128; omega

/-- Row `i` lies in block `i / 5000`, and each block written back is the layer restricted to its rows. -/
theorem layer1_array (c : Dev nD) : (dat1 (F := Ideal) V c).arrAt 8 cfg1.N = layer1 V c :=
  (dat1 (F := Ideal) V c).arrAt_eq_of_cover 8 (layer1 V c) (fun t _ => wrote1 V c t) rows_cover1

theorem dense1_val (c : Dev nD) (i : Fin 100000) (j : Fin 128) :
    ((dat1 (F := Ideal) V c).arrAt 8 cfg1.N : S100000x128.Idx → EReal) (ix2 i j)
      = Cert.Spec.mlp Cert.Spec.relu (fun i d => in1_0 V c (ix2 i d) + in1_2 V c (ix2 i 0) * in1_3 V c (ix2 0 d) + in1_1 V c (ix2 i d))
          (fun d k => in1_4 V c (ix2 d k)) (fun k => in1_5 V c (ix2 0 k)) (fun k j => in1_6 V c (ix2 k j)) (fun j => in1_7 V c (ix2 0 j)) i j :=
  congrFun (layer1_array V c) (ix2 i j)

end Cert.KernelIdeal.HandV

end
-- ==== Proof.KI.NetLay1.lean ====
import proofs.«415659_j4501125726343_1_alg».proof.Proof.KI.NetBase
import proofs.«415659_j4501125726343_1_alg».proof.Proof.KI.Lay0
import proofs.«415659_j4501125726343_1_alg».proof.Proof.KI.Agg0
import proofs.«415659_j4501125726343_1_alg».proof.Proof.KI.Lay1
import proofs.«415659_j4501125726343_1_alg».proof.Proof.KI.Agg1
import proofs.«415659_j4501125726343_1_alg».proof.Proof.KI.DenseVal1

set_option maxRecDepth 16384

noncomputable section

namespace Cert.KernelIdeal.HandV

open Cert.KernelIdeal Cert.KernelIdeal.Gen Cert.KernelIdeal.Hand
open Idealize.ShloMosaic Idealize.ShloMosaic.TcCoe ValueIdx
open Idealize.SL Idealize.SL.Sem

variable (m : (ℓ : Loc nD τ sig) → Buf (Elt Ideal) ℓ) (ρ : Dev nD → PrngReg) (c : Dev nD)

theorem agg1 (i : Fin 100000) (d : Fin 128) :
    rd2 (a := 100000) (b := 128) (W3 m ρ c (Proc.devRef .tc main_v29)) i d
      = Cert.Spec.aggK (hid1 m ρ c) (netSrc m c) (netDst m c) i d := by
  refine (host1_agg (W2 m ρ c) i d).trans ?_
  rw [arg_W2 m ρ c (r := main_arg1) (by decide), arg_W2 m ρ c (r := main_arg2) (by decide)]
theorem ind1 (i : Fin 100000) :
    rd2 (a := 100000) (b := 1) (W3 m ρ c (Proc.devRef .tc main_v5)) i (0 : Fin 1) = Cert.Spec.indeg (netDst m c) i :=
  (congrFun (late_W3 m ρ c (r := main_v5) (by decide)) (ix2 i (0 : Fin 1))).trans (host0_indeg (W0 m ρ c) i)
theorem prm1 (d : Fin 128) :
    rd2 (a := 1) (b := 128) (W3 m ρ c (Proc.devRef .tc main_v40)) (0 : Fin 1) d = (netL m c 0).p d :=
  (host1_p (W2 m ρ c) d).trans (congrFun (arg_W2 m ρ c (r := main_arg5) (by decide)) (ix2 (0 : Fin 4) d))
theorem own1 (i : Fin 100000) (d : Fin 128) :
    rd2 (a := 100000) (b := 128) (W3 m ρ c (Proc.devRef .tc main_v19)) i d = hid1 m ρ c i d :=
  congrFun (StableHlo.after_of_writes_sub hostOps1 (W2 m ρ c) hostOps1_writes (by decide : main_v19 ∉ hostOps1_W)) (ix2 i d)
theorem wa1 (d : Fin 128) (k : Fin 128) :
    (W3 m ρ c (Proc.devRef .tc main_v33) : S128x128.Idx → EReal) (ix2 d k) = (netL m c 0).W1 d k :=
  (host1_W1 (W2 m ρ c) d k).trans (congrFun (arg_W2 m ρ c (r := main_arg10) (by decide)) (ix3 (0 : Fin 4) d k))
theorem ba1 (k : Fin 128) :
    (W3 m ρ c (Proc.devRef .tc main_v41) : S1x128.Idx → EReal) (ix2 (0 : Fin 1) k) = (netL m c 0).b1 k :=
  (host1_b1 (W2 m ρ c) k).trans (congrFun (arg_W2 m ρ c (r := main_arg11) (by decide)) (ix2 (0 : Fin 4) k))
theorem wb1 (k j : Fin 128) :
    (W3 m ρ c (Proc.devRef .tc main_v37) : S128x128.Idx → EReal) (ix2 k j) = (netL m c 0).W2 k j :=
  (host1_W2 (W2 m ρ c) k j).trans (congrFun (arg_W2 m ρ c (r := main_arg12) (by decide)) (ix3 (0 : Fin 4) k j))
theorem bb1 (j : Fin 128) :
    (W3 m ρ c (Proc.devRef .tc main_v42) : S1x128.Idx → EReal) (ix2 (0 : Fin 1) j) = (netL m c 0).b2 j :=
  (host1_b2 (W2 m ρ c) j).trans (congrFun (arg_W2 m ρ c (r := main_arg13) (by decide)) (ix2 (0 : Fin 4) j))

theorem layer1_val (i : Fin 100000) (j : Fin 128) :
    hid2 m ρ c i j
      = Cert.Spec.layerK Cert.Spec.relu (hid1 m ρ c) (netL m c 0).p (netL m c 0).W1 (netL m c 0).b1 (netL m c 0).W2 (netL m c 0).b2
          (netSrc m c) (netDst m c) i j := by
  have e : (W4 m ρ c (Proc.devRef .tc main_v43) : S100000x128.Idx → EReal)
      = ((dat1 (F := Ideal) (Hand.V3 m ρ) c).arrAt 8 cfg1.N : S100000x128.Idx → EReal) := W4_arr m ρ c 8
  refine (congrFun e (ix2 i j)).trans ((dense1_val (Hand.V3 m ρ) c i j).trans ?_)
  unfold Cert.Spec.layerK
  refine mlp_congr _ (fun i d => ?_) (fun d k => ?_) (fun k => ?_) (fun k j => ?_) (fun j => ?_) i j
  · show rd2 (a := 100000) (b := 128) (W3 m ρ c (Proc.devRef .tc main_v29)) i d
        + rd2 (a := 100000) (b := 1) (W3 m ρ c (Proc.devRef .tc main_v5)) i (0 : Fin 1)
          * rd2 (a := 1) (b := 128) (W3 m ρ c (Proc.devRef .tc main_v40)) (0 : Fin 1) d
        + rd2 (a := 100000) (b := 128) (W3 m ρ c (Proc.devRef .tc main_v19)) i d
      = Cert.Spec.aggK (hid1 m ρ c) (netSrc m c) (netDst m c) i d + Cert.Spec.indeg (netDst m c) i * (netL m c 0).p d
          + hid1 m ρ c i d
    rw [agg1 m ρ c i d, ind1 m ρ c i, prm1 m ρ c d, own1 m ρ c i d]
  · exact wa1 m ρ c d k
  · exact ba1 m ρ c k
  · exact wb1 m ρ c k j
  · exact bb1 m ρ c j

end Cert.KernelIdeal.HandV

end
-- ==== Proof.KI.Lay2.lean ====
import proofs.«415659_j4501125726343_1_alg».proof.Proof.Gen.KernelIdeal.Launch
import proofs.«415659_j4501125726343_1_alg».proof.Proof.KI.HostBase
import Idealize.ShloMosaic.Lib.StableHlo.Run

set_option maxRecDepth 1412

noncomputable section

namespace Cert.KernelIdeal.HandV

open Cert.KernelIdeal Cert.KernelIdeal.Gen Idealize.ShloMosaic ValueIdx
open Idealize.ShloMosaic.StableHlo

variable (W : Valuation τ sig (Elt Ideal))

theorem host2_p (d : Fin 128) :
    (StableHlo.after hostOps2 W (Proc.devRef .tc main_v64) : S1x128.Idx → EReal) (ix2 (0 : Fin 1) d)
      = (W (Proc.devRef .tc main_arg5) : S4x128.Idx → EReal) (ix2 (1 : Fin 4) d) := by
  have e : (StableHlo.after hostOps2 W (Proc.devRef .tc main_v64) : S1x128.Idx → EReal)
      = fun i => shapeCast S1x128 (fun i => shapeCast S128
          (extractStridedSlice S1x128 ![1, 0] (W (Proc.devRef .tc main_arg5) : S4x128.Idx → EReal) slices_S4x128_S1x128_1_0)
          shapeCasts_S1x128_S128 i) shapeCasts_S128_S1x128 i := by
    show StableHlo.after hostOps2 _ (Proc.devRef .tc main_v64) = _
    after_results
    rfl
  rw [e]
  refine (shapeCast_a_1a_apply _ _ _ _).trans ?_
  refine (shapeCast_1a_a_apply _ _ _).trans ?_
  exact sliceRow_apply 1 _ _ _ _ _ rfl

theorem host2_b1 (k : Fin 128) :
    (StableHlo.after hostOps2 W (Proc.devRef .tc main_v65) : S1x128.Idx → EReal) (ix2 (0 : Fin 1) k)
      = (W (Proc.devRef .tc main_arg11) : S4x128.Idx → EReal) (ix2 (1 : Fin 4) k) := by
  have e : (StableHlo.after hostOps2 W (Proc.devRef .tc main_v65) : S1x128.Idx → EReal)
      = fun i => shapeCast S1x128 (fun i => shapeCast S128
          (extractStridedSlice S1x128 ![1, 0] (W (Proc.devRef .tc main_arg11) : S4x128.Idx → EReal) slices_S4x128_S1x128_1_0)
          shapeCasts_S1x128_S128 i) shapeCasts_S128_S1x128 i := by
    show StableHlo.after hostOps2 _ (Proc.devRef .tc main_v65) = _
    after_results
    rfl
  rw [e]
  refine (shapeCast_a_1a_apply _ _ _ _).trans ?_
  refine (shapeCast_1a_a_apply _ _ _).trans ?_
  exact sliceRow_apply 1 _ _ _ _ _ rfl

theorem host2_b2 (j : Fin 128) :
    (StableHlo.after hostOps2 W (Proc.devRef .tc main_v66) : S1x128.Idx → EReal) (ix2 (0 : Fin 1) j)
      = (W (Proc.devRef .tc main_arg13) : S4x128.Idx → EReal) (ix2 (1 : Fin 4) j) := by
  have e : (StableHlo.after hostOps2 W (Proc.devRef .tc main_v66) : S1x128.Idx → EReal)
      = fun i => shapeCast S1x128 (fun i => shapeCast S128
          (extractStridedSlice S1x128 ![1, 0] (W (Proc.devRef .tc main_arg13) : S4x128.Idx → EReal) slices_S4x128_S1x128_1_0)
          shapeCasts_S1x128_S128 i) shapeCasts_S128_S1x128 i := by
    show StableHlo.after hostOps2 _ (Proc.devRef .tc main_v66) = _
    after_results
    rfl
  rw [e]
  refine (shapeCast_a_1a_apply _ _ _ _).trans ?_
  refine (shapeCast_1a_a_apply _ _ _).trans ?_
  exact sliceRow_apply 1 _ _ _ _ _ rfl

theorem host2_W1 (d k : Fin 128) :
    (StableHlo.after hostOps2 W (Proc.devRef .tc main_v57) : S128x128.Idx → EReal) (ix2 d k)
      = (W (Proc.devRef .tc main_arg10) : S4x128x128.Idx → EReal) (ix3 (1 : Fin 4) d k) := by
  have e : (StableHlo.after hostOps2 W (Proc.devRef .tc main_v57) : S128x128.Idx → EReal)
      = fun i => shapeCast S128x128
          (extractStridedSlice S1x128x128 ![1, 0, 0] (W (Proc.devRef .tc main_arg10) : S4x128x128.Idx → EReal) slices_S4x128x128_S1x128x128_1_0_0)
          shapeCasts_S1x128x128_S128x128 i := by
    show StableHlo.after hostOps2 _ (Proc.devRef .tc main_v57) = _
    after_results
    rfl
  rw [e]
  refine (shapeCast_1ab_ab_apply _ _ _ _).trans ?_
  exact sliceSlab_apply 1 _ _ _ _ _ _ rfl

theorem host2_W2 (k j : Fin 128) :
    (StableHlo.after hostOps2 W (Proc.devRef .tc main_v61) : S128x128.Idx → EReal) (ix2 k j)
      = (W (Proc.devRef .tc main_arg12) : S4x128x128.Idx → EReal) (ix3 (1 : Fin 4) k j) := by
  have e : (StableHlo.after hostOps2 W (Proc.devRef .tc main_v61) : S128x128.Idx → EReal)
      = fun i => shapeCast S128x128
          (extractStridedSlice S1x128x128 ![1, 0, 0] (W (Proc.devRef .tc main_arg12) : S4x128x128.Idx → EReal) slices_S4x128x128_S1x128x128_1_0_0)
          shapeCasts_S1x128x128_S128x128 i := by
    show StableHlo.after hostOps2 _ (Proc.devRef .tc main_v61) = _
    after_results
    rfl
  rw [e]
  refine (shapeCast_1ab_ab_apply _ _ _ _).trans ?_
  exact sliceSlab_apply 1 _ _ _ _ _ _ rfl

end Cert.KernelIdeal.HandV
-- ==== Proof.KI.Agg2.lean ====
import proofs.«415659_j4501125726343_1_alg».proof.Proof.Gen.KernelIdeal.Launch
import proofs.«415659_j4501125726343_1_alg».proof.Proof.KI.HostBase
import proofs.«415659_j4501125726343_1_alg».proof.Proof.Spec
import proofs.«415659_j4501125726343_1_alg».proof.Proof.LibGraphOps
import Idealize.ShloMosaic.Lib.StableHlo.Run
import Idealize.ShloMosaic.PureOps.Ideal.Laws

set_option maxRecDepth 1412

noncomputable section

namespace Cert.KernelIdeal.HandV

open Cert.KernelIdeal Cert.KernelIdeal.Gen Idealize.ShloMosaic ValueIdx
open Idealize.ShloMosaic.StableHlo

variable (W : Valuation τ sig (Elt Ideal))

abbrev host2_srcw : S1600000.Idx → BitVec 32 :=
  select (cmpi .slt (W (Proc.devRef .tc main_arg1) : S1600000.Idx → BitVec 32)
      (broadcastInDim S1600000 ![] bcast_S_S1600000 (constantI S_ 32 0#32)))
    (addi (W (Proc.devRef .tc main_arg1) : S1600000.Idx → BitVec 32)
      (broadcastInDim S1600000 ![] bcast_S_S1600000 (constantI S_ 32 100000#32)))
    (W (Proc.devRef .tc main_arg1) : S1600000.Idx → BitVec 32)

set_option maxHeartbeats 1000000 in

theorem host2_agg_term :
    (StableHlo.after hostOps2 W (Proc.devRef .tc main_v53) : S100000x128.Idx → EReal)
      = Host.scatterAdd (F := Ideal) (φ := .f32) scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (W (Proc.devRef .tc main_arg2) : S1600000.Idx → BitVec 32))
          (Host.gather gather_S100000x128_S1600000x1_S1600000x128_1_0_n_n_0_1_1128
            (W (Proc.devRef .tc main_v43) : S100000x128.Idx → EReal)
            (broadcastInDim S1600000x1 ![0] bcast_S1600000_S1600000x1_0 (host2_srcw W))) := by
  show StableHlo.after hostOps2 _ (Proc.devRef .tc main_v53) = _
  after_results

theorem host2_agg (i : Fin 100000) (d : Fin 128) :
    (StableHlo.after hostOps2 W (Proc.devRef .tc main_v53) : S100000x128.Idx → EReal) (ix2 i d)
      = Cert.Spec.aggK (fun i d => (W (Proc.devRef .tc main_v43) : S100000x128.Idx → EReal) (ix2 i d))
          (fun e => (W (Proc.devRef .tc main_arg1) : S1600000.Idx → BitVec 32) (ix1 e))
          (fun e => (W (Proc.devRef .tc main_arg2) : S1600000.Idx → BitVec 32) (ix1 e)) i d := by
  rw [host2_agg_term]
  refine (GraphOps.scatterAdd_rows_col _ rfl rfl rfl rfl _ _ _ _ i d).trans ?_
  have hz : (broadcastInDim S100000x128 ![] bcast_S_S100000x128 (constant (F := Ideal) S_ .f32 0x00000000#32) : S100000x128.Idx → EReal)
      (ix2 i d) = 0 :=
    (bcastScalar_apply _ _ _).trans Ideal.ofBits_zero_f32
  rw [hz, zero_add]
  unfold Cert.Spec.aggK
  refine Finset.sum_congr rfl fun r _ => ?_
  refine if_congr Iff.rfl ?_ rfl
  refine (GraphOps.gather_rows_col _ rfl rfl rfl rfl rfl rfl rfl _ _ _ r d (by decide)).trans ?_
  exact congrArg (fun q => (W (Proc.devRef .tc main_v43) : S100000x128.Idx → EReal) (ix2 q d))
    (GraphOps.wrap_row_at _ _ _ (ix1 r) rfl rfl)

end Cert.KernelIdeal.HandV
-- ==== Proof.KI.DenseVal2.lean ====
import proofs.«415659_j4501125726343_1_alg».proof.Proof.KI.Dense2
import proofs.«415659_j4501125726343_1_alg».proof.Proof.KI.DenseVal1
import proofs.«415659_j4501125726343_1_alg».proof.Proof.Spec
import Idealize.ShloMosaic.Lib.Pipeline.Value
import Idealize.ShloMosaic.Lib.ValueIdx

set_option maxRecDepth 16384

noncomputable section

namespace Cert.KernelIdeal.HandV

open scoped BigOperators
open Cert.KernelIdeal Cert.KernelIdeal.Gen Cert.KernelIdeal.Hand Idealize.ShloMosaic ValueIdx
open Idealize.ShloMosaic.TcCoe Idealize.SL.Sem
open Idealize.ShloMosaic.Pipeline (Dat)

variable (V : (c : Dev nD) → (b : Ref sig .tc) → Buf (Elt Ideal) ((c : Thread nD τ).loc b))

abbrev in2_0 (c : Dev nD) : S100000x128.Idx → EReal := V c (Pipeline.arrRef spec2 0)

abbrev in2_1 (c : Dev nD) : S100000x128.Idx → EReal := V c (Pipeline.arrRef spec2 1)

abbrev in2_2 (c : Dev nD) : S100000x1.Idx → EReal := V c (Pipeline.arrRef spec2 2)

abbrev in2_3 (c : Dev nD) : S1x128.Idx → EReal := V c (Pipeline.arrRef spec2 3)

abbrev in2_4 (c : Dev nD) : S128x128.Idx → EReal := V c (Pipeline.arrRef spec2 4)

abbrev in2_5 (c : Dev nD) : S1x128.Idx → EReal := V c (Pipeline.arrRef spec2 5)

abbrev in2_6 (c : Dev nD) : S128x128.Idx → EReal := V c (Pipeline.arrRef spec2 6)

abbrev in2_7 (c : Dev nD) : S1x128.Idx → EReal := V c (Pipeline.arrRef spec2 7)

abbrev layer2 (c : Dev nD) : S100000x128.Idx → EReal := fun y =>
  Cert.Spec.mlp Cert.Spec.relu (fun i d => in2_0 V c (ix2 i d) + in2_2 V c (ix2 i 0) * in2_3 V c (ix2 0 d) + in2_1 V c (ix2 i d))
    (fun d k => in2_4 V c (ix2 d k)) (fun k => in2_5 V c (ix2 0 k)) (fun k j => in2_6 V c (ix2 k j)) (fun j => in2_7 V c (ix2 0 j)) (y 0) (y 1)

theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

theorem read2_0 (c : Dev nD) (t : Fin cfg2.N) (r : Fin 5000) (d : Fin 128) (i : Fin 100000) (hi : i.val = 5000 * t.val + r.val) :
    (iblk2 V c 0 t : Vec Ideal S5000x128 .f32) (ix2 r d) = in2_0 V c (ix2 i d) := by
  obtain ⟨e0, e1, -⟩ := blockIndex2 t
  show in2_0 V c (((cfg2.win 0).blk t).view.emb (ix2 r d : S5000x128.Idx)) = in2_0 V c (ix2 i d)
  refine congrArg (in2_0 V c) (funext fun a => Fin.ext ?_)
  match a with
  | ⟨0, _⟩ => show win2_0.index t (0 : Fin 2) * 5000 + 1 * r.val = i.val; omega
  | ⟨1, _⟩ => show win2_0.index t (1 : Fin 2) * 128 + 1 * d.val = d.val; omega

theorem read2_1 (c : Dev nD) (t : Fin cfg2.N) (r : Fin 5000) (d : Fin 128) (i : Fin 100000) (hi : i.val = 5000 * t.val + r.val) :
    (iblk2 V c 1 t : Vec Ideal S5000x128 .f32) (ix2 r d) = in2_1 V c (ix2 i d) := by
  obtain ⟨-, -, e0, e1, -⟩ := blockIndex2 t
  show in2_1 V c (((cfg2.win 1).blk t).view.emb (ix2 r d : S5000x128.Idx)) = in2_1 V c (ix2 i d)
  refine congrArg (in2_1 V c) (funext fun a => Fin.ext ?_)
  match a with
  | ⟨0, _⟩ => show win2_1.index t (0 : Fin 2) * 5000 + 1 * r.val = i.val; omega
  | ⟨1, _⟩ => show win2_1.index t (1 : Fin 2) * 128 + 1 * d.val = d.val; omega

theorem read2_2 (c : Dev nD) (t : Fin cfg2.N) (r : Fin 5000) (i : Fin 100000) (hi : i.val = 5000 * t.val + r.val) :
    (iblk2 V c 2 t : Vec Ideal S5000x1 .f32) (ix2 r 0) = in2_2 V c (ix2 i 0) := by
  obtain ⟨-, -, -, -, e0, e1, -⟩ := blockIndex2 t
  show in2_2 V c (((cfg2.win 2).blk t).view.emb (ix2 r 0 : S5000x1.Idx)) = in2_2 V c (ix2 i 0)
  refine congrArg (in2_2 V c) (funext fun a => Fin.ext ?_)
  match a with
  | ⟨0, _⟩ => show win2_2.index t (0 : Fin 2) * 5000 + 1 * r.val = i.val; omega
  | ⟨1, _⟩ => show win2_2.index t (1 : Fin 2) * 1 + 1 * 0 = 0; omega

theorem read2_3 (c : Dev nD) (t : Fin cfg2.N) (d : Fin 128) :
    (iblk2 V c 3 t : Vec Ideal S1x128 .f32) (ix2 0 d) = in2_3 V c (ix2 0 d) := by
  obtain ⟨-, -, -, -, -, -, e0, e1, -⟩ := blockIndex2 t
  show in2_3 V c (((cfg2.win 3).blk t).view.emb (ix2 0 d : S1x128.Idx)) = in2_3 V c (ix2 0 d)
  refine congrArg (in2_3 V c) (funext fun a => Fin.ext ?_)
  match a with
  | ⟨0, _⟩ => show win2_3.index t (0 : Fin 2) * 1 + 1 * 0 = 0; omega
  | ⟨1, _⟩ => show win2_3.index t (1 : Fin 2) * 128 + 1 * d.val = d.val; omega

theorem read2_4 (c : Dev nD) (t : Fin cfg2.N) (d : Fin 128) (k : Fin 128) :
    (iblk2 V c 4 t : Vec Ideal S128x128 .f32) (ix2 d k) = in2_4 V c (ix2 d k) := by
  obtain ⟨-, -, -, -, -, -, -, -, e0, e1, -⟩ := blockIndex2 t
  show in2_4 V c (((cfg2.win 4).blk t).view.emb (ix2 d k : S128x128.Idx)) = in2_4 V c (ix2 d k)
  refine congrArg (in2_4 V c) (funext fun a => Fin.ext ?_)
  match a with
  | ⟨0, _⟩ => show win2_4.index t (0 : Fin 2) * 128 + 1 * d.val = d.val; omega
  | ⟨1, _⟩ => show win2_4.index t (1 : Fin 2) * 128 + 1 * k.val = k.val; omega

theorem read2_5 (c : Dev nD) (t : Fin cfg2.N) (k : Fin 128) :
    (iblk2 V c 5 t : Vec Ideal S1x128 .f32) (ix2 0 k) = in2_5 V c (ix2 0 k) := by
  obtain ⟨-, -, -, -, -, -, -, -, -, -, e0, e1, -⟩ := blockIndex2 t
  show in2_5 V c (((cfg2.win 5).blk t).view.emb (ix2 0 k : S1x128.Idx)) = in2_5 V c (ix2 0 k)
  refine congrArg (in2_5 V c) (funext fun a => Fin.ext ?_)
  match a with
  | ⟨0, _⟩ => show win2_5.index t (0 : Fin 2) * 1 + 1 * 0 = 0; omega
  | ⟨1, _⟩ => show win2_5.index t (1 : Fin 2) * 128 + 1 * k.val = k.val; omega

theorem read2_6 (c : Dev nD) (t : Fin cfg2.N) (k : Fin 128) (j : Fin 128) :
    (iblk2 V c 6 t : Vec Ideal S128x128 .f32) (ix2 k j) = in2_6 V c (ix2 k j) := by
  obtain ⟨-, -, -, -, -, -, -, -, -, -, -, -, e0, e1, -⟩ := blockIndex2 t
  show in2_6 V c (((cfg2.win 6).blk t).view.emb (ix2 k j : S128x128.Idx)) = in2_6 V c (ix2 k j)
  refine congrArg (in2_6 V c) (funext fun a => Fin.ext ?_)
  match a with
  | ⟨0, _⟩ => show win2_6.index t (0 : Fin 2) * 128 + 1 * k.val = k.val; omega
  | ⟨1, _⟩ => show win2_6.index t (1 : Fin 2) * 128 + 1 * j.val = j.val; omega

theorem read2_7 (c : Dev nD) (t : Fin cfg2.N) (j : Fin 128) :
    (iblk2 V c 7 t : Vec Ideal S1x128 .f32) (ix2 0 j) = in2_7 V c (ix2 0 j) := by
  obtain ⟨-, -, -, -, -, -, -, -, -, -, -, -, -, -, e0, e1, -⟩ := blockIndex2 t
  show in2_7 V c (((cfg2.win 7).blk t).view.emb (ix2 0 j : S1x128.Idx)) = in2_7 V c (ix2 0 j)
  refine congrArg (in2_7 V c) (funext fun a => Fin.ext ?_)
  match a with
  | ⟨0, _⟩ => show win2_7.index t (0 : Fin 2) * 1 + 1 * 0 = 0; omega
  | ⟨1, _⟩ => show win2_7.index t (1 : Fin 2) * 128 + 1 * j.val = j.val; omega

theorem wrote2 (c : Dev nD) (t : Fin cfg2.N) :
    (dat2 (F := Ideal) V c).flushed 8 t = ((cfg2.win 8).blk t).view.read (Elt Ideal) (layer2 V c) := by
  show (cfg2.win 8).cut (grid2.coords t) ((dat2 (F := Ideal) V c).after 8 t) = _
  rw [after2_8]
  unfold out1_8
  rw [View.canon_unit_zero zeros1]
  simp only [View.ld_unit_zero (S := S5000x128) zeros1, View.ld_unit_zero (S := S5000x128) zeros1,
    View.ld_unit_zero (S := S5000x1) zeros1, View.ld_unit_zero (S := S1x128) zeros1,
    View.ld_unit_zero (S := S128x128) zeros1, View.ld_unit_zero (S := S1x128) zeros1,
    View.ld_unit_zero (S := S128x128) zeros1, View.ld_unit_zero (S := S1x128) zeros1]
  obtain ⟨-, -, -, -, -, -, -, -, -, -, -, -, -, -, -, -, e0, e1⟩ := blockIndex2 t
  have hN : cfg2.N = 20 := N_2
  refine funext fun (y : S5000x128.Idx) => ?_
  obtain ⟨r, j, rfl⟩ : ∃ (r : Fin 5000) (j : Fin 128), y = ix2 r j := ⟨y 0, y 1, eq_ix2 y⟩
  obtain ⟨i, hi⟩ : ∃ i : Fin 100000, i.val = 5000 * t.val + r.val := ⟨⟨5000 * t.val + r.val, by have := t.isLt; have := r.isLt; omega⟩, rfl⟩
  have hemb : ((cfg2.win 8).blk t).view.emb (ix2 r j : S5000x128.Idx) = (ix2 i j : S100000x128.Idx) := funext fun a => Fin.ext (by
    match a with
    | ⟨0, _⟩ => show win2_8.index t (0 : Fin 2) * 5000 + 1 * r.val = i.val; omega
    | ⟨1, _⟩ => show win2_8.index t (1 : Fin 2) * 128 + 1 * j.val = j.val; omega)
  show k1_pay1 (F := Ideal) (iblk2 V c 0 t) (iblk2 V c 1 t) (iblk2 V c 2 t) (iblk2 V c 3 t) (iblk2 V c 4 t) (iblk2 V c 5 t) (iblk2 V c 6 t) (iblk2 V c 7 t) (ix2 r j)
    = layer2 V c (((cfg2.win 8).blk t).view.emb (ix2 r j : S5000x128.Idx))
  rw [hemb]
  exact rowBlock1_at (iblk2 V c 0 t) (iblk2 V c 1 t) (iblk2 V c 2 t) (iblk2 V c 3 t) (iblk2 V c 4 t) (iblk2 V c 5 t) (iblk2 V c 6 t) (iblk2 V c 7 t)
    (in2_0 V c) (in2_1 V c) (in2_2 V c) (in2_3 V c) (in2_4 V c) (in2_5 V c) (in2_6 V c) (in2_7 V c) r j i
    (fun d => read2_0 V c t r d i hi) (fun d => read2_1 V c t r d i hi) (read2_2 V c t r i hi) (fun d => read2_3 V c t d)
    (fun d k => read2_4 V c t d k) (fun k => read2_5 V c t k) (fun k j => read2_6 V c t k j) (fun j => read2_7 V c t j)

theorem rows_mem2 (t : Fin cfg2.N) (y : S100000x128.Idx) :
    y ∈ ((cfg2.win 8).blk t).view.set ↔ ∀ a : Fin 2, win2_8.index t a * S5000x128.size a ≤ (y a).val ∧ (y a).val < win2_8.index t a * S5000x128.size a + S5000x128.size a := by
  show y ∈ ((View.whole main_v67).slice (win2_8.rect t)).set ↔ _
  rw [View.set_slice_whole, Rect.mem_set_unit]
  exact Iff.rfl

theorem rows_cover2 (y : S100000x128.Idx) :
    ∃ t : Fin cfg2.N, (cfg2.win 8).flush t = true ∧ y ∈ ((cfg2.win 8).blk t).view.set := by
  have h0 : (y 0).val < 100000 := idx2_lt0 y
  have h1 : (y 1).val < 128 := idx2_lt1 y
  have hN : cfg2.N = 20 := N_2
  obtain ⟨t, ht⟩ : ∃ t : Fin cfg2.N, t.val = (y 0).val / 5000 := ⟨⟨(y 0).val / 5000, by omega⟩, rfl⟩
  obtain ⟨-, -, -, -, -, -, -, -, -, -, -, -, -, -, -, -, e0, e1⟩ := blockIndex2 t
  refine ⟨t, flush2_8 t, ?_⟩
  rw [rows_mem2]
  intro a
  match a with
  | ⟨0, _⟩ => show win2_8.index t (0 : Fin 2) * 5000 ≤ (y 0).val ∧ (y 0).val < win2_8.index t (0 : Fin 2) * 5000 + 5000; omega
  | ⟨1, _⟩ => show win2_8.index t (1 : Fin 2) * 128 ≤ (y 1).val ∧ (y 1).val < win2_8.index t (1 : Fin 2) * 128 + 128; omega

theorem layer2_array (c : Dev nD) : (dat2 (F := Ideal) V c).arrAt 8 cfg2.N = layer2 V c :=
  (dat2 (F := Ideal) V c).arrAt_eq_of_cover 8 (layer2 V c) (fun t _ => wrote2 V c t) rows_cover2

theorem dense2_val (c : Dev nD) (i : Fin 100000) (j : Fin 128) :
    ((dat2 (F := Ideal) V c).arrAt 8 cfg2.N : S100000x128.Idx → EReal) (ix2 i j)
      = Cert.Spec.mlp Cert.Spec.relu (fun i d => in2_0 V c (ix2 i d) + in2_2 V c (ix2 i 0) * in2_3 V c (ix2 0 d) + in2_1 V c (ix2 i d))
          (fun d k => in2_4 V c (ix2 d k)) (fun k => in2_5 V c (ix2 0 k)) (fun k j => in2_6 V c (ix2 k j)) (fun j => in2_7 V c (ix2 0 j)) i j :=
  congrFun (layer2_array V c) (ix2 i j)

end Cert.KernelIdeal.HandV

end
-- ==== Proof.KI.NetLay2.lean ====
import proofs.«415659_j4501125726343_1_alg».proof.Proof.KI.NetBase
import proofs.«415659_j4501125726343_1_alg».proof.Proof.KI.Lay0
import proofs.«415659_j4501125726343_1_alg».proof.Proof.KI.Agg0
import proofs.«415659_j4501125726343_1_alg».proof.Proof.KI.Lay2
import proofs.«415659_j4501125726343_1_alg».proof.Proof.KI.Agg2
import proofs.«415659_j4501125726343_1_alg».proof.Proof.KI.DenseVal2

set_option maxRecDepth 16384

noncomputable section

namespace Cert.KernelIdeal.HandV

open Cert.KernelIdeal Cert.KernelIdeal.Gen Cert.KernelIdeal.Hand
open Idealize.ShloMosaic Idealize.ShloMosaic.TcCoe ValueIdx
open Idealize.SL Idealize.SL.Sem

variable (m : (ℓ : Loc nD τ sig) → Buf (Elt Ideal) ℓ) (ρ : Dev nD → PrngReg) (c : Dev nD)

theorem agg2 (i : Fin 100000) (d : Fin 128) :
    rd2 (a := 100000) (b := 128) (W5 m ρ c (Proc.devRef .tc main_v53)) i d
      = Cert.Spec.aggK (hid2 m ρ c) (netSrc m c) (netDst m c) i d := by
  refine (host2_agg (W4 m ρ c) i d).trans ?_
  rw [arg_W4 m ρ c (r := main_arg1) (by decide), arg_W4 m ρ c (r := main_arg2) (by decide)]
theorem ind2 (i : Fin 100000) :
    rd2 (a := 100000) (b := 1) (W5 m ρ c (Proc.devRef .tc main_v5)) i (0 : Fin 1) = Cert.Spec.indeg (netDst m c) i :=
  (congrFun (late_W5 m ρ c (r := main_v5) (by decide)) (ix2 i (0 : Fin 1))).trans (host0_indeg (W0 m ρ c) i)
theorem prm2 (d : Fin 128) :
    rd2 (a := 1) (b := 128) (W5 m ρ c (Proc.devRef .tc main_v64)) (0 : Fin 1) d = (netL m c 1).p d :=
  (host2_p (W4 m ρ c) d).trans (congrFun (arg_W4 m ρ c (r := main_arg5) (by decide)) (ix2 (1 : Fin 4) d))
theorem own2 (i : Fin 100000) (d : Fin 128) :
    rd2 (a := 100000) (b := 128) (W5 m ρ c (Proc.devRef .tc main_v43)) i d = hid2 m ρ c i d :=
  congrFun (StableHlo.after_of_writes_sub hostOps2 (W4 m ρ c) hostOps2_writes (by decide : main_v43 ∉ hostOps2_W)) (ix2 i d)
theorem wa2 (d : Fin 128) (k : Fin 128) :
    (W5 m ρ c (Proc.devRef .tc main_v57) : S128x128.Idx → EReal) (ix2 d k) = (netL m c 1).W1 d k :=
  (host2_W1 (W4 m ρ c) d k).trans (congrFun (arg_W4 m ρ c (r := main_arg10) (by decide)) (ix3 (1 : Fin 4) d k))
theorem ba2 (k : Fin 128) :
    (W5 m ρ c (Proc.devRef .tc main_v65) : S1x128.Idx → EReal) (ix2 (0 : Fin 1) k) = (netL m c 1).b1 k :=
  (host2_b1 (W4 m ρ c) k).trans (congrFun (arg_W4 m ρ c (r := main_arg11) (by decide)) (ix2 (1 : Fin 4) k))
theorem wb2 (k j : Fin 128) :
    (W5 m ρ c (Proc.devRef .tc main_v61) : S128x128.Idx → EReal) (ix2 k j) = (netL m c 1).W2 k j :=
  (host2_W2 (W4 m ρ c) k j).trans (congrFun (arg_W4 m ρ c (r := main_arg12) (by decide)) (ix3 (1 : Fin 4) k j))
theorem bb2 (j : Fin 128) :
    (W5 m ρ c (Proc.devRef .tc main_v66) : S1x128.Idx → EReal) (ix2 (0 : Fin 1) j) = (netL m c 1).b2 j :=
  (host2_b2 (W4 m ρ c) j).trans (congrFun (arg_W4 m ρ c (r := main_arg13) (by decide)) (ix2 (1 : Fin 4) j))

theorem layer2_val (i : Fin 100000) (j : Fin 128) :
    hid3 m ρ c i j
      = Cert.Spec.layerK Cert.Spec.relu (hid2 m ρ c) (netL m c 1).p (netL m c 1).W1 (netL m c 1).b1 (netL m c 1).W2 (netL m c 1).b2
          (netSrc m c) (netDst m c) i j := by
  have e : (W6 m ρ c (Proc.devRef .tc main_v67) : S100000x128.Idx → EReal)
      = ((dat2 (F := Ideal) (Hand.V5 m ρ) c).arrAt 8 cfg2.N : S100000x128.Idx → EReal) := W6_arr m ρ c 8
  refine (congrFun e (ix2 i j)).trans ((dense2_val (Hand.V5 m ρ) c i j).trans ?_)
  unfold Cert.Spec.layerK
  refine mlp_congr _ (fun i d => ?_) (fun d k => ?_) (fun k => ?_) (fun k j => ?_) (fun j => ?_) i j
  · show rd2 (a := 100000) (b := 128) (W5 m ρ c (Proc.devRef .tc main_v53)) i d
        + rd2 (a := 100000) (b := 1) (W5 m ρ c (Proc.devRef .tc main_v5)) i (0 : Fin 1)
          * rd2 (a := 1) (b := 128) (W5 m ρ c (Proc.devRef .tc main_v64)) (0 : Fin 1) d
        + rd2 (a := 100000) (b := 128) (W5 m ρ c (Proc.devRef .tc main_v43)) i d
      = Cert.Spec.aggK (hid2 m ρ c) (netSrc m c) (netDst m c) i d + Cert.Spec.indeg (netDst m c) i * (netL m c 1).p d
          + hid2 m ρ c i d
    rw [agg2 m ρ c i d, ind2 m ρ c i, prm2 m ρ c d, own2 m ρ c i d]
  · exact wa2 m ρ c d k
  · exact ba2 m ρ c k
  · exact wb2 m ρ c k j
  · exact bb2 m ρ c j

end Cert.KernelIdeal.HandV

end
-- ==== Proof.KI.Lay3.lean ====
import proofs.«415659_j4501125726343_1_alg».proof.Proof.Gen.KernelIdeal.Launch
import proofs.«415659_j4501125726343_1_alg».proof.Proof.KI.HostBase
import Idealize.ShloMosaic.Lib.StableHlo.Run

set_option maxRecDepth 1412

noncomputable section

namespace Cert.KernelIdeal.HandV

open Cert.KernelIdeal Cert.KernelIdeal.Gen Idealize.ShloMosaic ValueIdx
open Idealize.ShloMosaic.StableHlo

variable (W : Valuation τ sig (Elt Ideal))

theorem host3_p (d : Fin 128) :
    (StableHlo.after hostOps3 W (Proc.devRef .tc main_v88) : S1x128.Idx → EReal) (ix2 (0 : Fin 1) d)
      = (W (Proc.devRef .tc main_arg5) : S4x128.Idx → EReal) (ix2 (2 : Fin 4) d) := by
  have e : (StableHlo.after hostOps3 W (Proc.devRef .tc main_v88) : S1x128.Idx → EReal)
      = fun i => shapeCast S1x128 (fun i => shapeCast S128
          (extractStridedSlice S1x128 ![2, 0] (W (Proc.devRef .tc main_arg5) : S4x128.Idx → EReal) slices_S4x128_S1x128_2_0)
          shapeCasts_S1x128_S128 i) shapeCasts_S128_S1x128 i := by
    show StableHlo.after hostOps3 _ (Proc.devRef .tc main_v88) = _
    after_results
    rfl
  rw [e]
  refine (shapeCast_a_1a_apply _ _ _ _).trans ?_
  refine (shapeCast_1a_a_apply _ _ _).trans ?_
  exact sliceRow_apply 2 _ _ _ _ _ rfl

theorem host3_b1 (k : Fin 128) :
    (StableHlo.after hostOps3 W (Proc.devRef .tc main_v89) : S1x128.Idx → EReal) (ix2 (0 : Fin 1) k)
      = (W (Proc.devRef .tc main_arg11) : S4x128.Idx → EReal) (ix2 (2 : Fin 4) k) := by
  have e : (StableHlo.after hostOps3 W (Proc.devRef .tc main_v89) : S1x128.Idx → EReal)
      = fun i => shapeCast S1x128 (fun i => shapeCast S128
          (extractStridedSlice S1x128 ![2, 0] (W (Proc.devRef .tc main_arg11) : S4x128.Idx → EReal) slices_S4x128_S1x128_2_0)
          shapeCasts_S1x128_S128 i) shapeCasts_S128_S1x128 i := by
    show StableHlo.after hostOps3 _ (Proc.devRef .tc main_v89) = _
    after_results
    rfl
  rw [e]
  refine (shapeCast_a_1a_apply _ _ _ _).trans ?_
  refine (shapeCast_1a_a_apply _ _ _).trans ?_
  exact sliceRow_apply 2 _ _ _ _ _ rfl

theorem host3_b2 (j : Fin 128) :
    (StableHlo.after hostOps3 W (Proc.devRef .tc main_v90) : S1x128.Idx → EReal) (ix2 (0 : Fin 1) j)
      = (W (Proc.devRef .tc main_arg13) : S4x128.Idx → EReal) (ix2 (2 : Fin 4) j) := by
  have e : (StableHlo.after hostOps3 W (Proc.devRef .tc main_v90) : S1x128.Idx → EReal)
      = fun i => shapeCast S1x128 (fun i => shapeCast S128
          (extractStridedSlice S1x128 ![2, 0] (W (Proc.devRef .tc main_arg13) : S4x128.Idx → EReal) slices_S4x128_S1x128_2_0)
          shapeCasts_S1x128_S128 i) shapeCasts_S128_S1x128 i := by
    show StableHlo.after hostOps3 _ (Proc.devRef .tc main_v90) = _
    after_results
    rfl
  rw [e]
  refine (shapeCast_a_1a_apply _ _ _ _).trans ?_
  refine (shapeCast_1a_a_apply _ _ _).trans ?_
  exact sliceRow_apply 2 _ _ _ _ _ rfl

theorem host3_W1 (d k : Fin 128) :
    (StableHlo.after hostOps3 W (Proc.devRef .tc main_v81) : S128x128.Idx → EReal) (ix2 d k)
      = (W (Proc.devRef .tc main_arg10) : S4x128x128.Idx → EReal) (ix3 (2 : Fin 4) d k) := by
  have e : (StableHlo.after hostOps3 W (Proc.devRef .tc main_v81) : S128x128.Idx → EReal)
      = fun i => shapeCast S128x128
          (extractStridedSlice S1x128x128 ![2, 0, 0] (W (Proc.devRef .tc main_arg10) : S4x128x128.Idx → EReal) slices_S4x128x128_S1x128x128_2_0_0)
          shapeCasts_S1x128x128_S128x128 i := by
    show StableHlo.after hostOps3 _ (Proc.devRef .tc main_v81) = _
    after_results
    rfl
  rw [e]
  refine (shapeCast_1ab_ab_apply _ _ _ _).trans ?_
  exact sliceSlab_apply 2 _ _ _ _ _ _ rfl

theorem host3_W2 (k j : Fin 128) :
    (StableHlo.after hostOps3 W (Proc.devRef .tc main_v85) : S128x128.Idx → EReal) (ix2 k j)
      = (W (Proc.devRef .tc main_arg12) : S4x128x128.Idx → EReal) (ix3 (2 : Fin 4) k j) := by
  have e : (StableHlo.after hostOps3 W (Proc.devRef .tc main_v85) : S128x128.Idx → EReal)
      = fun i => shapeCast S128x128
          (extractStridedSlice S1x128x128 ![2, 0, 0] (W (Proc.devRef .tc main_arg12) : S4x128x128.Idx → EReal) slices_S4x128x128_S1x128x128_2_0_0)
          shapeCasts_S1x128x128_S128x128 i := by
    show StableHlo.after hostOps3 _ (Proc.devRef .tc main_v85) = _
    after_results
    rfl
  rw [e]
  refine (shapeCast_1ab_ab_apply _ _ _ _).trans ?_
  exact sliceSlab_apply 2 _ _ _ _ _ _ rfl

end Cert.KernelIdeal.HandV
-- ==== Proof.KI.Agg3.lean ====
import proofs.«415659_j4501125726343_1_alg».proof.Proof.Gen.KernelIdeal.Launch
import proofs.«415659_j4501125726343_1_alg».proof.Proof.KI.HostBase
import proofs.«415659_j4501125726343_1_alg».proof.Proof.Spec
import proofs.«415659_j4501125726343_1_alg».proof.Proof.LibGraphOps
import Idealize.ShloMosaic.Lib.StableHlo.Run
import Idealize.ShloMosaic.PureOps.Ideal.Laws

set_option maxRecDepth 1412

noncomputable section

namespace Cert.KernelIdeal.HandV

open Cert.KernelIdeal Cert.KernelIdeal.Gen Idealize.ShloMosaic ValueIdx
open Idealize.ShloMosaic.StableHlo

variable (W : Valuation τ sig (Elt Ideal))

abbrev host3_srcw : S1600000.Idx → BitVec 32 :=
  select (cmpi .slt (W (Proc.devRef .tc main_arg1) : S1600000.Idx → BitVec 32)
      (broadcastInDim S1600000 ![] bcast_S_S1600000 (constantI S_ 32 0#32)))
    (addi (W (Proc.devRef .tc main_arg1) : S1600000.Idx → BitVec 32)
      (broadcastInDim S1600000 ![] bcast_S_S1600000 (constantI S_ 32 100000#32)))
    (W (Proc.devRef .tc main_arg1) : S1600000.Idx → BitVec 32)

set_option maxHeartbeats 1000000 in

theorem host3_agg_term :
    (StableHlo.after hostOps3 W (Proc.devRef .tc main_v77) : S100000x128.Idx → EReal)
      = Host.scatterAdd (F := Ideal) (φ := .f32) scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (W (Proc.devRef .tc main_arg2) : S1600000.Idx → BitVec 32))
          (Host.gather gather_S100000x128_S1600000x1_S1600000x128_1_0_n_n_0_1_1128
            (W (Proc.devRef .tc main_v67) : S100000x128.Idx → EReal)
            (broadcastInDim S1600000x1 ![0] bcast_S1600000_S1600000x1_0 (host3_srcw W))) := by
  show StableHlo.after hostOps3 _ (Proc.devRef .tc main_v77) = _
  after_results

theorem host3_agg (i : Fin 100000) (d : Fin 128) :
    (StableHlo.after hostOps3 W (Proc.devRef .tc main_v77) : S100000x128.Idx → EReal) (ix2 i d)
      = Cert.Spec.aggK (fun i d => (W (Proc.devRef .tc main_v67) : S100000x128.Idx → EReal) (ix2 i d))
          (fun e => (W (Proc.devRef .tc main_arg1) : S1600000.Idx → BitVec 32) (ix1 e))
          (fun e => (W (Proc.devRef .tc main_arg2) : S1600000.Idx → BitVec 32) (ix1 e)) i d := by
  rw [host3_agg_term]
  refine (GraphOps.scatterAdd_rows_col _ rfl rfl rfl rfl _ _ _ _ i d).trans ?_
  have hz : (broadcastInDim S100000x128 ![] bcast_S_S100000x128 (constant (F := Ideal) S_ .f32 0x00000000#32) : S100000x128.Idx → EReal)
      (ix2 i d) = 0 :=
    (bcastScalar_apply _ _ _).trans Ideal.ofBits_zero_f32
  rw [hz, zero_add]
  unfold Cert.Spec.aggK
  refine Finset.sum_congr rfl fun r _ => ?_
  refine if_congr Iff.rfl ?_ rfl
  refine (GraphOps.gather_rows_col _ rfl rfl rfl rfl rfl rfl rfl _ _ _ r d (by decide)).trans ?_
  exact congrArg (fun q => (W (Proc.devRef .tc main_v67) : S100000x128.Idx → EReal) (ix2 q d))
    (GraphOps.wrap_row_at _ _ _ (ix1 r) rfl rfl)

end Cert.KernelIdeal.HandV
-- ==== Proof.KI.DenseVal3.lean ====
import proofs.«415659_j4501125726343_1_alg».proof.Proof.KI.Dense3
import proofs.«415659_j4501125726343_1_alg».proof.Proof.KI.DenseVal1
import proofs.«415659_j4501125726343_1_alg».proof.Proof.Spec
import Idealize.ShloMosaic.Lib.Pipeline.Value
import Idealize.ShloMosaic.Lib.ValueIdx

set_option maxRecDepth 16384

noncomputable section

namespace Cert.KernelIdeal.HandV

open scoped BigOperators
open Cert.KernelIdeal Cert.KernelIdeal.Gen Cert.KernelIdeal.Hand Idealize.ShloMosaic ValueIdx
open Idealize.ShloMosaic.TcCoe Idealize.SL.Sem
open Idealize.ShloMosaic.Pipeline (Dat)

variable (V : (c : Dev nD) → (b : Ref sig .tc) → Buf (Elt Ideal) ((c : Thread nD τ).loc b))

abbrev in3_0 (c : Dev nD) : S100000x128.Idx → EReal := V c (Pipeline.arrRef spec3 0)

abbrev in3_1 (c : Dev nD) : S100000x128.Idx → EReal := V c (Pipeline.arrRef spec3 1)

abbrev in3_2 (c : Dev nD) : S100000x1.Idx → EReal := V c (Pipeline.arrRef spec3 2)

abbrev in3_3 (c : Dev nD) : S1x128.Idx → EReal := V c (Pipeline.arrRef spec3 3)

abbrev in3_4 (c : Dev nD) : S128x128.Idx → EReal := V c (Pipeline.arrRef spec3 4)

abbrev in3_5 (c : Dev nD) : S1x128.Idx → EReal := V c (Pipeline.arrRef spec3 5)

abbrev in3_6 (c : Dev nD) : S128x128.Idx → EReal := V c (Pipeline.arrRef spec3 6)

abbrev in3_7 (c : Dev nD) : S1x128.Idx → EReal := V c (Pipeline.arrRef spec3 7)

abbrev layer3 (c : Dev nD) : S100000x128.Idx → EReal := fun y =>
  Cert.Spec.mlp Cert.Spec.relu (fun i d => in3_0 V c (ix2 i d) + in3_2 V c (ix2 i 0) * in3_3 V c (ix2 0 d) + in3_1 V c (ix2 i d))
    (fun d k => in3_4 V c (ix2 d k)) (fun k => in3_5 V c (ix2 0 k)) (fun k j => in3_6 V c (ix2 k j)) (fun j => in3_7 V c (ix2 0 j)) (y 0) (y 1)

theorem blockIndex3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

theorem read3_0 (c : Dev nD) (t : Fin cfg3.N) (r : Fin 5000) (d : Fin 128) (i : Fin 100000) (hi : i.val = 5000 * t.val + r.val) :
    (iblk3 V c 0 t : Vec Ideal S5000x128 .f32) (ix2 r d) = in3_0 V c (ix2 i d) := by
  obtain ⟨e0, e1, -⟩ := blockIndex3 t
  show in3_0 V c (((cfg3.win 0).blk t).view.emb (ix2 r d : S5000x128.Idx)) = in3_0 V c (ix2 i d)
  refine congrArg (in3_0 V c) (funext fun a => Fin.ext ?_)
  match a with
  | ⟨0, _⟩ => show win3_0.index t (0 : Fin 2) * 5000 + 1 * r.val = i.val; omega
  | ⟨1, _⟩ => show win3_0.index t (1 : Fin 2) * 128 + 1 * d.val = d.val; omega

theorem read3_1 (c : Dev nD) (t : Fin cfg3.N) (r : Fin 5000) (d : Fin 128) (i : Fin 100000) (hi : i.val = 5000 * t.val + r.val) :
    (iblk3 V c 1 t : Vec Ideal S5000x128 .f32) (ix2 r d) = in3_1 V c (ix2 i d) := by
  obtain ⟨-, -, e0, e1, -⟩ := blockIndex3 t
  show in3_1 V c (((cfg3.win 1).blk t).view.emb (ix2 r d : S5000x128.Idx)) = in3_1 V c (ix2 i d)
  refine congrArg (in3_1 V c) (funext fun a => Fin.ext ?_)
  match a with
  | ⟨0, _⟩ => show win3_1.index t (0 : Fin 2) * 5000 + 1 * r.val = i.val; omega
  | ⟨1, _⟩ => show win3_1.index t (1 : Fin 2) * 128 + 1 * d.val = d.val; omega

theorem read3_2 (c : Dev nD) (t : Fin cfg3.N) (r : Fin 5000) (i : Fin 100000) (hi : i.val = 5000 * t.val + r.val) :
    (iblk3 V c 2 t : Vec Ideal S5000x1 .f32) (ix2 r 0) = in3_2 V c (ix2 i 0) := by
  obtain ⟨-, -, -, -, e0, e1, -⟩ := blockIndex3 t
  show in3_2 V c (((cfg3.win 2).blk t).view.emb (ix2 r 0 : S5000x1.Idx)) = in3_2 V c (ix2 i 0)
  refine congrArg (in3_2 V c) (funext fun a => Fin.ext ?_)
  match a with
  | ⟨0, _⟩ => show win3_2.index t (0 : Fin 2) * 5000 + 1 * r.val = i.val; omega
  | ⟨1, _⟩ => show win3_2.index t (1 : Fin 2) * 1 + 1 * 0 = 0; omega

theorem read3_3 (c : Dev nD) (t : Fin cfg3.N) (d : Fin 128) :
    (iblk3 V c 3 t : Vec Ideal S1x128 .f32) (ix2 0 d) = in3_3 V c (ix2 0 d) := by
  obtain ⟨-, -, -, -, -, -, e0, e1, -⟩ := blockIndex3 t
  show in3_3 V c (((cfg3.win 3).blk t).view.emb (ix2 0 d : S1x128.Idx)) = in3_3 V c (ix2 0 d)
  refine congrArg (in3_3 V c) (funext fun a => Fin.ext ?_)
  match a with
  | ⟨0, _⟩ => show win3_3.index t (0 : Fin 2) * 1 + 1 * 0 = 0; omega
  | ⟨1, _⟩ => show win3_3.index t (1 : Fin 2) * 128 + 1 * d.val = d.val; omega

theorem read3_4 (c : Dev nD) (t : Fin cfg3.N) (d : Fin 128) (k : Fin 128) :
    (iblk3 V c 4 t : Vec Ideal S128x128 .f32) (ix2 d k) = in3_4 V c (ix2 d k) := by
  obtain ⟨-, -, -, -, -, -, -, -, e0, e1, -⟩ := blockIndex3 t
  show in3_4 V c (((cfg3.win 4).blk t).view.emb (ix2 d k : S128x128.Idx)) = in3_4 V c (ix2 d k)
  refine congrArg (in3_4 V c) (funext fun a => Fin.ext ?_)
  match a with
  | ⟨0, _⟩ => show win3_4.index t (0 : Fin 2) * 128 + 1 * d.val = d.val; omega
  | ⟨1, _⟩ => show win3_4.index t (1 : Fin 2) * 128 + 1 * k.val = k.val; omega

theorem read3_5 (c : Dev nD) (t : Fin cfg3.N) (k : Fin 128) :
    (iblk3 V c 5 t : Vec Ideal S1x128 .f32) (ix2 0 k) = in3_5 V c (ix2 0 k) := by
  obtain ⟨-, -, -, -, -, -, -, -, -, -, e0, e1, -⟩ := blockIndex3 t
  show in3_5 V c (((cfg3.win 5).blk t).view.emb (ix2 0 k : S1x128.Idx)) = in3_5 V c (ix2 0 k)
  refine congrArg (in3_5 V c) (funext fun a => Fin.ext ?_)
  match a with
  | ⟨0, _⟩ => show win3_5.index t (0 : Fin 2) * 1 + 1 * 0 = 0; omega
  | ⟨1, _⟩ => show win3_5.index t (1 : Fin 2) * 128 + 1 * k.val = k.val; omega

theorem read3_6 (c : Dev nD) (t : Fin cfg3.N) (k : Fin 128) (j : Fin 128) :
    (iblk3 V c 6 t : Vec Ideal S128x128 .f32) (ix2 k j) = in3_6 V c (ix2 k j) := by
  obtain ⟨-, -, -, -, -, -, -, -, -, -, -, -, e0, e1, -⟩ := blockIndex3 t
  show in3_6 V c (((cfg3.win 6).blk t).view.emb (ix2 k j : S128x128.Idx)) = in3_6 V c (ix2 k j)
  refine congrArg (in3_6 V c) (funext fun a => Fin.ext ?_)
  match a with
  | ⟨0, _⟩ => show win3_6.index t (0 : Fin 2) * 128 + 1 * k.val = k.val; omega
  | ⟨1, _⟩ => show win3_6.index t (1 : Fin 2) * 128 + 1 * j.val = j.val; omega

theorem read3_7 (c : Dev nD) (t : Fin cfg3.N) (j : Fin 128) :
    (iblk3 V c 7 t : Vec Ideal S1x128 .f32) (ix2 0 j) = in3_7 V c (ix2 0 j) := by
  obtain ⟨-, -, -, -, -, -, -, -, -, -, -, -, -, -, e0, e1, -⟩ := blockIndex3 t
  show in3_7 V c (((cfg3.win 7).blk t).view.emb (ix2 0 j : S1x128.Idx)) = in3_7 V c (ix2 0 j)
  refine congrArg (in3_7 V c) (funext fun a => Fin.ext ?_)
  match a with
  | ⟨0, _⟩ => show win3_7.index t (0 : Fin 2) * 1 + 1 * 0 = 0; omega
  | ⟨1, _⟩ => show win3_7.index t (1 : Fin 2) * 128 + 1 * j.val = j.val; omega

theorem wrote3 (c : Dev nD) (t : Fin cfg3.N) :
    (dat3 (F := Ideal) V c).flushed 8 t = ((cfg3.win 8).blk t).view.read (Elt Ideal) (layer3 V c) := by
  show (cfg3.win 8).cut (grid3.coords t) ((dat3 (F := Ideal) V c).after 8 t) = _
  rw [after3_8]
  unfold out1_8
  rw [View.canon_unit_zero zeros1]
  simp only [View.ld_unit_zero (S := S5000x128) zeros1, View.ld_unit_zero (S := S5000x128) zeros1,
    View.ld_unit_zero (S := S5000x1) zeros1, View.ld_unit_zero (S := S1x128) zeros1,
    View.ld_unit_zero (S := S128x128) zeros1, View.ld_unit_zero (S := S1x128) zeros1,
    View.ld_unit_zero (S := S128x128) zeros1, View.ld_unit_zero (S := S1x128) zeros1]
  obtain ⟨-, -, -, -, -, -, -, -, -, -, -, -, -, -, -, -, e0, e1⟩ := blockIndex3 t
  have hN : cfg3.N = 20 := N_3
  refine funext fun (y : S5000x128.Idx) => ?_
  obtain ⟨r, j, rfl⟩ : ∃ (r : Fin 5000) (j : Fin 128), y = ix2 r j := ⟨y 0, y 1, eq_ix2 y⟩
  obtain ⟨i, hi⟩ : ∃ i : Fin 100000, i.val = 5000 * t.val + r.val := ⟨⟨5000 * t.val + r.val, by have := t.isLt; have := r.isLt; omega⟩, rfl⟩
  have hemb : ((cfg3.win 8).blk t).view.emb (ix2 r j : S5000x128.Idx) = (ix2 i j : S100000x128.Idx) := funext fun a => Fin.ext (by
    match a with
    | ⟨0, _⟩ => show win3_8.index t (0 : Fin 2) * 5000 + 1 * r.val = i.val; omega
    | ⟨1, _⟩ => show win3_8.index t (1 : Fin 2) * 128 + 1 * j.val = j.val; omega)
  show k1_pay1 (F := Ideal) (iblk3 V c 0 t) (iblk3 V c 1 t) (iblk3 V c 2 t) (iblk3 V c 3 t) (iblk3 V c 4 t) (iblk3 V c 5 t) (iblk3 V c 6 t) (iblk3 V c 7 t) (ix2 r j)
    = layer3 V c (((cfg3.win 8).blk t).view.emb (ix2 r j : S5000x128.Idx))
  rw [hemb]
  exact rowBlock1_at (iblk3 V c 0 t) (iblk3 V c 1 t) (iblk3 V c 2 t) (iblk3 V c 3 t) (iblk3 V c 4 t) (iblk3 V c 5 t) (iblk3 V c 6 t) (iblk3 V c 7 t)
    (in3_0 V c) (in3_1 V c) (in3_2 V c) (in3_3 V c) (in3_4 V c) (in3_5 V c) (in3_6 V c) (in3_7 V c) r j i
    (fun d => read3_0 V c t r d i hi) (fun d => read3_1 V c t r d i hi) (read3_2 V c t r i hi) (fun d => read3_3 V c t d)
    (fun d k => read3_4 V c t d k) (fun k => read3_5 V c t k) (fun k j => read3_6 V c t k j) (fun j => read3_7 V c t j)

theorem rows_mem3 (t : Fin cfg3.N) (y : S100000x128.Idx) :
    y ∈ ((cfg3.win 8).blk t).view.set ↔ ∀ a : Fin 2, win3_8.index t a * S5000x128.size a ≤ (y a).val ∧ (y a).val < win3_8.index t a * S5000x128.size a + S5000x128.size a := by
  show y ∈ ((View.whole main_v91).slice (win3_8.rect t)).set ↔ _
  rw [View.set_slice_whole, Rect.mem_set_unit]
  exact Iff.rfl

theorem rows_cover3 (y : S100000x128.Idx) :
    ∃ t : Fin cfg3.N, (cfg3.win 8).flush t = true ∧ y ∈ ((cfg3.win 8).blk t).view.set := by
  have h0 : (y 0).val < 100000 := idx2_lt0 y
  have h1 : (y 1).val < 128 := idx2_lt1 y
  have hN : cfg3.N = 20 := N_3
  obtain ⟨t, ht⟩ : ∃ t : Fin cfg3.N, t.val = (y 0).val / 5000 := ⟨⟨(y 0).val / 5000, by omega⟩, rfl⟩
  obtain ⟨-, -, -, -, -, -, -, -, -, -, -, -, -, -, -, -, e0, e1⟩ := blockIndex3 t
  refine ⟨t, flush3_8 t, ?_⟩
  rw [rows_mem3]
  intro a
  match a with
  | ⟨0, _⟩ => show win3_8.index t (0 : Fin 2) * 5000 ≤ (y 0).val ∧ (y 0).val < win3_8.index t (0 : Fin 2) * 5000 + 5000; omega
  | ⟨1, _⟩ => show win3_8.index t (1 : Fin 2) * 128 ≤ (y 1).val ∧ (y 1).val < win3_8.index t (1 : Fin 2) * 128 + 128; omega

theorem layer3_array (c : Dev nD) : (dat3 (F := Ideal) V c).arrAt 8 cfg3.N = layer3 V c :=
  (dat3 (F := Ideal) V c).arrAt_eq_of_cover 8 (layer3 V c) (fun t _ => wrote3 V c t) rows_cover3

theorem dense3_val (c : Dev nD) (i : Fin 100000) (j : Fin 128) :
    ((dat3 (F := Ideal) V c).arrAt 8 cfg3.N : S100000x128.Idx → EReal) (ix2 i j)
      = Cert.Spec.mlp Cert.Spec.relu (fun i d => in3_0 V c (ix2 i d) + in3_2 V c (ix2 i 0) * in3_3 V c (ix2 0 d) + in3_1 V c (ix2 i d))
          (fun d k => in3_4 V c (ix2 d k)) (fun k => in3_5 V c (ix2 0 k)) (fun k j => in3_6 V c (ix2 k j)) (fun j => in3_7 V c (ix2 0 j)) i j :=
  congrFun (layer3_array V c) (ix2 i j)

end Cert.KernelIdeal.HandV

end
-- ==== Proof.KI.NetLay3.lean ====
import proofs.«415659_j4501125726343_1_alg».proof.Proof.KI.NetBase
import proofs.«415659_j4501125726343_1_alg».proof.Proof.KI.Lay0
import proofs.«415659_j4501125726343_1_alg».proof.Proof.KI.Agg0
import proofs.«415659_j4501125726343_1_alg».proof.Proof.KI.Lay3
import proofs.«415659_j4501125726343_1_alg».proof.Proof.KI.Agg3
import proofs.«415659_j4501125726343_1_alg».proof.Proof.KI.DenseVal3

set_option maxRecDepth 16384

noncomputable section

namespace Cert.KernelIdeal.HandV

open Cert.KernelIdeal Cert.KernelIdeal.Gen Cert.KernelIdeal.Hand
open Idealize.ShloMosaic Idealize.ShloMosaic.TcCoe ValueIdx
open Idealize.SL Idealize.SL.Sem

variable (m : (ℓ : Loc nD τ sig) → Buf (Elt Ideal) ℓ) (ρ : Dev nD → PrngReg) (c : Dev nD)

theorem agg3 (i : Fin 100000) (d : Fin 128) :
    rd2 (a := 100000) (b := 128) (W7 m ρ c (Proc.devRef .tc main_v77)) i d
      = Cert.Spec.aggK (hid3 m ρ c) (netSrc m c) (netDst m c) i d := by
  refine (host3_agg (W6 m ρ c) i d).trans ?_
  rw [arg_W6 m ρ c (r := main_arg1) (by decide), arg_W6 m ρ c (r := main_arg2) (by decide)]
theorem ind3 (i : Fin 100000) :
    rd2 (a := 100000) (b := 1) (W7 m ρ c (Proc.devRef .tc main_v5)) i (0 : Fin 1) = Cert.Spec.indeg (netDst m c) i :=
  (congrFun (late_W7 m ρ c (r := main_v5) (by decide)) (ix2 i (0 : Fin 1))).trans (host0_indeg (W0 m ρ c) i)
theorem prm3 (d : Fin 128) :
    rd2 (a := 1) (b := 128) (W7 m ρ c (Proc.devRef .tc main_v88)) (0 : Fin 1) d = (netL m c 2).p d :=
  (host3_p (W6 m ρ c) d).trans (congrFun (arg_W6 m ρ c (r := main_arg5) (by decide)) (ix2 (2 : Fin 4) d))
theorem own3 (i : Fin 100000) (d : Fin 128) :
    rd2 (a := 100000) (b := 128) (W7 m ρ c (Proc.devRef .tc main_v67)) i d = hid3 m ρ c i d :=
  congrFun (StableHlo.after_of_writes_sub hostOps3 (W6 m ρ c) hostOps3_writes (by decide : main_v67 ∉ hostOps3_W)) (ix2 i d)
theorem wa3 (d : Fin 128) (k : Fin 128) :
    (W7 m ρ c (Proc.devRef .tc main_v81) : S128x128.Idx → EReal) (ix2 d k) = (netL m c 2).W1 d k :=
  (host3_W1 (W6 m ρ c) d k).trans (congrFun (arg_W6 m ρ c (r := main_arg10) (by decide)) (ix3 (2 : Fin 4) d k))
theorem ba3 (k : Fin 128) :
    (W7 m ρ c (Proc.devRef .tc main_v89) : S1x128.Idx → EReal) (ix2 (0 : Fin 1) k) = (netL m c 2).b1 k :=
  (host3_b1 (W6 m ρ c) k).trans (congrFun (arg_W6 m ρ c (r := main_arg11) (by decide)) (ix2 (2 : Fin 4) k))
theorem wb3 (k j : Fin 128) :
    (W7 m ρ c (Proc.devRef .tc main_v85) : S128x128.Idx → EReal) (ix2 k j) = (netL m c 2).W2 k j :=
  (host3_W2 (W6 m ρ c) k j).trans (congrFun (arg_W6 m ρ c (r := main_arg12) (by decide)) (ix3 (2 : Fin 4) k j))
theorem bb3 (j : Fin 128) :
    (W7 m ρ c (Proc.devRef .tc main_v90) : S1x128.Idx → EReal) (ix2 (0 : Fin 1) j) = (netL m c 2).b2 j :=
  (host3_b2 (W6 m ρ c) j).trans (congrFun (arg_W6 m ρ c (r := main_arg13) (by decide)) (ix2 (2 : Fin 4) j))

theorem layer3_val (i : Fin 100000) (j : Fin 128) :
    hid4 m ρ c i j
      = Cert.Spec.layerK Cert.Spec.relu (hid3 m ρ c) (netL m c 2).p (netL m c 2).W1 (netL m c 2).b1 (netL m c 2).W2 (netL m c 2).b2
          (netSrc m c) (netDst m c) i j := by
  have e : (W8 m ρ c (Proc.devRef .tc main_v91) : S100000x128.Idx → EReal)
      = ((dat3 (F := Ideal) (Hand.V7 m ρ) c).arrAt 8 cfg3.N : S100000x128.Idx → EReal) := W8_arr m ρ c 8
  refine (congrFun e (ix2 i j)).trans ((dense3_val (Hand.V7 m ρ) c i j).trans ?_)
  unfold Cert.Spec.layerK
  refine mlp_congr _ (fun i d => ?_) (fun d k => ?_) (fun k => ?_) (fun k j => ?_) (fun j => ?_) i j
  · show rd2 (a := 100000) (b := 128) (W7 m ρ c (Proc.devRef .tc main_v77)) i d
        + rd2 (a := 100000) (b := 1) (W7 m ρ c (Proc.devRef .tc main_v5)) i (0 : Fin 1)
          * rd2 (a := 1) (b := 128) (W7 m ρ c (Proc.devRef .tc main_v88)) (0 : Fin 1) d
        + rd2 (a := 100000) (b := 128) (W7 m ρ c (Proc.devRef .tc main_v67)) i d
      = Cert.Spec.aggK (hid3 m ρ c) (netSrc m c) (netDst m c) i d + Cert.Spec.indeg (netDst m c) i * (netL m c 2).p d
          + hid3 m ρ c i d
    rw [agg3 m ρ c i d, ind3 m ρ c i, prm3 m ρ c d, own3 m ρ c i d]
  · exact wa3 m ρ c d k
  · exact ba3 m ρ c k
  · exact wb3 m ρ c k j
  · exact bb3 m ρ c j

end Cert.KernelIdeal.HandV

end
-- ==== Proof.KI.Lay4.lean ====
import proofs.«415659_j4501125726343_1_alg».proof.Proof.Gen.KernelIdeal.Launch
import proofs.«415659_j4501125726343_1_alg».proof.Proof.KI.HostBase
import Idealize.ShloMosaic.Lib.StableHlo.Run

set_option maxRecDepth 1412

noncomputable section

namespace Cert.KernelIdeal.HandV

open Cert.KernelIdeal Cert.KernelIdeal.Gen Idealize.ShloMosaic ValueIdx
open Idealize.ShloMosaic.StableHlo

variable (W : Valuation τ sig (Elt Ideal))

theorem host4_p (d : Fin 128) :
    (StableHlo.after hostOps4 W (Proc.devRef .tc main_v112) : S1x128.Idx → EReal) (ix2 (0 : Fin 1) d)
      = (W (Proc.devRef .tc main_arg5) : S4x128.Idx → EReal) (ix2 (3 : Fin 4) d) := by
  have e : (StableHlo.after hostOps4 W (Proc.devRef .tc main_v112) : S1x128.Idx → EReal)
      = fun i => shapeCast S1x128 (fun i => shapeCast S128
          (extractStridedSlice S1x128 ![3, 0] (W (Proc.devRef .tc main_arg5) : S4x128.Idx → EReal) slices_S4x128_S1x128_3_0)
          shapeCasts_S1x128_S128 i) shapeCasts_S128_S1x128 i := by
    show StableHlo.after hostOps4 _ (Proc.devRef .tc main_v112) = _
    after_results
    rfl
  rw [e]
  refine (shapeCast_a_1a_apply _ _ _ _).trans ?_
  refine (shapeCast_1a_a_apply _ _ _).trans ?_
  exact sliceRow_apply 3 _ _ _ _ _ rfl

theorem host4_b1 (k : Fin 128) :
    (StableHlo.after hostOps4 W (Proc.devRef .tc main_v113) : S1x128.Idx → EReal) (ix2 (0 : Fin 1) k)
      = (W (Proc.devRef .tc main_arg11) : S4x128.Idx → EReal) (ix2 (3 : Fin 4) k) := by
  have e : (StableHlo.after hostOps4 W (Proc.devRef .tc main_v113) : S1x128.Idx → EReal)
      = fun i => shapeCast S1x128 (fun i => shapeCast S128
          (extractStridedSlice S1x128 ![3, 0] (W (Proc.devRef .tc main_arg11) : S4x128.Idx → EReal) slices_S4x128_S1x128_3_0)
          shapeCasts_S1x128_S128 i) shapeCasts_S128_S1x128 i := by
    show StableHlo.after hostOps4 _ (Proc.devRef .tc main_v113) = _
    after_results
    rfl
  rw [e]
  refine (shapeCast_a_1a_apply _ _ _ _).trans ?_
  refine (shapeCast_1a_a_apply _ _ _).trans ?_
  exact sliceRow_apply 3 _ _ _ _ _ rfl

theorem host4_b2 (j : Fin 128) :
    (StableHlo.after hostOps4 W (Proc.devRef .tc main_v114) : S1x128.Idx → EReal) (ix2 (0 : Fin 1) j)
      = (W (Proc.devRef .tc main_arg13) : S4x128.Idx → EReal) (ix2 (3 : Fin 4) j) := by
  have e : (StableHlo.after hostOps4 W (Proc.devRef .tc main_v114) : S1x128.Idx → EReal)
      = fun i => shapeCast S1x128 (fun i => shapeCast S128
          (extractStridedSlice S1x128 ![3, 0] (W (Proc.devRef .tc main_arg13) : S4x128.Idx → EReal) slices_S4x128_S1x128_3_0)
          shapeCasts_S1x128_S128 i) shapeCasts_S128_S1x128 i := by
    show StableHlo.after hostOps4 _ (Proc.devRef .tc main_v114) = _
    after_results
    rfl
  rw [e]
  refine (shapeCast_a_1a_apply _ _ _ _).trans ?_
  refine (shapeCast_1a_a_apply _ _ _).trans ?_
  exact sliceRow_apply 3 _ _ _ _ _ rfl

theorem host4_W1 (d k : Fin 128) :
    (StableHlo.after hostOps4 W (Proc.devRef .tc main_v105) : S128x128.Idx → EReal) (ix2 d k)
      = (W (Proc.devRef .tc main_arg10) : S4x128x128.Idx → EReal) (ix3 (3 : Fin 4) d k) := by
  have e : (StableHlo.after hostOps4 W (Proc.devRef .tc main_v105) : S128x128.Idx → EReal)
      = fun i => shapeCast S128x128
          (extractStridedSlice S1x128x128 ![3, 0, 0] (W (Proc.devRef .tc main_arg10) : S4x128x128.Idx → EReal) slices_S4x128x128_S1x128x128_3_0_0)
          shapeCasts_S1x128x128_S128x128 i := by
    show StableHlo.after hostOps4 _ (Proc.devRef .tc main_v105) = _
    after_results
    rfl
  rw [e]
  refine (shapeCast_1ab_ab_apply _ _ _ _).trans ?_
  exact sliceSlab_apply 3 _ _ _ _ _ _ rfl

theorem host4_W2 (k j : Fin 128) :
    (StableHlo.after hostOps4 W (Proc.devRef .tc main_v109) : S128x128.Idx → EReal) (ix2 k j)
      = (W (Proc.devRef .tc main_arg12) : S4x128x128.Idx → EReal) (ix3 (3 : Fin 4) k j) := by
  have e : (StableHlo.after hostOps4 W (Proc.devRef .tc main_v109) : S128x128.Idx → EReal)
      = fun i => shapeCast S128x128
          (extractStridedSlice S1x128x128 ![3, 0, 0] (W (Proc.devRef .tc main_arg12) : S4x128x128.Idx → EReal) slices_S4x128x128_S1x128x128_3_0_0)
          shapeCasts_S1x128x128_S128x128 i := by
    show StableHlo.after hostOps4 _ (Proc.devRef .tc main_v109) = _
    after_results
    rfl
  rw [e]
  refine (shapeCast_1ab_ab_apply _ _ _ _).trans ?_
  exact sliceSlab_apply 3 _ _ _ _ _ _ rfl

end Cert.KernelIdeal.HandV
-- ==== Proof.KI.Agg4.lean ====
import proofs.«415659_j4501125726343_1_alg».proof.Proof.Gen.KernelIdeal.Launch
import proofs.«415659_j4501125726343_1_alg».proof.Proof.KI.HostBase
import proofs.«415659_j4501125726343_1_alg».proof.Proof.Spec
import proofs.«415659_j4501125726343_1_alg».proof.Proof.LibGraphOps
import Idealize.ShloMosaic.Lib.StableHlo.Run
import Idealize.ShloMosaic.PureOps.Ideal.Laws

set_option maxRecDepth 1412

noncomputable section

namespace Cert.KernelIdeal.HandV

open Cert.KernelIdeal Cert.KernelIdeal.Gen Idealize.ShloMosaic ValueIdx
open Idealize.ShloMosaic.StableHlo

variable (W : Valuation τ sig (Elt Ideal))

abbrev host4_srcw : S1600000.Idx → BitVec 32 :=
  select (cmpi .slt (W (Proc.devRef .tc main_arg1) : S1600000.Idx → BitVec 32)
      (broadcastInDim S1600000 ![] bcast_S_S1600000 (constantI S_ 32 0#32)))
    (addi (W (Proc.devRef .tc main_arg1) : S1600000.Idx → BitVec 32)
      (broadcastInDim S1600000 ![] bcast_S_S1600000 (constantI S_ 32 100000#32)))
    (W (Proc.devRef .tc main_arg1) : S1600000.Idx → BitVec 32)

set_option maxHeartbeats 1000000 in

theorem host4_agg_term :
    (StableHlo.after hostOps4 W (Proc.devRef .tc main_v101) : S100000x128.Idx → EReal)
      = Host.scatterAdd (F := Ideal) (φ := .f32) scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (W (Proc.devRef .tc main_arg2) : S1600000.Idx → BitVec 32))
          (Host.gather gather_S100000x128_S1600000x1_S1600000x128_1_0_n_n_0_1_1128
            (W (Proc.devRef .tc main_v91) : S100000x128.Idx → EReal)
            (broadcastInDim S1600000x1 ![0] bcast_S1600000_S1600000x1_0 (host4_srcw W))) := by
  show StableHlo.after hostOps4 _ (Proc.devRef .tc main_v101) = _
  after_results

theorem host4_agg (i : Fin 100000) (d : Fin 128) :
    (StableHlo.after hostOps4 W (Proc.devRef .tc main_v101) : S100000x128.Idx → EReal) (ix2 i d)
      = Cert.Spec.aggK (fun i d => (W (Proc.devRef .tc main_v91) : S100000x128.Idx → EReal) (ix2 i d))
          (fun e => (W (Proc.devRef .tc main_arg1) : S1600000.Idx → BitVec 32) (ix1 e))
          (fun e => (W (Proc.devRef .tc main_arg2) : S1600000.Idx → BitVec 32) (ix1 e)) i d := by
  rw [host4_agg_term]
  refine (GraphOps.scatterAdd_rows_col _ rfl rfl rfl rfl _ _ _ _ i d).trans ?_
  have hz : (broadcastInDim S100000x128 ![] bcast_S_S100000x128 (constant (F := Ideal) S_ .f32 0x00000000#32) : S100000x128.Idx → EReal)
      (ix2 i d) = 0 :=
    (bcastScalar_apply _ _ _).trans Ideal.ofBits_zero_f32
  rw [hz, zero_add]
  unfold Cert.Spec.aggK
  refine Finset.sum_congr rfl fun r _ => ?_
  refine if_congr Iff.rfl ?_ rfl
  refine (GraphOps.gather_rows_col _ rfl rfl rfl rfl rfl rfl rfl _ _ _ r d (by decide)).trans ?_
  exact congrArg (fun q => (W (Proc.devRef .tc main_v91) : S100000x128.Idx → EReal) (ix2 q d))
    (GraphOps.wrap_row_at _ _ _ (ix1 r) rfl rfl)

end Cert.KernelIdeal.HandV
-- ==== Proof.KI.DenseVal4.lean ====
import proofs.«415659_j4501125726343_1_alg».proof.Proof.KI.Dense4
import proofs.«415659_j4501125726343_1_alg».proof.Proof.KI.Payload
import proofs.«415659_j4501125726343_1_alg».proof.Proof.Spec
import Idealize.ShloMosaic.Lib.Pipeline.Value
import Idealize.ShloMosaic.Lib.ValueIdx

set_option maxRecDepth 16384

noncomputable section

namespace Cert.KernelIdeal.HandV

open scoped BigOperators
open Cert.KernelIdeal Cert.KernelIdeal.Gen Cert.KernelIdeal.Hand Idealize.ShloMosaic ValueIdx
open Idealize.ShloMosaic.TcCoe Idealize.SL.Sem
open Idealize.ShloMosaic.Pipeline (Dat)

variable (V : (c : Dev nD) → (b : Ref sig .tc) → Buf (Elt Ideal) ((c : Thread nD τ).loc b))

abbrev in4_0 (c : Dev nD) : S100000x128.Idx → EReal := V c (Pipeline.arrRef spec4 0)

abbrev in4_1 (c : Dev nD) : S100000x128.Idx → EReal := V c (Pipeline.arrRef spec4 1)

abbrev in4_2 (c : Dev nD) : S100000x1.Idx → EReal := V c (Pipeline.arrRef spec4 2)

abbrev in4_3 (c : Dev nD) : S1x128.Idx → EReal := V c (Pipeline.arrRef spec4 3)

abbrev in4_4 (c : Dev nD) : S128x128.Idx → EReal := V c (Pipeline.arrRef spec4 4)

abbrev in4_5 (c : Dev nD) : S1x128.Idx → EReal := V c (Pipeline.arrRef spec4 5)

abbrev in4_6 (c : Dev nD) : S128x128.Idx → EReal := V c (Pipeline.arrRef spec4 6)

abbrev in4_7 (c : Dev nD) : S1x128.Idx → EReal := V c (Pipeline.arrRef spec4 7)

abbrev layer4 (c : Dev nD) : S100000x128.Idx → EReal := fun y =>
  Cert.Spec.mlp id (fun i d => in4_0 V c (ix2 i d) + in4_2 V c (ix2 i 0) * in4_3 V c (ix2 0 d) + in4_1 V c (ix2 i d))
    (fun d k => in4_4 V c (ix2 d k)) (fun k => in4_5 V c (ix2 0 k)) (fun k j => in4_6 V c (ix2 k j)) (fun j => in4_7 V c (ix2 0 j)) (y 0) (y 1)

theorem zeros4 : (![0, 0] : Fin 2 → Nat) = fun _ => 0 := funext fun a => by
  match a with
  | ⟨0, _⟩ => rfl
  | ⟨1, _⟩ => rfl

theorem blockIndex4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = t.val ∧ win4_8.index t (1 : Fin 2) = 0 :=
  (by decide +kernel : ∀ t : Fin grid4.N, _)

theorem read4_0 (c : Dev nD) (t : Fin cfg4.N) (r : Fin 5000) (d : Fin 128) (i : Fin 100000) (hi : i.val = 5000 * t.val + r.val) :
    (iblk4 V c 0 t : Vec Ideal S5000x128 .f32) (ix2 r d) = in4_0 V c (ix2 i d) := by
  obtain ⟨e0, e1, -⟩ := blockIndex4 t
  show in4_0 V c (((cfg4.win 0).blk t).view.emb (ix2 r d : S5000x128.Idx)) = in4_0 V c (ix2 i d)
  refine congrArg (in4_0 V c) (funext fun a => Fin.ext ?_)
  match a with
  | ⟨0, _⟩ => show win4_0.index t (0 : Fin 2) * 5000 + 1 * r.val = i.val; omega
  | ⟨1, _⟩ => show win4_0.index t (1 : Fin 2) * 128 + 1 * d.val = d.val; omega

theorem read4_1 (c : Dev nD) (t : Fin cfg4.N) (r : Fin 5000) (d : Fin 128) (i : Fin 100000) (hi : i.val = 5000 * t.val + r.val) :
    (iblk4 V c 1 t : Vec Ideal S5000x128 .f32) (ix2 r d) = in4_1 V c (ix2 i d) := by
  obtain ⟨-, -, e0, e1, -⟩ := blockIndex4 t
  show in4_1 V c (((cfg4.win 1).blk t).view.emb (ix2 r d : S5000x128.Idx)) = in4_1 V c (ix2 i d)
  refine congrArg (in4_1 V c) (funext fun a => Fin.ext ?_)
  match a with
  | ⟨0, _⟩ => show win4_1.index t (0 : Fin 2) * 5000 + 1 * r.val = i.val; omega
  | ⟨1, _⟩ => show win4_1.index t (1 : Fin 2) * 128 + 1 * d.val = d.val; omega

theorem read4_2 (c : Dev nD) (t : Fin cfg4.N) (r : Fin 5000) (i : Fin 100000) (hi : i.val = 5000 * t.val + r.val) :
    (iblk4 V c 2 t : Vec Ideal S5000x1 .f32) (ix2 r 0) = in4_2 V c (ix2 i 0) := by
  obtain ⟨-, -, -, -, e0, e1, -⟩ := blockIndex4 t
  show in4_2 V c (((cfg4.win 2).blk t).view.emb (ix2 r 0 : S5000x1.Idx)) = in4_2 V c (ix2 i 0)
  refine congrArg (in4_2 V c) (funext fun a => Fin.ext ?_)
  match a with
  | ⟨0, _⟩ => show win4_2.index t (0 : Fin 2) * 5000 + 1 * r.val = i.val; omega
  | ⟨1, _⟩ => show win4_2.index t (1 : Fin 2) * 1 + 1 * 0 = 0; omega

theorem read4_3 (c : Dev nD) (t : Fin cfg4.N) (d : Fin 128) :
    (iblk4 V c 3 t : Vec Ideal S1x128 .f32) (ix2 0 d) = in4_3 V c (ix2 0 d) := by
  obtain ⟨-, -, -, -, -, -, e0, e1, -⟩ := blockIndex4 t
  show in4_3 V c (((cfg4.win 3).blk t).view.emb (ix2 0 d : S1x128.Idx)) = in4_3 V c (ix2 0 d)
  refine congrArg (in4_3 V c) (funext fun a => Fin.ext ?_)
  match a with
  | ⟨0, _⟩ => show win4_3.index t (0 : Fin 2) * 1 + 1 * 0 = 0; omega
  | ⟨1, _⟩ => show win4_3.index t (1 : Fin 2) * 128 + 1 * d.val = d.val; omega

theorem read4_4 (c : Dev nD) (t : Fin cfg4.N) (d : Fin 128) (k : Fin 128) :
    (iblk4 V c 4 t : Vec Ideal S128x128 .f32) (ix2 d k) = in4_4 V c (ix2 d k) := by
  obtain ⟨-, -, -, -, -, -, -, -, e0, e1, -⟩ := blockIndex4 t
  show in4_4 V c (((cfg4.win 4).blk t).view.emb (ix2 d k : S128x128.Idx)) = in4_4 V c (ix2 d k)
  refine congrArg (in4_4 V c) (funext fun a => Fin.ext ?_)
  match a with
  | ⟨0, _⟩ => show win4_4.index t (0 : Fin 2) * 128 + 1 * d.val = d.val; omega
  | ⟨1, _⟩ => show win4_4.index t (1 : Fin 2) * 128 + 1 * k.val = k.val; omega

theorem read4_5 (c : Dev nD) (t : Fin cfg4.N) (k : Fin 128) :
    (iblk4 V c 5 t : Vec Ideal S1x128 .f32) (ix2 0 k) = in4_5 V c (ix2 0 k) := by
  obtain ⟨-, -, -, -, -, -, -, -, -, -, e0, e1, -⟩ := blockIndex4 t
  show in4_5 V c (((cfg4.win 5).blk t).view.emb (ix2 0 k : S1x128.Idx)) = in4_5 V c (ix2 0 k)
  refine congrArg (in4_5 V c) (funext fun a => Fin.ext ?_)
  match a with
  | ⟨0, _⟩ => show win4_5.index t (0 : Fin 2) * 1 + 1 * 0 = 0; omega
  | ⟨1, _⟩ => show win4_5.index t (1 : Fin 2) * 128 + 1 * k.val = k.val; omega

theorem read4_6 (c : Dev nD) (t : Fin cfg4.N) (k : Fin 128) (j : Fin 128) :
    (iblk4 V c 6 t : Vec Ideal S128x128 .f32) (ix2 k j) = in4_6 V c (ix2 k j) := by
  obtain ⟨-, -, -, -, -, -, -, -, -, -, -, -, e0, e1, -⟩ := blockIndex4 t
  show in4_6 V c (((cfg4.win 6).blk t).view.emb (ix2 k j : S128x128.Idx)) = in4_6 V c (ix2 k j)
  refine congrArg (in4_6 V c) (funext fun a => Fin.ext ?_)
  match a with
  | ⟨0, _⟩ => show win4_6.index t (0 : Fin 2) * 128 + 1 * k.val = k.val; omega
  | ⟨1, _⟩ => show win4_6.index t (1 : Fin 2) * 128 + 1 * j.val = j.val; omega

theorem read4_7 (c : Dev nD) (t : Fin cfg4.N) (j : Fin 128) :
    (iblk4 V c 7 t : Vec Ideal S1x128 .f32) (ix2 0 j) = in4_7 V c (ix2 0 j) := by
  obtain ⟨-, -, -, -, -, -, -, -, -, -, -, -, -, -, e0, e1, -⟩ := blockIndex4 t
  show in4_7 V c (((cfg4.win 7).blk t).view.emb (ix2 0 j : S1x128.Idx)) = in4_7 V c (ix2 0 j)
  refine congrArg (in4_7 V c) (funext fun a => Fin.ext ?_)
  match a with
  | ⟨0, _⟩ => show win4_7.index t (0 : Fin 2) * 1 + 1 * 0 = 0; omega
  | ⟨1, _⟩ => show win4_7.index t (1 : Fin 2) * 128 + 1 * j.val = j.val; omega

theorem rowBlock4_at (x0 : Vec Ideal S5000x128 .f32) (x1 : Vec Ideal S5000x128 .f32) (x2 : Vec Ideal S5000x1 .f32) (x3 : Vec Ideal S1x128 .f32)
    (x4 : Vec Ideal S128x128 .f32) (x5 : Vec Ideal S1x128 .f32) (x6 : Vec Ideal S128x128 .f32) (x7 : Vec Ideal S1x128 .f32)
    (a0 : S100000x128.Idx → EReal) (a1 : S100000x128.Idx → EReal) (a2 : S100000x1.Idx → EReal) (a3 : S1x128.Idx → EReal) (a4 : S128x128.Idx → EReal)
    (a5 : S1x128.Idx → EReal) (a6 : S128x128.Idx → EReal) (a7 : S1x128.Idx → EReal)
    (r : Fin 5000) (j : Fin 128) (i : Fin 100000)
    (h0 : ∀ d : Fin 128, x0 (ix2 r d) = a0 (ix2 i d)) (h1 : ∀ d : Fin 128, x1 (ix2 r d) = a1 (ix2 i d))
    (h2 : x2 (ix2 r 0) = a2 (ix2 i 0)) (h3 : ∀ d : Fin 128, x3 (ix2 0 d) = a3 (ix2 0 d))
    (h4 : ∀ (d : Fin 128) (k : Fin 128), x4 (ix2 d k) = a4 (ix2 d k)) (h5 : ∀ k : Fin 128, x5 (ix2 0 k) = a5 (ix2 0 k))
    (h6 : ∀ (k : Fin 128) (j : Fin 128), x6 (ix2 k j) = a6 (ix2 k j)) (h7 : ∀ j : Fin 128, x7 (ix2 0 j) = a7 (ix2 0 j)) :
    k4_pay1 (F := Ideal) x0 x1 x2 x3 x4 x5 x6 x7 (ix2 r j)
      = Cert.Spec.mlp id (fun i d => a0 (ix2 i d) + a2 (ix2 i 0) * a3 (ix2 0 d) + a1 (ix2 i d))
          (fun d k => a4 (ix2 d k)) (fun k => a5 (ix2 0 k)) (fun k j => a6 (ix2 k j)) (fun j => a7 (ix2 0 j)) i j := by
  rw [k4_pay1_apply]
  unfold Cert.Spec.mlp
  simp only [h0, h1, h2, h3, h4, h5, h6, h7, id_eq]

theorem wrote4 (c : Dev nD) (t : Fin cfg4.N) :
    (dat4 (F := Ideal) V c).flushed 8 t = ((cfg4.win 8).blk t).view.read (Elt Ideal) (layer4 V c) := by
  show (cfg4.win 8).cut (grid4.coords t) ((dat4 (F := Ideal) V c).after 8 t) = _
  rw [after4_8]
  unfold out4_8
  rw [View.canon_unit_zero zeros4]
  simp only [View.ld_unit_zero (S := S5000x128) zeros4, View.ld_unit_zero (S := S5000x128) zeros4,
    View.ld_unit_zero (S := S5000x1) zeros4, View.ld_unit_zero (S := S1x128) zeros4,
    View.ld_unit_zero (S := S128x128) zeros4, View.ld_unit_zero (S := S1x128) zeros4,
    View.ld_unit_zero (S := S128x128) zeros4, View.ld_unit_zero (S := S1x128) zeros4]
  obtain ⟨-, -, -, -, -, -, -, -, -, -, -, -, -, -, -, -, e0, e1⟩ := blockIndex4 t
  have hN : cfg4.N = 20 := N_4
  refine funext fun (y : S5000x128.Idx) => ?_
  obtain ⟨r, j, rfl⟩ : ∃ (r : Fin 5000) (j : Fin 128), y = ix2 r j := ⟨y 0, y 1, eq_ix2 y⟩
  obtain ⟨i, hi⟩ : ∃ i : Fin 100000, i.val = 5000 * t.val + r.val := ⟨⟨5000 * t.val + r.val, by have := t.isLt; have := r.isLt; omega⟩, rfl⟩
  have hemb : ((cfg4.win 8).blk t).view.emb (ix2 r j : S5000x128.Idx) = (ix2 i j : S100000x128.Idx) := funext fun a => Fin.ext (by
    match a with
    | ⟨0, _⟩ => show win4_8.index t (0 : Fin 2) * 5000 + 1 * r.val = i.val; omega
    | ⟨1, _⟩ => show win4_8.index t (1 : Fin 2) * 128 + 1 * j.val = j.val; omega)
  show k4_pay1 (F := Ideal) (iblk4 V c 0 t) (iblk4 V c 1 t) (iblk4 V c 2 t) (iblk4 V c 3 t) (iblk4 V c 4 t) (iblk4 V c 5 t) (iblk4 V c 6 t) (iblk4 V c 7 t) (ix2 r j)
    = layer4 V c (((cfg4.win 8).blk t).view.emb (ix2 r j : S5000x128.Idx))
  rw [hemb]
  exact rowBlock4_at (iblk4 V c 0 t) (iblk4 V c 1 t) (iblk4 V c 2 t) (iblk4 V c 3 t) (iblk4 V c 4 t) (iblk4 V c 5 t) (iblk4 V c 6 t) (iblk4 V c 7 t)
    (in4_0 V c) (in4_1 V c) (in4_2 V c) (in4_3 V c) (in4_4 V c) (in4_5 V c) (in4_6 V c) (in4_7 V c) r j i
    (fun d => read4_0 V c t r d i hi) (fun d => read4_1 V c t r d i hi) (read4_2 V c t r i hi) (fun d => read4_3 V c t d)
    (fun d k => read4_4 V c t d k) (fun k => read4_5 V c t k) (fun k j => read4_6 V c t k j) (fun j => read4_7 V c t j)

theorem rows_mem4 (t : Fin cfg4.N) (y : S100000x128.Idx) :
    y ∈ ((cfg4.win 8).blk t).view.set ↔ ∀ a : Fin 2, win4_8.index t a * S5000x128.size a ≤ (y a).val ∧ (y a).val < win4_8.index t a * S5000x128.size a + S5000x128.size a := by
  show y ∈ ((View.whole main_v115).slice (win4_8.rect t)).set ↔ _
  rw [View.set_slice_whole, Rect.mem_set_unit]
  exact Iff.rfl

theorem rows_cover4 (y : S100000x128.Idx) :
    ∃ t : Fin cfg4.N, (cfg4.win 8).flush t = true ∧ y ∈ ((cfg4.win 8).blk t).view.set := by
  have h0 : (y 0).val < 100000 := idx2_lt0 y
  have h1 : (y 1).val < 128 := idx2_lt1 y
  have hN : cfg4.N = 20 := N_4
  obtain ⟨t, ht⟩ : ∃ t : Fin cfg4.N, t.val = (y 0).val / 5000 := ⟨⟨(y 0).val / 5000, by omega⟩, rfl⟩
  obtain ⟨-, -, -, -, -, -, -, -, -, -, -, -, -, -, -, -, e0, e1⟩ := blockIndex4 t
  refine ⟨t, flush4_8 t, ?_⟩
  rw [rows_mem4]
  intro a
  match a with
  | ⟨0, _⟩ => show win4_8.index t (0 : Fin 2) * 5000 ≤ (y 0).val ∧ (y 0).val < win4_8.index t (0 : Fin 2) * 5000 + 5000; omega
  | ⟨1, _⟩ => show win4_8.index t (1 : Fin 2) * 128 ≤ (y 1).val ∧ (y 1).val < win4_8.index t (1 : Fin 2) * 128 + 128; omega

theorem layer4_array (c : Dev nD) : (dat4 (F := Ideal) V c).arrAt 8 cfg4.N = layer4 V c :=
  (dat4 (F := Ideal) V c).arrAt_eq_of_cover 8 (layer4 V c) (fun t _ => wrote4 V c t) rows_cover4

theorem dense4_val (c : Dev nD) (i : Fin 100000) (j : Fin 128) :
    ((dat4 (F := Ideal) V c).arrAt 8 cfg4.N : S100000x128.Idx → EReal) (ix2 i j)
      = Cert.Spec.mlp id (fun i d => in4_0 V c (ix2 i d) + in4_2 V c (ix2 i 0) * in4_3 V c (ix2 0 d) + in4_1 V c (ix2 i d))
          (fun d k => in4_4 V c (ix2 d k)) (fun k => in4_5 V c (ix2 0 k)) (fun k j => in4_6 V c (ix2 k j)) (fun j => in4_7 V c (ix2 0 j)) i j :=
  congrFun (layer4_array V c) (ix2 i j)

end Cert.KernelIdeal.HandV

end
-- ==== Proof.KI.NetLay4.lean ====
import proofs.«415659_j4501125726343_1_alg».proof.Proof.KI.NetBase
import proofs.«415659_j4501125726343_1_alg».proof.Proof.KI.Lay0
import proofs.«415659_j4501125726343_1_alg».proof.Proof.KI.Agg0
import proofs.«415659_j4501125726343_1_alg».proof.Proof.KI.Lay4
import proofs.«415659_j4501125726343_1_alg».proof.Proof.KI.Agg4
import proofs.«415659_j4501125726343_1_alg».proof.Proof.KI.DenseVal4

set_option maxRecDepth 16384

noncomputable section

namespace Cert.KernelIdeal.HandV

open Cert.KernelIdeal Cert.KernelIdeal.Gen Cert.KernelIdeal.Hand
open Idealize.ShloMosaic Idealize.ShloMosaic.TcCoe ValueIdx
open Idealize.SL Idealize.SL.Sem

variable (m : (ℓ : Loc nD τ sig) → Buf (Elt Ideal) ℓ) (ρ : Dev nD → PrngReg) (c : Dev nD)

theorem agg4 (i : Fin 100000) (d : Fin 128) :
    rd2 (a := 100000) (b := 128) (W9 m ρ c (Proc.devRef .tc main_v101)) i d
      = Cert.Spec.aggK (hid4 m ρ c) (netSrc m c) (netDst m c) i d := by
  refine (host4_agg (W8 m ρ c) i d).trans ?_
  rw [arg_W8 m ρ c (r := main_arg1) (by decide), arg_W8 m ρ c (r := main_arg2) (by decide)]
theorem ind4 (i : Fin 100000) :
    rd2 (a := 100000) (b := 1) (W9 m ρ c (Proc.devRef .tc main_v5)) i (0 : Fin 1) = Cert.Spec.indeg (netDst m c) i :=
  (congrFun (late_W9 m ρ c (r := main_v5) (by decide)) (ix2 i (0 : Fin 1))).trans (host0_indeg (W0 m ρ c) i)
theorem prm4 (d : Fin 128) :
    rd2 (a := 1) (b := 128) (W9 m ρ c (Proc.devRef .tc main_v112)) (0 : Fin 1) d = (netL m c 3).p d :=
  (host4_p (W8 m ρ c) d).trans (congrFun (arg_W8 m ρ c (r := main_arg5) (by decide)) (ix2 (3 : Fin 4) d))
theorem own4 (i : Fin 100000) (d : Fin 128) :
    rd2 (a := 100000) (b := 128) (W9 m ρ c (Proc.devRef .tc main_v91)) i d = hid4 m ρ c i d :=
  congrFun (StableHlo.after_of_writes_sub hostOps4 (W8 m ρ c) hostOps4_writes (by decide : main_v91 ∉ hostOps4_W)) (ix2 i d)
theorem wa4 (d : Fin 128) (k : Fin 128) :
    (W9 m ρ c (Proc.devRef .tc main_v105) : S128x128.Idx → EReal) (ix2 d k) = (netL m c 3).W1 d k :=
  (host4_W1 (W8 m ρ c) d k).trans (congrFun (arg_W8 m ρ c (r := main_arg10) (by decide)) (ix3 (3 : Fin 4) d k))
theorem ba4 (k : Fin 128) :
    (W9 m ρ c (Proc.devRef .tc main_v113) : S1x128.Idx → EReal) (ix2 (0 : Fin 1) k) = (netL m c 3).b1 k :=
  (host4_b1 (W8 m ρ c) k).trans (congrFun (arg_W8 m ρ c (r := main_arg11) (by decide)) (ix2 (3 : Fin 4) k))
theorem wb4 (k j : Fin 128) :
    (W9 m ρ c (Proc.devRef .tc main_v109) : S128x128.Idx → EReal) (ix2 k j) = (netL m c 3).W2 k j :=
  (host4_W2 (W8 m ρ c) k j).trans (congrFun (arg_W8 m ρ c (r := main_arg12) (by decide)) (ix3 (3 : Fin 4) k j))
theorem bb4 (j : Fin 128) :
    (W9 m ρ c (Proc.devRef .tc main_v114) : S1x128.Idx → EReal) (ix2 (0 : Fin 1) j) = (netL m c 3).b2 j :=
  (host4_b2 (W8 m ρ c) j).trans (congrFun (arg_W8 m ρ c (r := main_arg13) (by decide)) (ix2 (3 : Fin 4) j))

theorem layer4_val (i : Fin 100000) (j : Fin 128) :
    hid5 m ρ c i j
      = Cert.Spec.layerK id (hid4 m ρ c) (netL m c 3).p (netL m c 3).W1 (netL m c 3).b1 (netL m c 3).W2 (netL m c 3).b2
          (netSrc m c) (netDst m c) i j := by
  have e : (W10 m ρ c (Proc.devRef .tc main_v115) : S100000x128.Idx → EReal)
      = ((dat4 (F := Ideal) (Hand.V9 m ρ) c).arrAt 8 cfg4.N : S100000x128.Idx → EReal) := W10_arr m ρ c 8
  refine (congrFun e (ix2 i j)).trans ((dense4_val (Hand.V9 m ρ) c i j).trans ?_)
  unfold Cert.Spec.layerK
  refine mlp_congr _ (fun i d => ?_) (fun d k => ?_) (fun k => ?_) (fun k j => ?_) (fun j => ?_) i j
  · show rd2 (a := 100000) (b := 128) (W9 m ρ c (Proc.devRef .tc main_v101)) i d
        + rd2 (a := 100000) (b := 1) (W9 m ρ c (Proc.devRef .tc main_v5)) i (0 : Fin 1)
          * rd2 (a := 1) (b := 128) (W9 m ρ c (Proc.devRef .tc main_v112)) (0 : Fin 1) d
        + rd2 (a := 100000) (b := 128) (W9 m ρ c (Proc.devRef .tc main_v91)) i d
      = Cert.Spec.aggK (hid4 m ρ c) (netSrc m c) (netDst m c) i d + Cert.Spec.indeg (netDst m c) i * (netL m c 3).p d
          + hid4 m ρ c i d
    rw [agg4 m ρ c i d, ind4 m ρ c i, prm4 m ρ c d, own4 m ρ c i d]
  · exact wa4 m ρ c d k
  · exact ba4 m ρ c k
  · exact wb4 m ρ c k j
  · exact bb4 m ρ c j

end Cert.KernelIdeal.HandV

end
-- ==== Proof.KI.PoolPayload.lean ====
import proofs.«415659_j4501125726343_1_alg».proof.Proof.Gen.KernelIdeal.Skeleton
import proofs.«415659_j4501125726343_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Data.EReal.Basic
import Mathlib.Algebra.BigOperators.Fin

noncomputable section

namespace Cert.KernelIdeal.HandV

open Cert.KernelIdeal Cert.KernelIdeal.Gen
open Idealize.ShloMosaic Idealize.ShloMosaic.ValueIdx
open scoped BigOperators

theorem one_f32 : Ideal.ofBits .f32 0x3F800000#32 = 1 := IdealRules.sign_bit.ideal_onePat .f32

theorem one_bf16 : Ideal.ofBits .bf16 0x3F80#16 = 1 := IdealRules.sign_bit.ideal_onePat .bf16

theorem word_eq_iff (w : BitVec 32) (g : ℕ) (hg : g < 128) : BitVec.ofNat 32 g = w ↔ w.toInt = (g : ℤ) := by
  constructor
  · rintro rfl
    rw [BitVec.toInt_ofNat']
    unfold Int.bmod
    norm_num
    omega
  · intro h
    have h2 := congrArg (BitVec.ofInt 32) h
    rw [BitVec.ofInt_toInt, BitVec.ofInt_natCast] at h2
    exact h2.symm

theorem pay1_apply (g k : Fin 128) : (k5_pay1 (F := Ideal)) (ix2 g k) = 0 := by
  unfold k5_pay1
  rw [shapeCast_self]
  exact Ideal.ofBits_zero_f32

theorem pay2_apply (g : Fin 128) : (k5_pay2 (F := Ideal)) (ix2 g (0 : Fin 1)) = 0 := by
  unfold k5_pay2
  rw [shapeCast_self]
  exact Ideal.ofBits_zero_f32

theorem bcast_col (x : IVec S5000x1 32) (r : Fin 5000) (g : Fin 128) :
    broadcastTo S5000x128 x broadcasts_S5000x1_S5000x128 (ix2 r g) = x (ix2 r (0 : Fin 1)) := by
  refine broadcastTo_apply x broadcasts_S5000x1_S5000x128 (ix2 r g) (ix2 r (0 : Fin 1)) fun a => ?_
  match a with
  | ⟨0, _⟩ => show r.val = if (5000 : Nat) = 1 then 0 else r.val; rw [if_neg (by decide)]
  | ⟨1, _⟩ => rfl

theorem pay3_apply (v6 : Vec Ideal S5000x1 .i32) (r : Fin 5000) (g : Fin 128) :
    k5_pay3 (F := Ideal) v6 (ix2 r g) = if Cert.Spec.lands (v6 (ix2 r (0 : Fin 1))) g.val then (1 : EReal) else 0 := by
  unfold k5_pay3
  show FloatOps.sitofp (F := Ideal) .f32
      ((IntOp.cmpi .eq (iota .tc S5000x128 32 [1] iota_S5000x128_d1_w32 (ix2 r g))
        (broadcastTo S5000x128 (shapeCast S5000x1 v6 shapeCasts_S5000x1_S5000x1) broadcasts_S5000x1_S5000x128 (ix2 r g))).setWidth 32) = _
  rw [shapeCast_self, bcast_col, iota_single_apply]
  show ((((IntOp.cmpi .eq (BitVec.ofNat 32 g.val) (v6 (ix2 r (0 : Fin 1)))).setWidth 32).toInt : ℝ) : EReal) = _
  by_cases h : BitVec.ofNat 32 g.val = v6 (ix2 r (0 : Fin 1))
  · rw [if_pos (show Cert.Spec.lands (v6 (ix2 r (0 : Fin 1))) g.val from (word_eq_iff _ _ g.isLt).mp h)]
    have hc : IntOp.cmpi .eq (BitVec.ofNat 32 g.val) (v6 (ix2 r (0 : Fin 1))) = 1#1 := by
      show BitVec.ofBool (BitVec.ofNat 32 g.val == v6 (ix2 r (0 : Fin 1))) = 1#1
      rw [beq_iff_eq.mpr h]; rfl
    rw [hc]
    norm_num
  · rw [if_neg (show ¬ Cert.Spec.lands (v6 (ix2 r (0 : Fin 1))) g.val from fun h' => h ((word_eq_iff _ _ g.isLt).mpr h'))]
    have hc : IntOp.cmpi .eq (BitVec.ofNat 32 g.val) (v6 (ix2 r (0 : Fin 1))) = 0#1 := by
      show BitVec.ofBool (BitVec.ofNat 32 g.val == v6 (ix2 r (0 : Fin 1))) = 0#1
      rw [beq_eq_false_iff_ne.mpr h]; rfl
    rw [hc]
    norm_num

theorem lhs_sums_0 (i : S128x128.Idx) (q : dot_S5000x128_S5000x128_S128x128_0_0_1_1_n_n.contr.Idx) :
    (dot_S5000x128_S5000x128_S128x128_0_0_1_1_n_n.lhsIdx i q 0).val = (q ⟨0, by decide⟩).val :=
  dot_S5000x128_S5000x128_S128x128_0_0_1_1_n_n.lhsIdx_val_of_single rfl i q
theorem lhs_sums_1 (i : S128x128.Idx) (q : dot_S5000x128_S5000x128_S128x128_0_0_1_1_n_n.contr.Idx) :
    (dot_S5000x128_S5000x128_S128x128_0_0_1_1_n_n.lhsIdx i q 1).val = (i 0).val := by
  unfold DotDims.lhsIdx
  rw [dif_neg (show ¬(1 : Fin S5000x128.rank) ∈ dot_S5000x128_S5000x128_S128x128_0_0_1_1_n_n.lhsBatch by decide), dif_pos (show (1 : Fin S5000x128.rank) ∈ dot_S5000x128_S5000x128_S128x128_0_0_1_1_n_n.lhsNonContracting by decide)]
  rfl
theorem rhs_sums_0 (i : S128x128.Idx) (q : dot_S5000x128_S5000x128_S128x128_0_0_1_1_n_n.contr.Idx) :
    (dot_S5000x128_S5000x128_S128x128_0_0_1_1_n_n.rhsIdx i q 0).val = (q ⟨0, by decide⟩).val :=
  dot_S5000x128_S5000x128_S128x128_0_0_1_1_n_n.rhsIdx_val_of_single rfl i q
theorem rhs_sums_1 (i : S128x128.Idx) (q : dot_S5000x128_S5000x128_S128x128_0_0_1_1_n_n.contr.Idx) :
    (dot_S5000x128_S5000x128_S128x128_0_0_1_1_n_n.rhsIdx i q 1).val = (i 1).val := by
  unfold DotDims.rhsIdx
  rw [dif_neg (show ¬(1 : Fin S5000x128.rank) ∈ dot_S5000x128_S5000x128_S128x128_0_0_1_1_n_n.rhsBatch by decide), dif_pos (show (1 : Fin S5000x128.rank) ∈ dot_S5000x128_S5000x128_S128x128_0_0_1_1_n_n.rhsNonContracting by decide)]
  rfl

theorem matmul_sums_apply (L R : FVec Ideal S5000x128 .bf16) (g k : Fin 128) :
    matmul dot_S5000x128_S5000x128_S128x128_0_0_1_1_n_n none L R (constant (F := Ideal) S128x128 .f32 0x00000000#32) (ix2 g k)
      = ∑ r : Fin 5000, L (ix2 r g) * R (ix2 r k) := by
  simp only [matmul]
  rw [Ideal.matmul_constant_zero_apply, ← Equiv.sum_comp (contrEquiv1 dot_S5000x128_S5000x128_S128x128_0_0_1_1_n_n 5000 rfl rfl).symm]
  refine Finset.sum_congr rfl fun r _ => ?_
  have hk := contrEquiv1_symm_val dot_S5000x128_S5000x128_S128x128_0_0_1_1_n_n 5000 rfl rfl r
  have el : dot_S5000x128_S5000x128_S128x128_0_0_1_1_n_n.lhsIdx (ix2 g k) ((contrEquiv1 dot_S5000x128_S5000x128_S128x128_0_0_1_1_n_n 5000 rfl rfl).symm r) = ix2 r g := funext fun a => Fin.ext (by
    match a with
    | ⟨0, _⟩ => exact (lhs_sums_0 _ _).trans hk
    | ⟨1, _⟩ => exact lhs_sums_1 _ _)
  have er : dot_S5000x128_S5000x128_S128x128_0_0_1_1_n_n.rhsIdx (ix2 g k) ((contrEquiv1 dot_S5000x128_S5000x128_S128x128_0_0_1_1_n_n 5000 rfl rfl).symm r) = ix2 r k := funext fun a => Fin.ext (by
    match a with
    | ⟨0, _⟩ => exact (rhs_sums_0 _ _).trans hk
    | ⟨1, _⟩ => exact rhs_sums_1 _ _)
  rw [el, er]

theorem lhs_cnt_0 (i : S128x1.Idx) (q : dot_S5000x128_S5000x1_S128x1_0_0_1_1_n_n.contr.Idx) :
    (dot_S5000x128_S5000x1_S128x1_0_0_1_1_n_n.lhsIdx i q 0).val = (q ⟨0, by decide⟩).val :=
  dot_S5000x128_S5000x1_S128x1_0_0_1_1_n_n.lhsIdx_val_of_single rfl i q
theorem lhs_cnt_1 (i : S128x1.Idx) (q : dot_S5000x128_S5000x1_S128x1_0_0_1_1_n_n.contr.Idx) :
    (dot_S5000x128_S5000x1_S128x1_0_0_1_1_n_n.lhsIdx i q 1).val = (i 0).val := by
  unfold DotDims.lhsIdx
  rw [dif_neg (show ¬(1 : Fin S5000x128.rank) ∈ dot_S5000x128_S5000x1_S128x1_0_0_1_1_n_n.lhsBatch by decide), dif_pos (show (1 : Fin S5000x128.rank) ∈ dot_S5000x128_S5000x1_S128x1_0_0_1_1_n_n.lhsNonContracting by decide)]
  rfl
theorem rhs_cnt_0 (i : S128x1.Idx) (q : dot_S5000x128_S5000x1_S128x1_0_0_1_1_n_n.contr.Idx) :
    (dot_S5000x128_S5000x1_S128x1_0_0_1_1_n_n.rhsIdx i q 0).val = (q ⟨0, by decide⟩).val :=
  dot_S5000x128_S5000x1_S128x1_0_0_1_1_n_n.rhsIdx_val_of_single rfl i q
theorem rhs_cnt_1 (i : S128x1.Idx) (q : dot_S5000x128_S5000x1_S128x1_0_0_1_1_n_n.contr.Idx) :
    (dot_S5000x128_S5000x1_S128x1_0_0_1_1_n_n.rhsIdx i q 1).val = (i 1).val := by
  unfold DotDims.rhsIdx
  rw [dif_neg (show ¬(1 : Fin S5000x1.rank) ∈ dot_S5000x128_S5000x1_S128x1_0_0_1_1_n_n.rhsBatch by decide), dif_pos (show (1 : Fin S5000x1.rank) ∈ dot_S5000x128_S5000x1_S128x1_0_0_1_1_n_n.rhsNonContracting by decide)]
  rfl

theorem matmul_cnt_apply (L : FVec Ideal S5000x128 .bf16) (R : FVec Ideal S5000x1 .bf16) (g : Fin 128) (u : Fin 1) :
    matmul dot_S5000x128_S5000x1_S128x1_0_0_1_1_n_n none L R (constant (F := Ideal) S128x1 .f32 0x00000000#32) (ix2 g u)
      = ∑ r : Fin 5000, L (ix2 r g) * R (ix2 r u) := by
  simp only [matmul]
  rw [Ideal.matmul_constant_zero_apply, ← Equiv.sum_comp (contrEquiv1 dot_S5000x128_S5000x1_S128x1_0_0_1_1_n_n 5000 rfl rfl).symm]
  refine Finset.sum_congr rfl fun r _ => ?_
  have hk := contrEquiv1_symm_val dot_S5000x128_S5000x1_S128x1_0_0_1_1_n_n 5000 rfl rfl r
  have el : dot_S5000x128_S5000x1_S128x1_0_0_1_1_n_n.lhsIdx (ix2 g u) ((contrEquiv1 dot_S5000x128_S5000x1_S128x1_0_0_1_1_n_n 5000 rfl rfl).symm r) = ix2 r g := funext fun a => Fin.ext (by
    match a with
    | ⟨0, _⟩ => exact (lhs_cnt_0 _ _).trans hk
    | ⟨1, _⟩ => exact lhs_cnt_1 _ _)
  have er : dot_S5000x128_S5000x1_S128x1_0_0_1_1_n_n.rhsIdx (ix2 g u) ((contrEquiv1 dot_S5000x128_S5000x1_S128x1_0_0_1_1_n_n 5000 rfl rfl).symm r) = ix2 r u := funext fun a => Fin.ext (by
    match a with
    | ⟨0, _⟩ => exact (rhs_cnt_0 _ _).trans hk
    | ⟨1, _⟩ => exact rhs_cnt_1 _ _)
  rw [el, er]

theorem lhs_out_0 (i : S128x2.Idx) (q : dot_S128x128_S128x2_S128x2_1_0_0_1_n_n.contr.Idx) :
    (dot_S128x128_S128x2_S128x2_1_0_0_1_n_n.lhsIdx i q 0).val = (i 0).val := by
  unfold DotDims.lhsIdx
  rw [dif_neg (show ¬(0 : Fin S128x128.rank) ∈ dot_S128x128_S128x2_S128x2_1_0_0_1_n_n.lhsBatch by decide), dif_pos (show (0 : Fin S128x128.rank) ∈ dot_S128x128_S128x2_S128x2_1_0_0_1_n_n.lhsNonContracting by decide)]
  rfl
theorem lhs_out_1 (i : S128x2.Idx) (q : dot_S128x128_S128x2_S128x2_1_0_0_1_n_n.contr.Idx) :
    (dot_S128x128_S128x2_S128x2_1_0_0_1_n_n.lhsIdx i q 1).val = (q ⟨0, by decide⟩).val :=
  dot_S128x128_S128x2_S128x2_1_0_0_1_n_n.lhsIdx_val_of_single rfl i q
theorem rhs_out_0 (i : S128x2.Idx) (q : dot_S128x128_S128x2_S128x2_1_0_0_1_n_n.contr.Idx) :
    (dot_S128x128_S128x2_S128x2_1_0_0_1_n_n.rhsIdx i q 0).val = (q ⟨0, by decide⟩).val :=
  dot_S128x128_S128x2_S128x2_1_0_0_1_n_n.rhsIdx_val_of_single rfl i q
theorem rhs_out_1 (i : S128x2.Idx) (q : dot_S128x128_S128x2_S128x2_1_0_0_1_n_n.contr.Idx) :
    (dot_S128x128_S128x2_S128x2_1_0_0_1_n_n.rhsIdx i q 1).val = (i 1).val := by
  unfold DotDims.rhsIdx
  rw [dif_neg (show ¬(1 : Fin S128x2.rank) ∈ dot_S128x128_S128x2_S128x2_1_0_0_1_n_n.rhsBatch by decide), dif_pos (show (1 : Fin S128x2.rank) ∈ dot_S128x128_S128x2_S128x2_1_0_0_1_n_n.rhsNonContracting by decide)]
  rfl

theorem matmul_out_apply (L : FVec Ideal S128x128 .bf16) (R : FVec Ideal S128x2 .bf16) (g : Fin 128) (c : Fin 2) :
    matmul dot_S128x128_S128x2_S128x2_1_0_0_1_n_n none L R (constant (F := Ideal) S128x2 .f32 0x00000000#32) (ix2 g c)
      = ∑ k : Fin 128, L (ix2 g k) * R (ix2 k c) := by
  simp only [matmul]
  rw [Ideal.matmul_constant_zero_apply, ← Equiv.sum_comp (contrEquiv1 dot_S128x128_S128x2_S128x2_1_0_0_1_n_n 128 rfl rfl).symm]
  refine Finset.sum_congr rfl fun k _ => ?_
  have hk := contrEquiv1_symm_val dot_S128x128_S128x2_S128x2_1_0_0_1_n_n 128 rfl rfl k
  have el : dot_S128x128_S128x2_S128x2_1_0_0_1_n_n.lhsIdx (ix2 g c) ((contrEquiv1 dot_S128x128_S128x2_S128x2_1_0_0_1_n_n 128 rfl rfl).symm k) = ix2 g k := funext fun a => Fin.ext (by
    match a with
    | ⟨0, _⟩ => exact lhs_out_0 _ _
    | ⟨1, _⟩ => exact (lhs_out_1 _ _).trans hk)
  have er : dot_S128x128_S128x2_S128x2_1_0_0_1_n_n.rhsIdx (ix2 g c) ((contrEquiv1 dot_S128x128_S128x2_S128x2_1_0_0_1_n_n 128 rfl rfl).symm k) = ix2 k c := funext fun a => Fin.ext (by
    match a with
    | ⟨0, _⟩ => exact (rhs_out_0 _ _).trans hk
    | ⟨1, _⟩ => exact rhs_out_1 _ _)
  rw [el, er]

theorem pay4_apply (v3 : Vec Ideal S5000x128 .f32) (v6 : Vec Ideal S5000x1 .i32) (v17 : Vec Ideal S128x128 .f32) (g k : Fin 128) :
    k5_pay4 (F := Ideal) v3 v6 v17 (ix2 g k)
      = v17 (ix2 g k) + ∑ r : Fin 5000, (if Cert.Spec.lands (v6 (ix2 r (0 : Fin 1))) g.val then v3 (ix2 r k) else 0) := by
  unfold k5_pay4
  simp only [shapeCast_self]
  rw [addf_apply, matmul_sums_apply]
  refine congrArg (v17 (ix2 g k) + ·) (Finset.sum_congr rfl fun r _ => ?_)
  rw [pay3_apply, truncf_apply]
  split_ifs
  · exact one_mul _
  · exact zero_mul _

theorem pay5_apply (v6 : Vec Ideal S5000x1 .i32) (v22 : Vec Ideal S128x1 .f32) (g : Fin 128) :
    k5_pay5 (F := Ideal) v6 v22 (ix2 g (0 : Fin 1))
      = v22 (ix2 g (0 : Fin 1)) + ∑ r : Fin 5000, (if Cert.Spec.lands (v6 (ix2 r (0 : Fin 1))) g.val then (1 : EReal) else 0) := by
  unfold k5_pay5
  simp only [shapeCast_self]
  rw [addf_apply, matmul_cnt_apply]
  refine congrArg (v22 (ix2 g (0 : Fin 1)) + ·) (Finset.sum_congr rfl fun r _ => ?_)
  rw [pay3_apply, broadcast_apply]
  show _ * Ideal.ofBits .bf16 0x3F80#16 = _
  rw [one_bf16, mul_one]

theorem bcast_col_f (x : FVec Ideal S128x1 .f32) (g k : Fin 128) :
    broadcastTo S128x128 x broadcasts_S128x1_S128x128 (ix2 g k) = x (ix2 g (0 : Fin 1)) := by
  refine broadcastTo_apply x broadcasts_S128x1_S128x128 (ix2 g k) (ix2 g (0 : Fin 1)) fun a => ?_
  match a with
  | ⟨0, _⟩ => show g.val = if (128 : Nat) = 1 then 0 else g.val; rw [if_neg (by decide)]
  | ⟨1, _⟩ => rfl

theorem pay6_apply (v30 : Vec Ideal S128x128 .f32) (v31 : Vec Ideal S128x1 .f32) (v37 : Vec Ideal S128x2 .f32)
    (v39 : Vec Ideal S1x2 .f32) (g : Fin 128) (c : Fin 2) :
    k5_pay6 (F := Ideal) v30 v31 v37 v39 (ix2 g c)
      = (∑ k : Fin 128, Ideal.div (v30 (ix2 g k)) (max (v31 (ix2 g (0 : Fin 1))) 1) * v37 (ix2 k c))
        + v39 (ix2 (0 : Fin 1) c) := by
  unfold k5_pay6
  simp only [shapeCast_self]
  rw [addf_apply, matmul_out_apply, broadcastTo_1b_ab_apply]
  refine congrArg (· + v39 (ix2 (0 : Fin 1) c)) (Finset.sum_congr rfl fun k _ => ?_)
  rw [truncf_apply, truncf_apply, divf_apply, bcast_col_f, maximumf_apply, broadcast_apply]
  show Ideal.div _ (max _ (Ideal.ofBits .f32 0x3F800000#32)) * _ = _
  rw [one_f32]

end Cert.KernelIdeal.HandV

end
-- ==== Proof.KI.PoolVal.lean ====
import proofs.«415659_j4501125726343_1_alg».proof.Proof.KI.Pool
import proofs.«415659_j4501125726343_1_alg».proof.Proof.KI.PoolPayload
import proofs.«415659_j4501125726343_1_alg».proof.Proof.SpecLaw
import Idealize.ShloMosaic.Lib.Pipeline.Value
import Idealize.ShloMosaic.Lib.ValueIdx
import Mathlib.Algebra.BigOperators.Intervals

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

abbrev harr (c : Dev nD) : Vec Ideal S100000x128 .f32 := V c (Pipeline.arrRef spec5 0)

abbrev barr (c : Dev nD) : Vec Ideal S100000x1 .i32 := V c (Pipeline.arrRef spec5 1)

abbrev warr (c : Dev nD) : Vec Ideal S128x2 .f32 := V c (Pipeline.arrRef spec5 2)

abbrev carr (c : Dev nD) : Vec Ideal S1x2 .f32 := V c (Pipeline.arrRef spec5 3)

abbrev hblk (c : Dev nD) (t : Fin cfg5.N) : Vec Ideal S5000x128 .f32 := iblk5 V c 0 t

abbrev bblk (c : Dev nD) (t : Fin cfg5.N) : Vec Ideal S5000x1 .i32 := iblk5 V c 1 t

abbrev wblk (c : Dev nD) (t : Fin cfg5.N) : Vec Ideal S128x2 .f32 := iblk5 V c 2 t

abbrev cblk (c : Dev nD) (t : Fin cfg5.N) : Vec Ideal S1x2 .f32 := iblk5 V c 3 t

theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

theorem hblk_apply (c : Dev nD) (t : Fin cfg5.N) (r : Fin 5000) (k : Fin 128) (h : 5000 * t.val + r.val < 100000) :
    hblk V c t (ix2 r k) = harr V c (ix2 ⟨5000 * t.val + r.val, h⟩ k) := by
  obtain ⟨e0, e1, -⟩ := idx_facts5 t
  show harr V c (((cfg5.win 0).blk t).view.emb (ix2 r k)) = harr V c (ix2 ⟨5000 * t.val + r.val, h⟩ k)
  refine congrArg (harr V c) (funext fun a => Fin.ext ?_)
  match a with
  | ⟨0, _⟩ => show win5_0.index t (0 : Fin 2) * 5000 + 1 * r.val = 5000 * t.val + r.val; omega
  | ⟨1, _⟩ => show win5_0.index t (1 : Fin 2) * 128 + 1 * k.val = k.val; omega

theorem bblk_apply (c : Dev nD) (t : Fin cfg5.N) (r : Fin 5000) (u : Fin 1) (h : 5000 * t.val + r.val < 100000) :
    bblk V c t (ix2 r u) = barr V c (ix2 ⟨5000 * t.val + r.val, h⟩ u) := by
  obtain ⟨-, -, e0, e1, -⟩ := idx_facts5 t
  show barr V c (((cfg5.win 1).blk t).view.emb (ix2 r u)) = barr V c (ix2 ⟨5000 * t.val + r.val, h⟩ u)
  refine congrArg (barr V c) (funext fun a => Fin.ext ?_)
  match a with
  | ⟨0, _⟩ => show win5_1.index t (0 : Fin 2) * 5000 + 1 * r.val = 5000 * t.val + r.val; omega
  | ⟨1, _⟩ => show win5_1.index t (1 : Fin 2) * 1 + 1 * u.val = u.val; omega

theorem wblk_apply (c : Dev nD) (t : Fin cfg5.N) (k : Fin 128) (c' : Fin 2) :
    wblk V c t (ix2 k c') = warr V c (ix2 k c') := by
  obtain ⟨-, -, -, -, e0, e1, -⟩ := idx_facts5 t
  show warr V c (((cfg5.win 2).blk t).view.emb (ix2 k c')) = warr V c (ix2 k c')
  refine congrArg (warr V c) (funext fun a => Fin.ext ?_)
  match a with
  | ⟨0, _⟩ => show win5_2.index t (0 : Fin 2) * 128 + 1 * k.val = k.val; omega
  | ⟨1, _⟩ => show win5_2.index t (1 : Fin 2) * 2 + 1 * c'.val = c'.val; omega

theorem cblk_apply (c : Dev nD) (t : Fin cfg5.N) (u : Fin 1) (c' : Fin 2) :
    cblk V c t (ix2 u c') = carr V c (ix2 u c') := by
  obtain ⟨-, -, -, -, -, -, e0, e1, -⟩ := idx_facts5 t
  show carr V c (((cfg5.win 3).blk t).view.emb (ix2 u c')) = carr V c (ix2 u c')
  refine congrArg (carr V c) (funext fun a => Fin.ext ?_)
  match a with
  | ⟨0, _⟩ => show win5_3.index t (0 : Fin 2) * 1 + 1 * u.val = u.val; omega
  | ⟨1, _⟩ => show win5_3.index t (1 : Fin 2) * 2 + 1 * c'.val = c'.val; omega

def blockSum (f : Fin 100000 → EReal) (t : ℕ) : EReal :=
  ∑ r : Fin 5000, if h : 5000 * t + r.val < 100000 then f ⟨5000 * t + r.val, h⟩ else 0

theorem blockSum_total (f : Fin 100000 → EReal) : ∑ t ∈ Finset.range 20, blockSum f t = ∑ i : Fin 100000, f i := by
  rw [Cert.Spec.sum_blocks f, Finset.sum_range]
  refine Finset.sum_congr rfl fun t _ => Finset.sum_congr rfl fun r _ => ?_
  exact dif_pos _

abbrev fsum (c : Dev nD) (g k : Fin 128) : Fin 100000 → EReal :=
  fun i => if Cert.Spec.lands (barr V c (ix2 i (0 : Fin 1))) g.val then harr V c (ix2 i k) else 0

abbrev fcnt (c : Dev nD) (g : Fin 128) : Fin 100000 → EReal :=
  fun i => if Cert.Spec.lands (barr V c (ix2 i (0 : Fin 1))) g.val then (1 : EReal) else 0

theorem step_sums (c : Dev nD) (t : Fin cfg5.N) (acc : Vec Ideal S128x128 .f32) (g k : Fin 128) :
    k5_pay4 (F := Ideal) (hblk V c t) (bblk V c t) acc (ix2 g k) = acc (ix2 g k) + blockSum (fsum V c g k) t.val := by
  have hN : cfg5.N = 20 := N_5
  have ht : t.val < 20 := by have := t.isLt; omega
  refine (pay4_apply (hblk V c t) (bblk V c t) acc g k).trans ?_
  unfold blockSum
  refine congrArg (acc (ix2 g k) + ·) (Finset.sum_congr rfl fun r _ => ?_)
  have h : 5000 * t.val + r.val < 100000 := by have := r.isLt; omega
  rw [dif_pos h, hblk_apply V c t r k h, bblk_apply V c t r 0 h]

theorem step_cnt (c : Dev nD) (t : Fin cfg5.N) (acc : Vec Ideal S128x1 .f32) (g : Fin 128) :
    k5_pay5 (F := Ideal) (bblk V c t) acc (ix2 g (0 : Fin 1)) = acc (ix2 g (0 : Fin 1)) + blockSum (fcnt V c g) t.val := by
  have hN : cfg5.N = 20 := N_5
  have ht : t.val < 20 := by have := t.isLt; omega
  refine (pay5_apply (bblk V c t) acc g).trans ?_
  unfold blockSum
  refine congrArg (acc (ix2 g (0 : Fin 1)) + ·) (Finset.sum_congr rfl fun r _ => ?_)
  have h : 5000 * t.val + r.val < 100000 := by have := r.isLt; omega
  rw [dif_pos h, bblk_apply V c t r 0 h]

theorem scAt5_closed (c : Dev nD) : ∀ (n : ℕ) (hn : n < cfg5.N) (g : Fin 128),
    (∀ k : Fin 128, (scAt5 V c n hn).1 (ix2 g k) = ∑ t ∈ Finset.range (n + 1), blockSum (fsum V c g k) t)
    ∧ (scAt5 V c n hn).2 (ix2 g (0 : Fin 1)) = ∑ t ∈ Finset.range (n + 1), blockSum (fcnt V c g) t
  | 0, hn, g => by
    refine ⟨fun k => ?_, ?_⟩
    · show k5_pay4 (F := Ideal) (hblk V c ⟨0, hn⟩) (bblk V c ⟨0, hn⟩) (k5_pay1 (F := Ideal)) (ix2 g k) = _
      rw [step_sums V c ⟨0, hn⟩ (k5_pay1 (F := Ideal)) g k, pay1_apply, zero_add, Finset.sum_range_one]
    · show k5_pay5 (F := Ideal) (bblk V c ⟨0, hn⟩) (k5_pay2 (F := Ideal)) (ix2 g (0 : Fin 1)) = _
      rw [step_cnt V c ⟨0, hn⟩ (k5_pay2 (F := Ideal)) g, pay2_apply, zero_add, Finset.sum_range_one]
  | n + 1, hn, g => by
    obtain ⟨ih1, ih2⟩ := scAt5_closed c n (Nat.lt_of_succ_lt hn) g
    refine ⟨fun k => ?_, ?_⟩
    · show k5_pay4 (F := Ideal) (hblk V c ⟨n + 1, hn⟩) (bblk V c ⟨n + 1, hn⟩) (scAt5 V c n (Nat.lt_of_succ_lt hn)).1 (ix2 g k) = _
      rw [step_sums V c ⟨n + 1, hn⟩ (scAt5 V c n (Nat.lt_of_succ_lt hn)).1 g k, ih1 k, Finset.sum_range_succ _ (n + 1)]
    · show k5_pay5 (F := Ideal) (bblk V c ⟨n + 1, hn⟩) (scAt5 V c n (Nat.lt_of_succ_lt hn)).2 (ix2 g (0 : Fin 1)) = _
      rw [step_cnt V c ⟨n + 1, hn⟩ (scAt5 V c n (Nat.lt_of_succ_lt hn)).2 g, ih2, Finset.sum_range_succ _ (n + 1)]

theorem out5_4_apply (c : Dev nD) (t : Fin cfg5.N) (ht : t.val = 19) (g : Fin 128) (c' : Fin 2) :
    out5_4 V c t (ix2 g c') = Cert.Spec.pool (fun i k => harr V c (ix2 i k)) (fun i => barr V c (ix2 i (0 : Fin 1)))
      (fun k c'' => warr V c (ix2 k c'')) (fun c'' => carr V c (ix2 (0 : Fin 1) c'')) g c' := by
  obtain ⟨h1, h2⟩ := scAt5_closed V c t.val t.isLt g
  have hr : Finset.range (t.val + 1) = Finset.range 20 := by rw [ht]
  rw [hr, blockSum_total] at h2
  refine (pay6_apply (scAt5 V c t.val t.isLt).1 (scAt5 V c t.val t.isLt).2 (wblk V c t) (cblk V c t) g c').trans ?_
  unfold Cert.Spec.pool
  refine congrArg₂ (· + ·) (Finset.sum_congr rfl fun k _ => ?_) (cblk_apply V c t 0 c')
  rw [h1 k, hr, blockSum_total, h2, wblk_apply V c t k c']
  rfl

def G5 (c : Dev nD) : Vec Ideal S128x2 .f32 := fun i =>
  Cert.Spec.pool (fun i k => harr V c (ix2 i k)) (fun i => barr V c (ix2 i (0 : Fin 1)))
    (fun k c'' => warr V c (ix2 k c'')) (fun c'' => carr V c (ix2 (0 : Fin 1) c''))
    ⟨(i 0).val, idx2_lt0 i⟩ ⟨(i 1).val, idx2_lt1 i⟩

theorem flushed5_4_eq (c : Dev nD) (t : Fin cfg5.N) (hf : (cfg5.win 4).flush t = true) :
    (dat5 V c).flushed 4 t = ((cfg5.win 4).blk t).view.read (Elt Ideal) (G5 V c) := by
  have hN : cfg5.N = 20 := N_5
  have ht : t.val = 19 := by have := (flush5_4 t).mp hf; have := t.isLt; omega
  show (cfg5.win 4).cut (grid5.coords t) ((dat5 V c).after 4 t) = _
  rw [after5_4]
  obtain ⟨-, -, -, -, -, -, -, -, e0, e1⟩ := idx_facts5 t
  refine funext fun (y : S128x2.Idx) => ?_
  obtain ⟨g, c', rfl⟩ : ∃ (g : Fin 128) (c' : Fin 2), y = ix2 g c' := ⟨y 0, y 1, eq_ix2 y⟩
  show out5_4 V c t (ix2 g c') = G5 V c (((cfg5.win 4).blk t).view.emb (ix2 g c'))
  rw [out5_4_apply V c t ht g c']
  unfold G5
  congr 1 <;> apply Fin.ext
  · show g.val = win5_4.index t (0 : Fin 2) * 128 + 1 * g.val; omega
  · show c'.val = win5_4.index t (1 : Fin 2) * 2 + 1 * c'.val; omega

theorem mem_blk5_4 (t : Fin cfg5.N) (i : S128x2.Idx) :
    i ∈ ((cfg5.win 4).blk t).view.set ↔ ∀ a : Fin 2, win5_4.index t a * S128x2.size a ≤ (i a).val
      ∧ (i a).val < win5_4.index t a * S128x2.size a + S128x2.size a := by
  show i ∈ ((View.whole main_v117).slice (win5_4.rect t)).set ↔ _
  rw [View.set_slice_whole, Rect.mem_set_unit]
  exact Iff.rfl

theorem cover5_4 (i : S128x2.Idx) :
    ∃ t : Fin cfg5.N, (cfg5.win 4).flush t = true ∧ i ∈ ((cfg5.win 4).blk t).view.set := by
  have hN : cfg5.N = 20 := N_5
  refine ⟨⟨19, by omega⟩, (flush5_4 _).mpr rfl, ?_⟩
  obtain ⟨-, -, -, -, -, -, -, -, e0, e1⟩ := idx_facts5 ⟨19, by omega⟩
  rw [mem_blk5_4]
  intro a
  match a with
  | ⟨0, _⟩ =>
    show win5_4.index ⟨19, _⟩ (0 : Fin 2) * 128 ≤ (i 0).val ∧ (i 0).val < win5_4.index ⟨19, _⟩ (0 : Fin 2) * 128 + 128
    have := idx2_lt0 i; omega
  | ⟨1, _⟩ =>
    show win5_4.index ⟨19, _⟩ (1 : Fin 2) * 2 ≤ (i 1).val ∧ (i 1).val < win5_4.index ⟨19, _⟩ (1 : Fin 2) * 2 + 2
    have := idx2_lt1 i; omega

theorem arr5_4_eq (c : Dev nD) : (dat5 V c).arrAt 4 cfg5.N = G5 V c :=
  (dat5 V c).arrAt_eq_of_cover 4 (G5 V c) (fun t hf => flushed5_4_eq V c t hf) cover5_4

theorem pool_val (c : Dev nD) (g : Fin 128) (c' : Fin 2) :
    ((dat5 V c).arrAt 4 cfg5.N : S128x2.Idx → EReal) (ix2 g c')
      = Cert.Spec.pool (fun i k => harr V c (ix2 i k)) (fun i => barr V c (ix2 i (0 : Fin 1)))
          (fun k c'' => warr V c (ix2 k c'')) (fun c'' => carr V c (ix2 (0 : Fin 1) c'')) g c' := by
  rw [arr5_4_eq]
  rfl

end Cert.KernelIdeal.HandV

end
-- ==== Proof.KI.NetVal.lean ====
import proofs.«415659_j4501125726343_1_alg».proof.Proof.KI.NetLay0
import proofs.«415659_j4501125726343_1_alg».proof.Proof.KI.NetLay1
import proofs.«415659_j4501125726343_1_alg».proof.Proof.KI.NetLay2
import proofs.«415659_j4501125726343_1_alg».proof.Proof.KI.NetLay3
import proofs.«415659_j4501125726343_1_alg».proof.Proof.KI.NetLay4
import proofs.«415659_j4501125726343_1_alg».proof.Proof.KI.Lay0
import proofs.«415659_j4501125726343_1_alg».proof.Proof.KI.PoolVal

set_option maxRecDepth 16384

noncomputable section

namespace Cert.KernelIdeal.HandV

open Cert.KernelIdeal Cert.KernelIdeal.Gen Cert.KernelIdeal.Hand
open Idealize.ShloMosaic Idealize.ShloMosaic.TcCoe ValueIdx
open Idealize.SL Idealize.SL.Sem

variable (m : (ℓ : Loc nD τ sig) → Buf (Elt Ideal) ℓ) (ρ : Dev nD → PrngReg) (c : Dev nD)

theorem pool_own (i : Fin 100000) (k : Fin 128) :
    (W11 m ρ c (Proc.devRef .tc main_v115) : S100000x128.Idx → EReal) (ix2 i k) = hid5 m ρ c i k :=
  congrFun (StableHlo.after_of_writes_sub hostOps5 (W10 m ρ c) hostOps5_writes (by decide : main_v115 ∉ hostOps5_W)) (ix2 i k)
theorem pool_batch (i : Fin 100000) :
    (W11 m ρ c (Proc.devRef .tc main_v0) : S100000x1.Idx → BitVec 32) (ix2 i (0 : Fin 1)) = netBatch m c i :=
  (congrFun (late_W11 m ρ c (r := main_v0) (by decide)) (ix2 i (0 : Fin 1))).trans (host0_batch (W0 m ρ c) i)
theorem pool_wc (k : Fin 128) (q : Fin 2) :
    (W11 m ρ c (Proc.devRef .tc main_arg14) : S128x2.Idx → EReal) (ix2 k q) = netWc m c k q :=
  congrFun (arg_W11 m ρ c (r := main_arg14) (by decide)) (ix2 k q)
theorem pool_bc (q : Fin 2) :
    (W11 m ρ c (Proc.devRef .tc main_v116) : S1x2.Idx → EReal) (ix2 (0 : Fin 1) q) = netBc m c q :=
  (host5_bc (W10 m ρ c) q).trans (congrFun (arg_W10 m ρ c (r := main_arg15) (by decide)) (ix1 q))

theorem pool_kernel (g : Fin 128) (q : Fin 2) :
    (W12 m ρ c (Proc.devRef .tc main_v117) : S128x2.Idx → EReal) (ix2 g q)
      = Cert.Spec.pool (hid5 m ρ c) (netBatch m c) (netWc m c) (netBc m c) g q := by
  have e : (W12 m ρ c (Proc.devRef .tc main_v117) : S128x2.Idx → EReal)
      = ((dat5 (F := Ideal) (Hand.V11 m ρ) c).arrAt 4 cfg5.N : S128x2.Idx → EReal) := W12_arr m ρ c 4
  refine (congrFun e (ix2 g q)).trans ((pool_val (Hand.V11 m ρ) c g q).trans ?_)
  exact pool_congr (fun i k => pool_own m ρ c i k) (fun i => pool_batch m ρ c i) (fun k q => pool_wc m ρ c k q)
    (fun q => pool_bc m ρ c q) g q

theorem kernel_val (g : Fin 128) (q : Fin 2) :
    (W12 m ρ c (Proc.devRef .tc main_v117) : S128x2.Idx → EReal) (ix2 g q)
      = Cert.Spec.netK (netX m c) (netSrc m c) (netDst m c) (netBatch m c) (netL0 m c) (netL m c 0) (netL m c 1)
          (netL m c 2) (netL m c 3) (netWc m c) (netBc m c) g q := by
  have e1 : hid1 m ρ c = Cert.Spec.layerK Cert.Spec.relu (netX m c) (netL0 m c).p (netL0 m c).W1 (netL0 m c).b1
      (netL0 m c).W2 (netL0 m c).b2 (netSrc m c) (netDst m c) :=
    funext fun i => funext fun j => layer0_val m ρ c i j
  have e2 : hid2 m ρ c = Cert.Spec.layerK Cert.Spec.relu (hid1 m ρ c) (netL m c 0).p (netL m c 0).W1 (netL m c 0).b1
      (netL m c 0).W2 (netL m c 0).b2 (netSrc m c) (netDst m c) :=
    funext fun i => funext fun j => layer1_val m ρ c i j
  have e3 : hid3 m ρ c = Cert.Spec.layerK Cert.Spec.relu (hid2 m ρ c) (netL m c 1).p (netL m c 1).W1 (netL m c 1).b1
      (netL m c 1).W2 (netL m c 1).b2 (netSrc m c) (netDst m c) :=
    funext fun i => funext fun j => layer2_val m ρ c i j
  have e4 : hid4 m ρ c = Cert.Spec.layerK Cert.Spec.relu (hid3 m ρ c) (netL m c 2).p (netL m c 2).W1 (netL m c 2).b1
      (netL m c 2).W2 (netL m c 2).b2 (netSrc m c) (netDst m c) :=
    funext fun i => funext fun j => layer3_val m ρ c i j
  have e5 : hid5 m ρ c = Cert.Spec.layerK id (hid4 m ρ c) (netL m c 3).p (netL m c 3).W1 (netL m c 3).b1
      (netL m c 3).W2 (netL m c 3).b2 (netSrc m c) (netDst m c) :=
    funext fun i => funext fun j => layer4_val m ρ c i j
  rw [pool_kernel m ρ c g q, e5, e4, e3, e2, e1]
  rfl

end Cert.KernelIdeal.HandV

end
-- ==== Proof.Bridge.lean ====
import proofs.«415659_j4501125726343_1_alg».proof.Defs
import proofs.«415659_j4501125726343_1_alg».proof.Proof.Gen.Pre_finite_inputs
import proofs.«415659_j4501125726343_1_alg».proof.Proof.Gen.ReferenceIdeal.Run
import proofs.«415659_j4501125726343_1_alg».proof.Proof.Gen.ReferenceIdeal.Read
import proofs.«415659_j4501125726343_1_alg».proof.Proof.Spec
import proofs.«415659_j4501125726343_1_alg».proof.Proof.SpecLaw
import proofs.«415659_j4501125726343_1_alg».proof.Proof.PreFinite
import proofs.«415659_j4501125726343_1_alg».proof.Proof.RefSide
import proofs.«415659_j4501125726343_1_alg».proof.Proof.KI.NetVal
import Idealize.ShloMosaic.Lib.ValueIdx

namespace Cert.Bridge

open Idealize.ShloMosaic Idealize.ShloMosaic.ValueIdx Idealize.SL.Sem

theorem result_at (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)))
    (ρ : Dev Cert.KernelIdeal.nD → PrngReg) (c : Dev Cert.KernelIdeal.nD) (g : Fin 128) (c' : Fin 2) :
    (Cert.ReferenceIdeal.Value.res_main_v174 (F := Ideal) m' c : Cert.ReferenceIdeal.S128x2.Idx → EReal) (ix2 g c')
      = (Cert.KernelIdeal.Hand.W12 (F := Ideal) m ρ c (Proc.devRef .tc Cert.KernelIdeal.main_v117) : Cert.KernelIdeal.S128x2.Idx → EReal) (ix2 g c') := by
  obtain ⟨e0, e1, e2, e3, e4, e5, e6, e7, e8, e9, e10, e11, e12, e13, e14, e15⟩ := hagree c
  rw [Cert.ReferenceIdeal.Read.val_main_v174_eq m' c, e0, e1, e2, e3, e4, e5, e6, e7, e8, e9, e10, e11, e12, e13, e14, e15,
    Cert.ReferenceIdeal.RefValue.ref_val]
  rw [Cert.Spec.netR_eq_netK _ _ _ _ _ _ _ _ _ _ _
    (fun d => Cert.PreFinite.p0_real _ _ _ _ _ _ _ _ _ _ _ _ _ _ _ _ (hpre c) d)
    (fun d => Cert.PreFinite.prest_real _ _ _ _ _ _ _ _ _ _ _ _ _ _ _ _ (hpre c) 0 d)
    (fun d => Cert.PreFinite.prest_real _ _ _ _ _ _ _ _ _ _ _ _ _ _ _ _ (hpre c) 1 d)
    (fun d => Cert.PreFinite.prest_real _ _ _ _ _ _ _ _ _ _ _ _ _ _ _ _ (hpre c) 2 d)
    (fun d => Cert.PreFinite.prest_real _ _ _ _ _ _ _ _ _ _ _ _ _ _ _ _ (hpre c) 3 d)]
  exact (Cert.KernelIdeal.HandV.kernel_val m ρ c g c').symm

/-- The reference's result is the edge-prompted network and the kernel's the split one; the precondition makes every prompt entry real. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)))
    (ρ : Dev Cert.KernelIdeal.nD → PrngReg) (c : Dev Cert.KernelIdeal.nD) :
    Cert.ReferenceIdeal.Value.res_main_v174 (F := Ideal) m' c
      = (Cert.KernelIdeal.Hand.W12 (F := Ideal) m ρ c (Proc.devRef .tc Cert.KernelIdeal.main_v117) :
          Buf (Elt Ideal) ((c.tc : Thread Cert.KernelIdeal.nD Cert.KernelIdeal.τ).loc Cert.KernelIdeal.main_v117)) := by
  show (Cert.ReferenceIdeal.Value.res_main_v174 (F := Ideal) m' c : Cert.ReferenceIdeal.S128x2.Idx → EReal)
    = (Cert.KernelIdeal.Hand.W12 (F := Ideal) m ρ c (Proc.devRef .tc Cert.KernelIdeal.main_v117) : Cert.KernelIdeal.S128x2.Idx → EReal)
  funext j
  rw [eq_ix2 j]
  exact result_at m m' hpre hagree ρ c (j 0) (j 1)

end Cert.Bridge
-- ==== Proof.lean ====
import proofs.«415659_j4501125726343_1_alg».proof.Defs
import proofs.«415659_j4501125726343_1_alg».proof.Proof.Gen.Kernel
import proofs.«415659_j4501125726343_1_alg».proof.Proof.Gen.KernelIdeal
import proofs.«415659_j4501125726343_1_alg».proof.Proof.Gen.ReferenceIdeal
import proofs.«415659_j4501125726343_1_alg».proof.Proof.Gen.Pre_finite_inputs
import proofs.«415659_j4501125726343_1_alg».proof.Proof.Gen.ReferenceIdeal.Run
import proofs.«415659_j4501125726343_1_alg».proof.Proof.KI.Run
import proofs.«415659_j4501125726343_1_alg».proof.Proof.Bridge
import Idealize.ShloMosaic.Adequacy
import Idealize.ShloMosaic.Init

noncomputable section

namespace Cert.Proof

open Idealize.ShloMosaic Idealize.ShloMosaic.TcCoe Idealize.SL.Sem

open Lean Elab Tactic Meta in
/-- Closes the goal with a term whose type unfolds to the goal, the unfolding left to the final type check. -/
elab "exact_unfolding " e:term : tactic => withMainContext do
  let v ← Term.elabTerm e none
  Term.synthesizeSyntheticMVarsNoPostponing
  (← getMainGoal).assign (← instantiateMVars v)

/-- The run of the six regions is proved once, at every float type, with the result named; a frame drops the result. -/
theorem frame_kernelIdeal : Cert.frame_KernelIdeal := fun m ρ _ =>
  (θ_run Cert.KernelIdeal.defs _ _).mono (fun _ h c => (h c).2) (Cert.KernelIdeal.Hand.run_val m ρ)

/-- The idealization rewrote nothing, so the two kernel programs are one text under two namespaces: the word-level
    frame is that text's frame at the other float type. -/
theorem frame_kernel : Cert.frame_Kernel := by
  intro m ρ _
  exact_unfolding (θ_run _ _ _).mono (fun _ h c => (h c).2) (Cert.KernelIdeal.Hand.run_val (F := Bits) m ρ)

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at what the kernel's last region leaves. -/
theorem algebraic : Cert.algebraic_KernelIdeal_ReferenceIdeal := by
  intro m ρ m' ρ' hpre hagree
  refine ⟨fun c => Cert.KernelIdeal.Hand.W12 (F := Ideal) m ρ c (Proc.devRef .tc Cert.KernelIdeal.main_v117),
    Cert.KernelIdeal.Hand.run_val m ρ, ?_⟩
  exact (θ_run (Cert.ReferenceIdeal.defs (F := Ideal)) _ _).mono
    (fun _ h c => ⟨(h c).1.trans (Cert.Bridge.result_eq m m' hpre hagree ρ c), (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
